-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S16384x1024 : Shape := ⟨2, ![16384, 1024]⟩
abbrev S8192x1024 : Shape := ⟨2, ![8192, 1024]⟩
abbrev S2x512x1024 : Shape := ⟨3, ![2, 512, 1024]⟩
abbrev S18 : Shape := ⟨1, ![18]⟩
abbrev S2 : Shape := ⟨1, ![2]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩
abbrev S1x384x1024 : Shape := ⟨3, ![1, 384, 1024]⟩
abbrev S384x1024 : Shape := ⟨2, ![384, 1024]⟩
abbrev S1x512x1024 : Shape := ⟨3, ![1, 512, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .local _ .vmem, ⟨0, _⟩ => ⟨S8192x1024, .bf16⟩
  | .local _ .vmem, ⟨1, _⟩ => ⟨S8192x1024, .bf16⟩
  | .local _ .vmem, ⟨2, _⟩ => ⟨S8192x1024, .bf16⟩
  | .local _ .vmem, ⟨3, _⟩ => ⟨S2x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v12 : BitVec 32 := Scalar.muli v2 c2_i32_7
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v14 : BitVec 32 := Scalar.muli v6 c1_i32_8
  let v15 : BitVec 32 := Scalar.addi v13 v14
  v15.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v16 : BitVec 32 := Scalar.muli v7 c2_i32_10
  let v17 : BitVec 32 := Scalar.addi c0_i32_11 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v18 : BitVec 32 := Scalar.muli v5 c1_i32_12
  let v19 : BitVec 32 := Scalar.addi v17 v18
  v19.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let v20 : BitVec 32 := Scalar.addi v8 c0_i32_14
  let c0_i32_19 : BitVec 32 := 0#32
  ![v20.toNat, 0]
def k0_off2 (d0 : Dev nD) (c128_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let v26 : BitVec 32 := Scalar.addi v8 c128_i32
  let c0_i32_24 : BitVec 32 := 0#32
  ![v26.toNat, 0]
def k0_dev3 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v43 : BitVec 32 := Scalar.muli v2 c2_i32_36
  let v44 : BitVec 32 := Scalar.addi c0_i32_37 v43
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v45 : BitVec 32 := Scalar.muli v6 c1_i32_38
  let v46 : BitVec 32 := Scalar.addi v44 v45
  v46.toNat
def k0_off3 (d0 : Dev nD) (c512_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let v53 : BitVec 32 := Scalar.addi v8 c512_i32
  let c0_i32_47 : BitVec 32 := 0#32
  ![v53.toNat, 0]
def k0_dev4 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v70 : BitVec 32 := Scalar.muli v2 c2_i32_58
  let v71 : BitVec 32 := Scalar.addi c0_i32_59 v70
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v72 : BitVec 32 := Scalar.muli v6 c1_i32_60
  let v73 : BitVec 32 := Scalar.addi v71 v72
  v73.toNat
def k0_dev5 (d0 : Dev nD) : Nat :=
  let c0_i32_84 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_83 : BitVec 32 := 2#32
  let v95 : BitVec 32 := Scalar.muli v7 c2_i32_83
  let v96 : BitVec 32 := Scalar.addi c0_i32_84 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_85 : BitVec 32 := 1#32
  let v97 : BitVec 32 := Scalar.muli v5 c1_i32_85
  let v98 : BitVec 32 := Scalar.addi v96 v97
  v98.toNat
def k0_dev6 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v126 : BitVec 32 := Scalar.muli v2 c2_i32_109
  let v127 : BitVec 32 := Scalar.addi c0_i32_110 v126
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_111 : BitVec 32 := 1#32
  let v128 : BitVec 32 := Scalar.muli v6 c1_i32_111
  let v129 : BitVec 32 := Scalar.addi v127 v128
  v129.toNat
def k0_dev7 (d0 : Dev nD) : Nat :=
  let c0_i32_135 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_134 : BitVec 32 := 2#32
  let v151 : BitVec 32 := Scalar.muli v7 c2_i32_134
  let v152 : BitVec 32 := Scalar.addi c0_i32_135 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v153 : BitVec 32 := Scalar.muli v5 c1_i32_136
  let v154 : BitVec 32 := Scalar.addi v152 v153
  v154.toNat
def k0_dev8 (d0 : Dev nD) : Nat :=
  let c0_i32_160 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_159 : BitVec 32 := 2#32
  let v182 : BitVec 32 := Scalar.muli v2 c2_i32_159
  let v183 : BitVec 32 := Scalar.addi c0_i32_160 v182
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_161 : BitVec 32 := 1#32
  let v184 : BitVec 32 := Scalar.muli v6 c1_i32_161
  let v185 : BitVec 32 := Scalar.addi v183 v184
  v185.toNat
def k0_dev9 (d0 : Dev nD) : Nat :=
  let c0_i32_185 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_184 : BitVec 32 := 2#32
  let v207 : BitVec 32 := Scalar.muli v7 c2_i32_184
  let v208 : BitVec 32 := Scalar.addi c0_i32_185 v207
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_186 : BitVec 32 := 1#32
  let v209 : BitVec 32 := Scalar.muli v5 c1_i32_186
  let v210 : BitVec 32 := Scalar.addi v208 v209
  v210.toNat
def k0_dev10 (d0 : Dev nD) : Nat :=
  let c0_i32_210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_209 : BitVec 32 := 2#32
  let v238 : BitVec 32 := Scalar.muli v2 c2_i32_209
  let v239 : BitVec 32 := Scalar.addi c0_i32_210 v238
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_211 : BitVec 32 := 1#32
  let v240 : BitVec 32 := Scalar.muli v6 c1_i32_211
  let v241 : BitVec 32 := Scalar.addi v239 v240
  v241.toNat
def k0_dev11 (d0 : Dev nD) : Nat :=
  let c0_i32_235 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_234 : BitVec 32 := 2#32
  let v263 : BitVec 32 := Scalar.muli v7 c2_i32_234
  let v264 : BitVec 32 := Scalar.addi c0_i32_235 v263
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v265 : BitVec 32 := Scalar.muli v5 c1_i32_236
  let v266 : BitVec 32 := Scalar.addi v264 v265
  v266.toNat
def k0_dev12 (d0 : Dev nD) : Nat :=
  let c0_i32_260 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_259 : BitVec 32 := 2#32
  let v294 : BitVec 32 := Scalar.muli v2 c2_i32_259
  let v295 : BitVec 32 := Scalar.addi c0_i32_260 v294
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_261 : BitVec 32 := 1#32
  let v296 : BitVec 32 := Scalar.muli v6 c1_i32_261
  let v297 : BitVec 32 := Scalar.addi v295 v296
  v297.toNat
def k0_dev13 (d0 : Dev nD) : Nat :=
  let c0_i32_285 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_284 : BitVec 32 := 2#32
  let v319 : BitVec 32 := Scalar.muli v7 c2_i32_284
  let v320 : BitVec 32 := Scalar.addi c0_i32_285 v319
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_286 : BitVec 32 := 1#32
  let v321 : BitVec 32 := Scalar.muli v5 c1_i32_286
  let v322 : BitVec 32 := Scalar.addi v320 v321
  v322.toNat
def k0_dev14 (d0 : Dev nD) : Nat :=
  let c0_i32_310 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_309 : BitVec 32 := 2#32
  let v350 : BitVec 32 := Scalar.muli v2 c2_i32_309
  let v351 : BitVec 32 := Scalar.addi c0_i32_310 v350
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_311 : BitVec 32 := 1#32
  let v352 : BitVec 32 := Scalar.muli v6 c1_i32_311
  let v353 : BitVec 32 := Scalar.addi v351 v352
  v353.toNat
def k0_dev15 (d0 : Dev nD) : Nat :=
  let c0_i32_335 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_334 : BitVec 32 := 2#32
  let v375 : BitVec 32 := Scalar.muli v7 c2_i32_334
  let v376 : BitVec 32 := Scalar.addi c0_i32_335 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_336 : BitVec 32 := 1#32
  let v377 : BitVec 32 := Scalar.muli v5 c1_i32_336
  let v378 : BitVec 32 := Scalar.addi v376 v377
  v378.toNat
def k0_dev16 (d0 : Dev nD) : Nat :=
  let c0_i32_360 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_359 : BitVec 32 := 2#32
  let v406 : BitVec 32 := Scalar.muli v2 c2_i32_359
  let v407 : BitVec 32 := Scalar.addi c0_i32_360 v406
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_361 : BitVec 32 := 1#32
  let v408 : BitVec 32 := Scalar.muli v6 c1_i32_361
  let v409 : BitVec 32 := Scalar.addi v407 v408
  v409.toNat
def k0_dev17 (d0 : Dev nD) : Nat :=
  let c0_i32_385 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_384 : BitVec 32 := 2#32
  let v431 : BitVec 32 := Scalar.muli v7 c2_i32_384
  let v432 : BitVec 32 := Scalar.addi c0_i32_385 v431
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_386 : BitVec 32 := 1#32
  let v433 : BitVec 32 := Scalar.muli v5 c1_i32_386
  let v434 : BitVec 32 := Scalar.addi v432 v433
  v434.toNat
def k0_dev18 (d0 : Dev nD) : Nat :=
  let c0_i32_410 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_409 : BitVec 32 := 2#32
  let v462 : BitVec 32 := Scalar.muli v2 c2_i32_409
  let v463 : BitVec 32 := Scalar.addi c0_i32_410 v462
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_411 : BitVec 32 := 1#32
  let v464 : BitVec 32 := Scalar.muli v6 c1_i32_411
  let v465 : BitVec 32 := Scalar.addi v463 v464
  v465.toNat
def k0_dev19 (d0 : Dev nD) : Nat :=
  let c0_i32_435 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_434 : BitVec 32 := 2#32
  let v487 : BitVec 32 := Scalar.muli v7 c2_i32_434
  let v488 : BitVec 32 := Scalar.addi c0_i32_435 v487
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_436 : BitVec 32 := 1#32
  let v489 : BitVec 32 := Scalar.muli v5 c1_i32_436
  let v490 : BitVec 32 := Scalar.addi v488 v489
  v490.toNat
def k0_dev20 (d0 : Dev nD) : Nat :=
  let c0_i32_460 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_459 : BitVec 32 := 2#32
  let v518 : BitVec 32 := Scalar.muli v2 c2_i32_459
  let v519 : BitVec 32 := Scalar.addi c0_i32_460 v518
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_461 : BitVec 32 := 1#32
  let v520 : BitVec 32 := Scalar.muli v6 c1_i32_461
  let v521 : BitVec 32 := Scalar.addi v519 v520
  v521.toNat
def k0_dev21 (d0 : Dev nD) : Nat :=
  let c0_i32_485 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_484 : BitVec 32 := 2#32
  let v543 : BitVec 32 := Scalar.muli v7 c2_i32_484
  let v544 : BitVec 32 := Scalar.addi c0_i32_485 v543
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_486 : BitVec 32 := 1#32
  let v545 : BitVec 32 := Scalar.muli v5 c1_i32_486
  let v546 : BitVec 32 := Scalar.addi v544 v545
  v546.toNat
def k0_dev22 (d0 : Dev nD) : Nat :=
  let c0_i32_510 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_509 : BitVec 32 := 2#32
  let v574 : BitVec 32 := Scalar.muli v2 c2_i32_509
  let v575 : BitVec 32 := Scalar.addi c0_i32_510 v574
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_511 : BitVec 32 := 1#32
  let v576 : BitVec 32 := Scalar.muli v6 c1_i32_511
  let v577 : BitVec 32 := Scalar.addi v575 v576
  v577.toNat
def k0_dev23 (d0 : Dev nD) : Nat :=
  let c0_i32_535 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_534 : BitVec 32 := 2#32
  let v599 : BitVec 32 := Scalar.muli v7 c2_i32_534
  let v600 : BitVec 32 := Scalar.addi c0_i32_535 v599
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_536 : BitVec 32 := 1#32
  let v601 : BitVec 32 := Scalar.muli v5 c1_i32_536
  let v602 : BitVec 32 := Scalar.addi v600 v601
  v602.toNat
def k0_dev24 (d0 : Dev nD) : Nat :=
  let c0_i32_560 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_559 : BitVec 32 := 2#32
  let v630 : BitVec 32 := Scalar.muli v2 c2_i32_559
  let v631 : BitVec 32 := Scalar.addi c0_i32_560 v630
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_561 : BitVec 32 := 1#32
  let v632 : BitVec 32 := Scalar.muli v6 c1_i32_561
  let v633 : BitVec 32 := Scalar.addi v631 v632
  v633.toNat
def k0_dev25 (d0 : Dev nD) : Nat :=
  let c0_i32_585 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_584 : BitVec 32 := 2#32
  let v655 : BitVec 32 := Scalar.muli v7 c2_i32_584
  let v656 : BitVec 32 := Scalar.addi c0_i32_585 v655
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_586 : BitVec 32 := 1#32
  let v657 : BitVec 32 := Scalar.muli v5 c1_i32_586
  let v658 : BitVec 32 := Scalar.addi v656 v657
  v658.toNat
def k0_dev26 (d0 : Dev nD) : Nat :=
  let c0_i32_610 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_609 : BitVec 32 := 2#32
  let v686 : BitVec 32 := Scalar.muli v2 c2_i32_609
  let v687 : BitVec 32 := Scalar.addi c0_i32_610 v686
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_611 : BitVec 32 := 1#32
  let v688 : BitVec 32 := Scalar.muli v6 c1_i32_611
  let v689 : BitVec 32 := Scalar.addi v687 v688
  v689.toNat
def k0_dev27 (d0 : Dev nD) : Nat :=
  let c0_i32_635 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_634 : BitVec 32 := 2#32
  let v711 : BitVec 32 := Scalar.muli v7 c2_i32_634
  let v712 : BitVec 32 := Scalar.addi c0_i32_635 v711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_636 : BitVec 32 := 1#32
  let v713 : BitVec 32 := Scalar.muli v5 c1_i32_636
  let v714 : BitVec 32 := Scalar.addi v712 v713
  v714.toNat
def k0_dev28 (d0 : Dev nD) : Nat :=
  let c0_i32_660 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_659 : BitVec 32 := 2#32
  let v742 : BitVec 32 := Scalar.muli v2 c2_i32_659
  let v743 : BitVec 32 := Scalar.addi c0_i32_660 v742
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_661 : BitVec 32 := 1#32
  let v744 : BitVec 32 := Scalar.muli v6 c1_i32_661
  let v745 : BitVec 32 := Scalar.addi v743 v744
  v745.toNat
def k0_dev29 (d0 : Dev nD) : Nat :=
  let c0_i32_685 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_684 : BitVec 32 := 2#32
  let v767 : BitVec 32 := Scalar.muli v7 c2_i32_684
  let v768 : BitVec 32 := Scalar.addi c0_i32_685 v767
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_686 : BitVec 32 := 1#32
  let v769 : BitVec 32 := Scalar.muli v5 c1_i32_686
  let v770 : BitVec 32 := Scalar.addi v768 v769
  v770.toNat
def k0_dev30 (d0 : Dev nD) : Nat :=
  let c0_i32_710 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_709 : BitVec 32 := 2#32
  let v798 : BitVec 32 := Scalar.muli v2 c2_i32_709
  let v799 : BitVec 32 := Scalar.addi c0_i32_710 v798
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_711 : BitVec 32 := 1#32
  let v800 : BitVec 32 := Scalar.muli v6 c1_i32_711
  let v801 : BitVec 32 := Scalar.addi v799 v800
  v801.toNat
def k0_dev31 (d0 : Dev nD) : Nat :=
  let c0_i32_735 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_734 : BitVec 32 := 2#32
  let v823 : BitVec 32 := Scalar.muli v7 c2_i32_734
  let v824 : BitVec 32 := Scalar.addi c0_i32_735 v823
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_736 : BitVec 32 := 1#32
  let v825 : BitVec 32 := Scalar.muli v5 c1_i32_736
  let v826 : BitVec 32 := Scalar.addi v824 v825
  v826.toNat
def k0_dev32 (d0 : Dev nD) : Nat :=
  let c0_i32_760 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_759 : BitVec 32 := 2#32
  let v854 : BitVec 32 := Scalar.muli v2 c2_i32_759
  let v855 : BitVec 32 := Scalar.addi c0_i32_760 v854
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_761 : BitVec 32 := 1#32
  let v856 : BitVec 32 := Scalar.muli v6 c1_i32_761
  let v857 : BitVec 32 := Scalar.addi v855 v856
  v857.toNat
def k0_dev33 (d0 : Dev nD) : Nat :=
  let c0_i32_785 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_784 : BitVec 32 := 2#32
  let v879 : BitVec 32 := Scalar.muli v7 c2_i32_784
  let v880 : BitVec 32 := Scalar.addi c0_i32_785 v879
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_786 : BitVec 32 := 1#32
  let v881 : BitVec 32 := Scalar.muli v5 c1_i32_786
  let v882 : BitVec 32 := Scalar.addi v880 v881
  v882.toNat
def k0_dev34 (d0 : Dev nD) : Nat :=
  let c0_i32_810 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_809 : BitVec 32 := 2#32
  let v910 : BitVec 32 := Scalar.muli v2 c2_i32_809
  let v911 : BitVec 32 := Scalar.addi c0_i32_810 v910
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_811 : BitVec 32 := 1#32
  let v912 : BitVec 32 := Scalar.muli v6 c1_i32_811
  let v913 : BitVec 32 := Scalar.addi v911 v912
  v913.toNat
def k0_dev35 (d0 : Dev nD) : Nat :=
  let c0_i32_835 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_834 : BitVec 32 := 2#32
  let v935 : BitVec 32 := Scalar.muli v7 c2_i32_834
  let v936 : BitVec 32 := Scalar.addi c0_i32_835 v935
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_836 : BitVec 32 := 1#32
  let v937 : BitVec 32 := Scalar.muli v5 c1_i32_836
  let v938 : BitVec 32 := Scalar.addi v936 v937
  v938.toNat
def k0_dev36 (d0 : Dev nD) : Nat :=
  let c0_i32_855 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_854 : BitVec 32 := 2#32
  let v960 : BitVec 32 := Scalar.muli v2 c2_i32_854
  let v961 : BitVec 32 := Scalar.addi c0_i32_855 v960
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_856 : BitVec 32 := 1#32
  let v962 : BitVec 32 := Scalar.muli v6 c1_i32_856
  let v963 : BitVec 32 := Scalar.addi v961 v962
  v963.toNat
def k0_dev37 (d0 : Dev nD) : Nat :=
  let c0_i32_880 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_879 : BitVec 32 := 2#32
  let v985 : BitVec 32 := Scalar.muli v7 c2_i32_879
  let v986 : BitVec 32 := Scalar.addi c0_i32_880 v985
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_881 : BitVec 32 := 1#32
  let v987 : BitVec 32 := Scalar.muli v5 c1_i32_881
  let v988 : BitVec 32 := Scalar.addi v986 v987
  v988.toNat
def k0_dev38 (d0 : Dev nD) : Nat :=
  let c0_i32_908 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_907 : BitVec 32 := 2#32
  let v1014 : BitVec 32 := Scalar.muli v7 c2_i32_907
  let v1015 : BitVec 32 := Scalar.addi c0_i32_908 v1014
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_909 : BitVec 32 := 1#32
  let v1016 : BitVec 32 := Scalar.muli v5 c1_i32_909
  let v1017 : BitVec 32 := Scalar.addi v1015 v1016
  v1017.toNat
def k0_off4 (d0 : Dev nD) (c0_i32_917 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c8192_i32_5 : BitVec 32 := 8192#32
  let v10 : BitVec 32 := Scalar.muli v9 c8192_i32_5
  let v1028 : BitVec 32 := Scalar.addi v10 c0_i32_917
  let c0_i32_923 : BitVec 32 := 0#32
  ![v1028.toNat, 0]
def k0_off5 (d0 : Dev nD) (c128_i32_926 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c8192_i32_5 : BitVec 32 := 8192#32
  let v10 : BitVec 32 := Scalar.muli v9 c8192_i32_5
  let v1037 : BitVec 32 := Scalar.addi v10 c128_i32_926
  let c0_i32_932 : BitVec 32 := 0#32
  ![v1037.toNat, 0]
def k0_off6 (d0 : Dev nD) (c512_i32_935 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c8192_i32_5 : BitVec 32 := 8192#32
  let v10 : BitVec 32 := Scalar.muli v9 c8192_i32_5
  let v1046 : BitVec 32 := Scalar.addi v10 c512_i32_935
  let c0_i32_941 : BitVec 32 := 0#32
  ![v1046.toNat, 0]

class Facts₀ : Prop where
  hamt_1 : (1#32 : BitVec 32).msb = false
  hamt_2 : (2#32 : BitVec 32).msb = false
  inb_S2_S1_0 : ∀ a, (![0] : Fin 1 → Nat) a + S1.size a ≤ S2.size a
  squeezes_S1_S_ : S1.Squeezes S_
  inb_S2x512x1024_S1x128x1024_0_0_0 : ∀ a, (![0, 0, 0] : Fin 3 → Nat) a + S1x128x1024.size a ≤ S2x512x1024.size a
  squeezes_S1x128x1024_S128x1024 : S1x128x1024.Squeezes S128x1024
  inb_S2_S1_1 : ∀ a, (![1] : Fin 1 → Nat) a + S1.size a ≤ S2.size a
  inb_S2x512x1024_S1x384x1024_1_0_0 : ∀ a, (![1, 0, 0] : Fin 3 → Nat) a + S1x384x1024.size a ≤ S2x512x1024.size a
  squeezes_S1x384x1024_S384x1024 : S1x384x1024.Squeezes S384x1024
  h_S1x128x1024 : 0 < S1x128x1024.numel
  shapeCasts_S1x128x1024_S128x1024 : S1x128x1024.ShapeCasts S128x1024
  bitsLt_bf16_f32 : FTy.bits .bf16 < FTy.bits .f32
  inb_S8192x1024_S128x1024_0_0 : ∀ a, (![0, 0] : Fin 2 → Nat) a + S128x1024.size a ≤ S8192x1024.size a
  h_S128x1024 : 0 < S128x1024.numel
  shapeCasts_S128x1024_S128x1024 : S128x1024.ShapeCasts S128x1024
  packedbf16_S8192x1024_S128x1024_0_0 : (Rect.unit (s := S8192x1024) ![0, 0] S128x1024.size inb_S8192x1024_S128x1024_0_0).PackedRows (EltTy.packing .bf16)
  inb_S18_S1_0 : ∀ a, (![0] : Fin 1 → Nat) a + S1.size a ≤ S18.size a
  wordsbf16_S8192x1024_S128x1024_0_0 : (Rect.unit (s := S8192x1024) ![0, 0] S128x1024.size inb_S8192x1024_S128x1024_0_0).WholeWords (EltTy.packing .bf16)
  inb_S2x512x1024_S1x512x1024_0_0_0 : ∀ a, (![0, 0, 0] : Fin 3 → Nat) a + S1x512x1024.size a ≤ S2x512x1024.size a
  squeezes_S1x512x1024_S512x1024 : S1x512x1024.Squeezes S512x1024
  h_S1x384x1024 : 0 < S1x384x1024.numel
  shapeCasts_S1x384x1024_S384x1024 : S1x384x1024.ShapeCasts S384x1024
  inb_S8192x1024_S384x1024_128_0 : ∀ a, (![128, 0] : Fin 2 → Nat) a + S384x1024.size a ≤ S8192x1024.size a
  h_S384x1024 : 0 < S384x1024.numel
  shapeCasts_S384x1024_S384x1024 : S384x1024.ShapeCasts S384x1024
  packedbf16_S8192x1024_S384x1024_128_0 : (Rect.unit (s := S8192x1024) ![128, 0] S384x1024.size inb_S8192x1024_S384x1024_128_0).PackedRows (EltTy.packing .bf16)
  inb_S18_S1_1 : ∀ a, (![1] : Fin 1 → Nat) a + S1.size a ≤ S18.size a
  wordsbf16_S8192x1024_S384x1024_128_0 : (Rect.unit (s := S8192x1024) ![128, 0] S384x1024.size inb_S8192x1024_S384x1024_128_0).WholeWords (EltTy.packing .bf16)
  inb_S2x512x1024_S1x512x1024_1_0_0 : ∀ a, (![1, 0, 0] : Fin 3 → Nat) a + S1x512x1024.size a ≤ S2x512x1024.size a
  h_S1x512x1024 : 0 < S1x512x1024.numel
  shapeCasts_S1x512x1024_S512x1024 : S1x512x1024.ShapeCasts S512x1024
  inb_S8192x1024_S512x1024_512_0 : ∀ a, (![512, 0] : Fin 2 → Nat) a + S512x1024.size a ≤ S8192x1024.size a
  h_S512x1024 : 0 < S512x1024.numel
  shapeCasts_S512x1024_S512x1024 : S512x1024.ShapeCasts S512x1024
  packedbf16_S8192x1024_S512x1024_512_0 : (Rect.unit (s := S8192x1024) ![512, 0] S512x1024.size inb_S8192x1024_S512x1024_512_0).PackedRows (EltTy.packing .bf16)
  inb_S18_S1_2 : ∀ a, (![2] : Fin 1 → Nat) a + S1.size a ≤ S18.size a
  wordsbf16_S8192x1024_S512x1024_512_0 : (Rect.unit (s := S8192x1024) ![512, 0] S512x1024.size inb_S8192x1024_S512x1024_512_0).WholeWords (EltTy.packing .bf16)
  inb_S8192x1024_S512x1024_1024_0 : ∀ a, (![1024, 0] : Fin 2 → Nat) a + S512x1024.size a ≤ S8192x1024.size a
  packedbf16_S8192x1024_S512x1024_1024_0 : (Rect.unit (s := S8192x1024) ![1024, 0] S512x1024.size inb_S8192x1024_S512x1024_1024_0).PackedRows (EltTy.packing .bf16)
  inb_S18_S1_3 : ∀ a, (![3] : Fin 1 → Nat) a + S1.size a ≤ S18.size a
  wordsbf16_S8192x1024_S512x1024_1024_0 : (Rect.unit (s := S8192x1024) ![1024, 0] S512x1024.size inb_S8192x1024_S512x1024_1024_0).WholeWords (EltTy.packing .bf16)
  inb_S8192x1024_S512x1024_1536_0 : ∀ a, (![1536, 0] : Fin 2 → Nat) a + S512x1024.size a ≤ S8192x1024.size a
  packedbf16_S8192x1024_S512x1024_1536_0 : (Rect.unit (s := S8192x1024) ![1536, 0] S512x1024.size inb_S8192x1024_S512x1024_1536_0).PackedRows (EltTy.packing .bf16)
  inb_S18_S1_4 : ∀ a, (![4] : Fin 1 → Nat) a + S1.size a ≤ S18.size a
  wordsbf16_S8192x1024_S512x1024_1536_0 : (Rect.unit (s := S8192x1024) ![1536, 0] S512x1024.size inb_S8192x1024_S512x1024_1536_0).WholeWords (EltTy.packing .bf16)
  inb_S8192x1024_S512x1024_2048_0 : ∀ a, (![2048, 0] : Fin 2 → Nat) a + S512x1024.size a ≤ S8192x1024.size a
  packedbf16_S8192x1024_S512x1024_2048_0 : (Rect.unit (s := S8192x1024) ![2048, 0] S512x1024.size inb_S8192x1024_S512x1024_2048_0).PackedRows (EltTy.packing .bf16)
  inb_S18_S1_5 : ∀ a, (![5] : Fin 1 → Nat) a + S1.size a ≤ S18.size a
  wordsbf16_S8192x1024_S512x1024_2048_0 : (Rect.unit (s := S8192x1024) ![2048, 0] S512x1024.size inb_S8192x1024_S512x1024_2048_0).WholeWords (EltTy.packing .bf16)
  inb_S8192x1024_S512x1024_2560_0 : ∀ a, (![2560, 0] : Fin 2 → Nat) a + S512x1024.size a ≤ S8192x1024.size a
  packedbf16_S8192x1024_S512x1024_2560_0 : (Rect.unit (s := S8192x1024) ![2560, 0] S512x1024.size inb_S8192x1024_S512x1024_2560_0).PackedRows (EltTy.packing .bf16)
  inb_S18_S1_6 : ∀ a, (![6] : Fin 1 → Nat) a + S1.size a ≤ S18.size a
  wordsbf16_S8192x1024_S512x1024_2560_0 : (Rect.unit (s := S8192x1024) ![2560, 0] S512x1024.size inb_S8192x1024_S512x1024_2560_0).WholeWords (EltTy.packing .bf16)
  inb_S8192x1024_S512x1024_3072_0 : ∀ a, (![3072, 0] : Fin 2 → Nat) a + S512x1024.size a ≤ S8192x1024.size a
  packedbf16_S8192x1024_S512x1024_3072_0 : (Rect.unit (s := S8192x1024) ![3072, 0] S512x1024.size inb_S8192x1024_S512x1024_3072_0).PackedRows (EltTy.packing .bf16)
  inb_S18_S1_7 : ∀ a, (![7] : Fin 1 → Nat) a + S1.size a ≤ S18.size a
  wordsbf16_S8192x1024_S512x1024_3072_0 : (Rect.unit (s := S8192x1024) ![3072, 0] S512x1024.size inb_S8192x1024_S512x1024_3072_0).WholeWords (EltTy.packing .bf16)
  inb_S8192x1024_S512x1024_3584_0 : ∀ a, (![3584, 0] : Fin 2 → Nat) a + S512x1024.size a ≤ S8192x1024.size a
  packedbf16_S8192x1024_S512x1024_3584_0 : (Rect.unit (s := S8192x1024) ![3584, 0] S512x1024.size inb_S8192x1024_S512x1024_3584_0).PackedRows (EltTy.packing .bf16)
  inb_S18_S1_8 : ∀ a, (![8] : Fin 1 → Nat) a + S1.size a ≤ S18.size a
  wordsbf16_S8192x1024_S512x1024_3584_0 : (Rect.unit (s := S8192x1024) ![3584, 0] S512x1024.size inb_S8192x1024_S512x1024_3584_0).WholeWords (EltTy.packing .bf16)
  inb_S8192x1024_S512x1024_4096_0 : ∀ a, (![4096, 0] : Fin 2 → Nat) a + S512x1024.size a ≤ S8192x1024.size a
  packedbf16_S8192x1024_S512x1024_4096_0 : (Rect.unit (s := S8192x1024) ![4096, 0] S512x1024.size inb_S8192x1024_S512x1024_4096_0).PackedRows (EltTy.packing .bf16)
  inb_S18_S1_9 : ∀ a, (![9] : Fin 1 → Nat) a + S1.size a ≤ S18.size a
  wordsbf16_S8192x1024_S512x1024_4096_0 : (Rect.unit (s := S8192x1024) ![4096, 0] S512x1024.size inb_S8192x1024_S512x1024_4096_0).WholeWords (EltTy.packing .bf16)
  inb_S8192x1024_S512x1024_4608_0 : ∀ a, (![4608, 0] : Fin 2 → Nat) a + S512x1024.size a ≤ S8192x1024.size a
  packedbf16_S8192x1024_S512x1024_4608_0 : (Rect.unit (s := S8192x1024) ![4608, 0] S512x1024.size inb_S8192x1024_S512x1024_4608_0).PackedRows (EltTy.packing .bf16)
  inb_S18_S1_10 : ∀ a, (![10] : Fin 1 → Nat) a + S1.size a ≤ S18.size a
  wordsbf16_S8192x1024_S512x1024_4608_0 : (Rect.unit (s := S8192x1024) ![4608, 0] S512x1024.size inb_S8192x1024_S512x1024_4608_0).WholeWords (EltTy.packing .bf16)
  inb_S8192x1024_S512x1024_5120_0 : ∀ a, (![5120, 0] : Fin 2 → Nat) a + S512x1024.size a ≤ S8192x1024.size a
  packedbf16_S8192x1024_S512x1024_5120_0 : (Rect.unit (s := S8192x1024) ![5120, 0] S512x1024.size inb_S8192x1024_S512x1024_5120_0).PackedRows (EltTy.packing .bf16)
  inb_S18_S1_11 : ∀ a, (![11] : Fin 1 → Nat) a + S1.size a ≤ S18.size a
  wordsbf16_S8192x1024_S512x1024_5120_0 : (Rect.unit (s := S8192x1024) ![5120, 0] S512x1024.size inb_S8192x1024_S512x1024_5120_0).WholeWords (EltTy.packing .bf16)
  inb_S8192x1024_S512x1024_5632_0 : ∀ a, (![5632, 0] : Fin 2 → Nat) a + S512x1024.size a ≤ S8192x1024.size a
  packedbf16_S8192x1024_S512x1024_5632_0 : (Rect.unit (s := S8192x1024) ![5632, 0] S512x1024.size inb_S8192x1024_S512x1024_5632_0).PackedRows (EltTy.packing .bf16)
  inb_S18_S1_12 : ∀ a, (![12] : Fin 1 → Nat) a + S1.size a ≤ S18.size a
  wordsbf16_S8192x1024_S512x1024_5632_0 : (Rect.unit (s := S8192x1024) ![5632, 0] S512x1024.size inb_S8192x1024_S512x1024_5632_0).WholeWords (EltTy.packing .bf16)
  inb_S8192x1024_S512x1024_6144_0 : ∀ a, (![6144, 0] : Fin 2 → Nat) a + S512x1024.size a ≤ S8192x1024.size a
  packedbf16_S8192x1024_S512x1024_6144_0 : (Rect.unit (s := S8192x1024) ![6144, 0] S512x1024.size inb_S8192x1024_S512x1024_6144_0).PackedRows (EltTy.packing .bf16)
  inb_S18_S1_13 : ∀ a, (![13] : Fin 1 → Nat) a + S1.size a ≤ S18.size a
  wordsbf16_S8192x1024_S512x1024_6144_0 : (Rect.unit (s := S8192x1024) ![6144, 0] S512x1024.size inb_S8192x1024_S512x1024_6144_0).WholeWords (EltTy.packing .bf16)
  inb_S8192x1024_S512x1024_6656_0 : ∀ a, (![6656, 0] : Fin 2 → Nat) a + S512x1024.size a ≤ S8192x1024.size a
  packedbf16_S8192x1024_S512x1024_6656_0 : (Rect.unit (s := S8192x1024) ![6656, 0] S512x1024.size inb_S8192x1024_S512x1024_6656_0).PackedRows (EltTy.packing .bf16)
  inb_S18_S1_14 : ∀ a, (![14] : Fin 1 → Nat) a + S1.size a ≤ S18.size a
  wordsbf16_S8192x1024_S512x1024_6656_0 : (Rect.unit (s := S8192x1024) ![6656, 0] S512x1024.size inb_S8192x1024_S512x1024_6656_0).WholeWords (EltTy.packing .bf16)
  inb_S2x512x1024_S1x384x1024_0_0_0 : ∀ a, (![0, 0, 0] : Fin 3 → Nat) a + S1x384x1024.size a ≤ S2x512x1024.size a
  inb_S8192x1024_S512x1024_7168_0 : ∀ a, (![7168, 0] : Fin 2 → Nat) a + S512x1024.size a ≤ S8192x1024.size a
  packedbf16_S8192x1024_S512x1024_7168_0 : (Rect.unit (s := S8192x1024) ![7168, 0] S512x1024.size inb_S8192x1024_S512x1024_7168_0).PackedRows (EltTy.packing .bf16)
  inb_S18_S1_15 : ∀ a, (![15] : Fin 1 → Nat) a + S1.size a ≤ S18.size a
  wordsbf16_S8192x1024_S512x1024_7168_0 : (Rect.unit (s := S8192x1024) ![7168, 0] S512x1024.size inb_S8192x1024_S512x1024_7168_0).WholeWords (EltTy.packing .bf16)
  inb_S2x512x1024_S1x128x1024_1_0_0 : ∀ a, (![1, 0, 0] : Fin 3 → Nat) a + S1x128x1024.size a ≤ S2x512x1024.size a
  inb_S8192x1024_S384x1024_7680_0 : ∀ a, (![7680, 0] : Fin 2 → Nat) a + S384x1024.size a ≤ S8192x1024.size a
  packedbf16_S8192x1024_S384x1024_7680_0 : (Rect.unit (s := S8192x1024) ![7680, 0] S384x1024.size inb_S8192x1024_S384x1024_7680_0).PackedRows (EltTy.packing .bf16)
  inb_S18_S1_16 : ∀ a, (![16] : Fin 1 → Nat) a + S1.size a ≤ S18.size a
  wordsbf16_S8192x1024_S384x1024_7680_0 : (Rect.unit (s := S8192x1024) ![7680, 0] S384x1024.size inb_S8192x1024_S384x1024_7680_0).WholeWords (EltTy.packing .bf16)
  inb_S8192x1024_S128x1024_8064_0 : ∀ a, (![8064, 0] : Fin 2 → Nat) a + S128x1024.size a ≤ S8192x1024.size a
  packedbf16_S8192x1024_S128x1024_8064_0 : (Rect.unit (s := S8192x1024) ![8064, 0] S128x1024.size inb_S8192x1024_S128x1024_8064_0).PackedRows (EltTy.packing .bf16)
  inb_S18_S1_17 : ∀ a, (![17] : Fin 1 → Nat) a + S1.size a ≤ S18.size a
  wordsbf16_S8192x1024_S128x1024_8064_0 : (Rect.unit (s := S8192x1024) ![8064, 0] S128x1024.size inb_S8192x1024_S128x1024_8064_0).WholeWords (EltTy.packing .bf16)
  hcc0_scratch4 : 0 + S18.numel ≤ 92
  hcc0_scratch5 : 18 + S18.numel ≤ 92
  hcc0_scratch6 : 36 + S18.numel ≤ 92
  hcc0_scratch7 : 54 + S18.numel ≤ 92
  hcc0_scratch8 : 72 + S2.numel ≤ 92
  hcc0_scratch9 : 74 + S18.numel ≤ 92
  k0_dev1_lt : ∀ d0 : Dev nD, (k0_dev1 d0) < nD
  k0_dev2_lt : ∀ d0 : Dev nD, (k0_dev2 d0) < nD
  k0_off1_inb : ∀ d0 : Dev nD, ∀ (r : Fin 2), ∀ a, (k0_off1 d0 (BitVec.ofNat 32 (8064 * r.val))) a + S128x1024.size a ≤ S16384x1024.size a
  k0_off2_inb : ∀ d0 : Dev nD, ∀ (r : Fin 2), ∀ a, (k0_off2 d0 (BitVec.ofNat 32 (128 + 7552 * r.val))) a + S384x1024.size a ≤ S16384x1024.size a
  k0_dev3_lt : ∀ d0 : Dev nD, (k0_dev3 d0) < nD
  k0_off3_inb : ∀ d0 : Dev nD, ∀ (r : Fin 14), ∀ a, (k0_off3 d0 (BitVec.ofNat 32 (512 + 512 * r.val))) a + S512x1024.size a ≤ S16384x1024.size a
  k0_dev4_lt : ∀ d0 : Dev nD, (k0_dev4 d0) < nD
  k0_off1_wordsbf16 : ∀ d0 : Dev nD, ∀ (r : Fin 2), (Rect.unit (s := S16384x1024) (k0_off1 d0 (BitVec.ofNat 32 (8064 * r.val))) S128x1024.size (k0_off1_inb d0 r)).WholeWords (EltTy.packing .bf16)
  k0_dev5_lt : ∀ d0 : Dev nD, (k0_dev5 d0) < nD
  k0_dev6_lt : ∀ d0 : Dev nD, (k0_dev6 d0) < nD
  k0_off2_wordsbf16 : ∀ d0 : Dev nD, ∀ (r : Fin 2), (Rect.unit (s := S16384x1024) (k0_off2 d0 (BitVec.ofNat 32 (128 + 7552 * r.val))) S384x1024.size (k0_off2_inb d0 r)).WholeWords (EltTy.packing .bf16)
  k0_dev7_lt : ∀ d0 : Dev nD, (k0_dev7 d0) < nD
  k0_dev8_lt : ∀ d0 : Dev nD, (k0_dev8 d0) < nD
  k0_off3_wordsbf16 : ∀ d0 : Dev nD, ∀ (r : Fin 14), (Rect.unit (s := S16384x1024) (k0_off3 d0 (BitVec.ofNat 32 (512 + 512 * r.val))) S512x1024.size (k0_off3_inb d0 r)).WholeWords (EltTy.packing .bf16)
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_off4_inb : ∀ d0 : Dev nD, ∀ (r : Fin 2), ∀ a, (k0_off4 d0 (BitVec.ofNat 32 (8064 * r.val))) a + S128x1024.size a ≤ S16384x1024.size a
  k0_off4_wordsbf16 : ∀ d0 : Dev nD, ∀ (r : Fin 2), (Rect.unit (s := S16384x1024) (k0_off4 d0 (BitVec.ofNat 32 (8064 * r.val))) S128x1024.size (k0_off4_inb d0 r)).WholeWords (EltTy.packing .bf16)
  k0_off5_inb : ∀ d0 : Dev nD, ∀ (r : Fin 2), ∀ a, (k0_off5 d0 (BitVec.ofNat 32 (128 + 7552 * r.val))) a + S384x1024.size a ≤ S16384x1024.size a
  k0_off5_wordsbf16 : ∀ d0 : Dev nD, ∀ (r : Fin 2), (Rect.unit (s := S16384x1024) (k0_off5 d0 (BitVec.ofNat 32 (128 + 7552 * r.val))) S384x1024.size (k0_off5_inb d0 r)).WholeWords (EltTy.packing .bf16)
  k0_off6_inb : ∀ d0 : Dev nD, ∀ (r : Fin 14), ∀ a, (k0_off6 d0 (BitVec.ofNat 32 (512 + 512 * r.val))) a + S512x1024.size a ≤ S16384x1024.size a
  k0_off6_wordsbf16 : ∀ d0 : Dev nD, ∀ (r : Fin 14), (Rect.unit (s := S16384x1024) (k0_off6 d0 (BitVec.ofNat 32 (512 + 512 * r.val))) S512x1024.size (k0_off6_inb d0 r)).WholeWords (EltTy.packing .bf16)

variable [Facts₀]

abbrev cc0_scratch4 : DmaSems sig S18 := SemArray.consecutive 0 S18 hcc0_scratch4
abbrev cc0_scratch5 : DmaSems sig S18 := SemArray.consecutive 18 S18 hcc0_scratch5
abbrev cc0_scratch6 : DmaSems sig S18 := SemArray.consecutive 36 S18 hcc0_scratch6
abbrev cc0_scratch7 : DmaSems sig S18 := SemArray.consecutive 54 S18 hcc0_scratch7
abbrev cc0_scratch8 : DmaSems sig S2 := SemArray.consecutive 72 S2 hcc0_scratch8
abbrev cc0_scratch9 : DmaSems sig S18 := SemArray.consecutive 74 S18 hcc0_scratch9

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384x1024, .f32⟩
  | .hbm, ⟨2, _⟩ => ⟨S_, .f32⟩
  | .hbm, ⟨3, _⟩ => ⟨S16384x1024, .f32⟩
  | .hbm, ⟨4, _⟩ => ⟨S16384x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S32768x1024_S2x16384x1024 : S32768x1024.ShapeCasts S2x16384x1024
  reducesTo_S2x16384x1024_S16384x1024_d0 : S2x16384x1024.ReducesTo [0] S16384x1024
  h_S_ : 0 < S_.numel
  bitsLt_bf16_f32 : FTy.bits .bf16 < FTy.bits .f32

variable [Facts₀]

class Facts : Prop extends Facts₀ where

variable [Facts]
-- ==== Proof.Mesh.lean ====
import proofs.«900140_g7700000000000141_dist_ar_v7x_xy2x2_y_m16384_n1024_bf16_1_alg».proof.Proof.Gen.KernelIdeal
import proofs.«900140_g7700000000000141_dist_ar_v7x_xy2x2_y_m16384_n1024_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

def yn (c : Dev nD) : Dev nD := ⟨(2 * (c.val / 2) + 1) - (c.val % 2), by have := c.isLt; revert this; generalize c.val = v; decide +revert⟩

def xn (c : Dev nD) : Dev nD := ⟨((c.val % 2) + 2) - 2 * (c.val / 2), by have := c.isLt; revert this; generalize c.val = v; decide +revert⟩

theorem yn_yn (c : Dev nD) : yn (yn c) = c := by revert c; decide
theorem xn_xn (c : Dev nD) : xn (xn c) = c := by revert c; decide
theorem yn_mod (c : Dev nD) : (yn c).val % 2 = 1 - c.val % 2 := by revert c; decide
theorem xn_div (c : Dev nD) : (xn c).val / 2 = 1 - c.val / 2 := by revert c; decide

def ySwap : Dev nD ≃ Dev nD := ⟨yn, yn, yn_yn, yn_yn⟩
def xSwap : Dev nD ≃ Dev nD := ⟨xn, xn, xn_xn, xn_xn⟩

@[sl_canon] theorem dev1_eq (c : Dev nD) : (⟨k0_dev1 c, k0_dev1_lt c⟩ : Dev nD) = yn c := Fin.ext (k0_dev1_eq c)
@[sl_canon] theorem dev3_eq (c : Dev nD) : (⟨k0_dev3 c, k0_dev3_lt c⟩ : Dev nD) = yn c := Fin.ext (k0_dev3_eq c)
@[sl_canon] theorem dev4_eq (c : Dev nD) : (⟨k0_dev4 c, k0_dev4_lt c⟩ : Dev nD) = yn c := Fin.ext (k0_dev4_eq c)
@[sl_canon] theorem dev6_eq (c : Dev nD) : (⟨k0_dev6 c, k0_dev6_lt c⟩ : Dev nD) = yn c := Fin.ext (k0_dev6_eq c)
@[sl_canon] theorem dev8_eq (c : Dev nD) : (⟨k0_dev8 c, k0_dev8_lt c⟩ : Dev nD) = yn c := Fin.ext (k0_dev8_eq c)
@[sl_canon] theorem dev10_eq (c : Dev nD) : (⟨k0_dev10 c, k0_dev10_lt c⟩ : Dev nD) = yn c := Fin.ext (k0_dev10_eq c)
@[sl_canon] theorem dev12_eq (c : Dev nD) : (⟨k0_dev12 c, k0_dev12_lt c⟩ : Dev nD) = yn c := Fin.ext (k0_dev12_eq c)
@[sl_canon] theorem dev14_eq (c : Dev nD) : (⟨k0_dev14 c, k0_dev14_lt c⟩ : Dev nD) = yn c := Fin.ext (k0_dev14_eq c)
@[sl_canon] theorem dev16_eq (c : Dev nD) : (⟨k0_dev16 c, k0_dev16_lt c⟩ : Dev nD) = yn c := Fin.ext (k0_dev16_eq c)
@[sl_canon] theorem dev18_eq (c : Dev nD) : (⟨k0_dev18 c, k0_dev18_lt c⟩ : Dev nD) = yn c := Fin.ext (k0_dev18_eq c)
@[sl_canon] theorem dev20_eq (c : Dev nD) : (⟨k0_dev20 c, k0_dev20_lt c⟩ : Dev nD) = yn c := Fin.ext (k0_dev20_eq c)
@[sl_canon] theorem dev22_eq (c : Dev nD) : (⟨k0_dev22 c, k0_dev22_lt c⟩ : Dev nD) = yn c := Fin.ext (k0_dev22_eq c)
@[sl_canon] theorem dev24_eq (c : Dev nD) : (⟨k0_dev24 c, k0_dev24_lt c⟩ : Dev nD) = yn c := Fin.ext (k0_dev24_eq c)
@[sl_canon] theorem dev26_eq (c : Dev nD) : (⟨k0_dev26 c, k0_dev26_lt c⟩ : Dev nD) = yn c := Fin.ext (k0_dev26_eq c)
@[sl_canon] theorem dev28_eq (c : Dev nD) : (⟨k0_dev28 c, k0_dev28_lt c⟩ : Dev nD) = yn c := Fin.ext (k0_dev28_eq c)
@[sl_canon] theorem dev30_eq (c : Dev nD) : (⟨k0_dev30 c, k0_dev30_lt c⟩ : Dev nD) = yn c := Fin.ext (k0_dev30_eq c)
@[sl_canon] theorem dev32_eq (c : Dev nD) : (⟨k0_dev32 c, k0_dev32_lt c⟩ : Dev nD) = yn c := Fin.ext (k0_dev32_eq c)
@[sl_canon] theorem dev34_eq (c : Dev nD) : (⟨k0_dev34 c, k0_dev34_lt c⟩ : Dev nD) = yn c := Fin.ext (k0_dev34_eq c)
@[sl_canon] theorem dev36_eq (c : Dev nD) : (⟨k0_dev36 c, k0_dev36_lt c⟩ : Dev nD) = yn c := Fin.ext (k0_dev36_eq c)
@[sl_canon] theorem dev2_eq (c : Dev nD) : (⟨k0_dev2 c, k0_dev2_lt c⟩ : Dev nD) = xn c := Fin.ext (k0_dev2_eq c)
@[sl_canon] theorem dev5_eq (c : Dev nD) : (⟨k0_dev5 c, k0_dev5_lt c⟩ : Dev nD) = xn c := Fin.ext (k0_dev5_eq c)
@[sl_canon] theorem dev7_eq (c : Dev nD) : (⟨k0_dev7 c, k0_dev7_lt c⟩ : Dev nD) = xn c := Fin.ext (k0_dev7_eq c)
@[sl_canon] theorem dev9_eq (c : Dev nD) : (⟨k0_dev9 c, k0_dev9_lt c⟩ : Dev nD) = xn c := Fin.ext (k0_dev9_eq c)
@[sl_canon] theorem dev11_eq (c : Dev nD) : (⟨k0_dev11 c, k0_dev11_lt c⟩ : Dev nD) = xn c := Fin.ext (k0_dev11_eq c)
@[sl_canon] theorem dev13_eq (c : Dev nD) : (⟨k0_dev13 c, k0_dev13_lt c⟩ : Dev nD) = xn c := Fin.ext (k0_dev13_eq c)
@[sl_canon] theorem dev15_eq (c : Dev nD) : (⟨k0_dev15 c, k0_dev15_lt c⟩ : Dev nD) = xn c := Fin.ext (k0_dev15_eq c)
@[sl_canon] theorem dev17_eq (c : Dev nD) : (⟨k0_dev17 c, k0_dev17_lt c⟩ : Dev nD) = xn c := Fin.ext (k0_dev17_eq c)
@[sl_canon] theorem dev19_eq (c : Dev nD) : (⟨k0_dev19 c, k0_dev19_lt c⟩ : Dev nD) = xn c := Fin.ext (k0_dev19_eq c)
@[sl_canon] theorem dev21_eq (c : Dev nD) : (⟨k0_dev21 c, k0_dev21_lt c⟩ : Dev nD) = xn c := Fin.ext (k0_dev21_eq c)
@[sl_canon] theorem dev23_eq (c : Dev nD) : (⟨k0_dev23 c, k0_dev23_lt c⟩ : Dev nD) = xn c := Fin.ext (k0_dev23_eq c)
@[sl_canon] theorem dev25_eq (c : Dev nD) : (⟨k0_dev25 c, k0_dev25_lt c⟩ : Dev nD) = xn c := Fin.ext (k0_dev25_eq c)
@[sl_canon] theorem dev27_eq (c : Dev nD) : (⟨k0_dev27 c, k0_dev27_lt c⟩ : Dev nD) = xn c := Fin.ext (k0_dev27_eq c)
@[sl_canon] theorem dev29_eq (c : Dev nD) : (⟨k0_dev29 c, k0_dev29_lt c⟩ : Dev nD) = xn c := Fin.ext (k0_dev29_eq c)
@[sl_canon] theorem dev31_eq (c : Dev nD) : (⟨k0_dev31 c, k0_dev31_lt c⟩ : Dev nD) = xn c := Fin.ext (k0_dev31_eq c)
@[sl_canon] theorem dev33_eq (c : Dev nD) : (⟨k0_dev33 c, k0_dev33_lt c⟩ : Dev nD) = xn c := Fin.ext (k0_dev33_eq c)
@[sl_canon] theorem dev35_eq (c : Dev nD) : (⟨k0_dev35 c, k0_dev35_lt c⟩ : Dev nD) = xn c := Fin.ext (k0_dev35_eq c)
@[sl_canon] theorem dev37_eq (c : Dev nD) : (⟨k0_dev37 c, k0_dev37_lt c⟩ : Dev nD) = xn c := Fin.ext (k0_dev37_eq c)
@[sl_canon] theorem dev38_eq (c : Dev nD) : (⟨k0_dev38 c, k0_dev38_lt c⟩ : Dev nD) = xn c := Fin.ext (k0_dev38_eq c)

def off : Fin 18 → ℕ := ![0, 128, 512, 1024, 1536, 2048, 2560, 3072, 3584, 4096, 4608, 5120, 5632, 6144, 6656, 7168, 7680, 8064]
def sz : Fin 18 → ℕ := ![128, 384, 512, 512, 512, 512, 512, 512, 512, 512, 512, 512, 512, 512, 512, 512, 384, 128]
theorem off_sz (k : Fin 18) : off k + sz k ≤ 8192 := by revert k; decide
def base (c : Dev nD) : ℕ := 8192 * (c.val / 2)
def obase (c : Dev nD) : ℕ := 8192 - 8192 * (c.val / 2)
theorem base_xn (c : Dev nD) : base (xn c) = obase c := by revert c; decide
theorem base_yn (c : Dev nD) : base (yn c) = base c := by revert c; decide

abbrev barS : Sem sig := (SemArray.scalar (sig.barrier 0 rfl) : Sems sig S_).sem
def dsem (a : Fin 4) (k : Fin 18) : DmaSem sig := ⟨18 * a.val + k.val, by have := a.isLt; have := k.isLt; show 18 * a.val + k.val < 92; omega⟩
abbrev barCell (c : Dev nD) : GSem nD τ sig := ((c : Thread nD τ), .reg barS)
abbrev dcell (c : Dev nD) (a : Fin 4) (k : Fin 18) : GSem nD τ sig := ((c : Thread nD τ), .dma (dsem a k))

end Cert.KernelIdeal.AR

end
-- ==== Proof.Spec.lean ====
import proofs.«900140_g7700000000000141_dist_ar_v7x_xy2x2_y_m16384_n1024_bf16_1_alg».proof.Proof.Mesh
import Idealize.ShloMosaic.Lib.ValueIdx

noncomputable section

namespace Cert.KernelIdeal.AR

open Cert.KernelIdeal Cert.KernelIdeal.Gen
open Idealize.ShloMosaic Idealize.ShloMosaic.TcCoe Idealize.SL.Sem

variable {F : FTy → Type} [FloatOps F]

def rowIn (b : ℕ) (hb : b ≤ 8192) (i : S8192x1024.Idx) : S16384x1024.Idx :=
  ValueIdx.ix2 (⟨b + (i 0).val, by have h : (i 0).val < 8192 := (i 0).isLt; omega⟩ : Fin 16384) (⟨(i 1).val, (i 1).isLt⟩ : Fin 1024)

theorem base_le (c : Dev nD) : base c ≤ 8192 := by revert c; decide

variable (m : (ℓ : Loc nD τ sig) → Buf (Elt F) ℓ)

abbrev xArr (c : Dev nD) : Buf (Elt F) ((c : Thread nD τ).loc main_arg0) := m ((c : Thread nD τ).loc main_arg0)

def XB (c : Dev nD) : Buf (Elt F) ((c : Thread nD τ).loc cc0_scratch0) :=
  fun i => FloatOps.truncf (φ := .f32) .bf16 bitsLt_bf16_f32 (xArr m c (rowIn (base c) (base_le c) i))

def YR (c : Dev nD) : Buf (Elt F) ((c : Thread nD τ).loc cc0_scratch1) := XB m (yn c)

def SUMv (c : Dev nD) : Buf (Elt F) ((c : Thread nD τ).loc cc0_scratch2) :=
  fun i => FloatOps.addf (φ := .bf16) (XB m c i) (YR m c i)

def halfRow (j : S16384x1024.Idx) : S8192x1024.Idx :=
  ValueIdx.ix2 (⟨(j 0).val % 8192, Nat.mod_lt _ (by decide)⟩ : Fin 8192) (⟨(j 1).val, (j 1).isLt⟩ : Fin 1024)

def OUT (c : Dev nD) : Buf (Elt F) ((c : Thread nD τ).loc main_v1) :=
  fun j => if (j 0).val / 8192 = c.val / 2 then SUMv m c (halfRow j) else SUMv m (xn c) (halfRow j)

end Cert.KernelIdeal.AR

end
-- ==== Proof.Value.lean ====
import proofs.«900140_g7700000000000141_dist_ar_v7x_xy2x2_y_m16384_n1024_bf16_1_alg».proof.Proof.Spec
import proofs.«900140_g7700000000000141_dist_ar_v7x_xy2x2_y_m16384_n1024_bf16_1_alg».proof.Proof.Gen.ReferenceIdeal.Read
import Idealize.ShloMosaic.Lib.Layout
import Idealize.ShloMosaic.Lib.ValueIdx
import Idealize.ShloMosaic.PureOps.Ideal.Laws

noncomputable section

namespace Cert.KernelIdeal.AR

open Cert.KernelIdeal Cert.KernelIdeal.Gen
open Idealize.ShloMosaic Idealize.ShloMosaic.TcCoe Idealize.SL.Sem

theorem blk0 (d : Dev nD) : ((Layout.meshBlock [2, 2] ![[1], []] d) 0).val = d.val % 2 := by revert d; decide

theorem blk1 (d : Dev nD) : ((Layout.meshBlock [2, 2] ![[1], []] d) 1).val = 0 := by revert d; decide

theorem xArr_apply (m : (ℓ : Loc nD τ sig) → Buf (Elt Ideal) ℓ)
    (w : (⟨⟨2, ![32768, 1024]⟩, .f32⟩ : BufTy).Contents (Elt Ideal))
    (hagree : ∀ c : Dev nD, m ((c : Thread nD τ).loc main_arg0)
      = Layout.blockN ⟨2, ![16384, 1024]⟩ ⟨2, ![32768, 1024]⟩ (Layout.meshBlock [2, 2] ![[1], []] c) w)
    (d : Dev nD) (i : S16384x1024.Idx) :
    xArr m d i = w (ValueIdx.ix2 (⟨(d.val % 2) * 16384 + (i 0).val, by
        have h : (i 0).val < 16384 := (i 0).isLt; have := Nat.mod_lt d.val (show 0 < 2 by decide); omega⟩ : Fin 32768)
      (⟨(i 1).val, (i 1).isLt⟩ : Fin 1024)) := by
  unfold xArr
  rw [hagree d, Layout.blockN_apply]
  refine congrArg w (funext fun b => Fin.ext ?_)
  match b with
  | ⟨0, _⟩ =>
    show ((Layout.meshBlock [2, 2] ![[1], []] d) 0).val * 16384 + (i 0).val = d.val % 2 * 16384 + (i 0).val
    rw [blk0]
  | ⟨1, _⟩ =>
    show ((Layout.meshBlock [2, 2] ![[1], []] d) 1).val * 1024 + (i 1).val = (i 1).val
    rw [blk1, Nat.zero_mul, Nat.zero_add]

theorem w_congr (w : (⟨⟨2, ![32768, 1024]⟩, .f32⟩ : BufTy).Contents (Elt Ideal)) (a a' : Fin 32768) (b b' : Fin 1024)
    (ha : a.val = a'.val) (hb : b.val = b'.val) : w (ValueIdx.ix2 a b) = w (ValueIdx.ix2 a' b') := by
  obtain rfl := Fin.ext ha
  obtain rfl := Fin.ext hb
  rfl

def R0 (j : S16384x1024.Idx) : (⟨2, ![32768, 1024]⟩ : Shape).Idx :=
  ValueIdx.ix2 (⟨(j 0).val, by have h : (j 0).val < 16384 := (j 0).isLt; omega⟩ : Fin 32768) (⟨(j 1).val, (j 1).isLt⟩ : Fin 1024)

def R1 (j : S16384x1024.Idx) : (⟨2, ![32768, 1024]⟩ : Shape).Idx :=
  ValueIdx.ix2 (⟨16384 + (j 0).val, by have h : (j 0).val < 16384 := (j 0).isLt; omega⟩ : Fin 32768) (⟨(j 1).val, (j 1).isLt⟩ : Fin 1024)

theorem SUMv_apply (m : (ℓ : Loc nD τ sig) → Buf (Elt Ideal) ℓ)
    (w : (⟨⟨2, ![32768, 1024]⟩, .f32⟩ : BufTy).Contents (Elt Ideal))
    (hagree : ∀ c : Dev nD, m ((c : Thread nD τ).loc main_arg0)
      = Layout.blockN ⟨2, ![16384, 1024]⟩ ⟨2, ![32768, 1024]⟩ (Layout.meshBlock [2, 2] ![[1], []] c) w)
    (d : Dev nD) (i : S8192x1024.Idx) :
    SUMv (F := Ideal) m d i
      = w (ValueIdx.ix2 (⟨d.val % 2 * 16384 + (base d + (i 0).val), by
            have := base_le d; have h : (i 0).val < 8192 := (i 0).isLt
            have := Nat.mod_lt d.val (show 0 < 2 by decide); omega⟩ : Fin 32768) (⟨(i 1).val, (i 1).isLt⟩ : Fin 1024))
        + w (ValueIdx.ix2 (⟨(yn d).val % 2 * 16384 + (base (yn d) + (i 0).val), by
            have := base_le (yn d); have h : (i 0).val < 8192 := (i 0).isLt
            have := Nat.mod_lt (yn d).val (show 0 < 2 by decide); omega⟩ : Fin 32768) (⟨(i 1).val, (i 1).isLt⟩ : Fin 1024)) := by
  have h1 := xArr_apply m w hagree d (rowIn (base d) (base_le d) i)
  have h2 := xArr_apply m w hagree (yn d) (rowIn (base (yn d)) (base_le (yn d)) i)
  show FloatOps.addf (F := Ideal) (φ := .bf16)
      (FloatOps.truncf (F := Ideal) (φ := .f32) .bf16 bitsLt_bf16_f32 (xArr m d (rowIn (base d) (base_le d) i)))
      (FloatOps.truncf (F := Ideal) (φ := .f32) .bf16 bitsLt_bf16_f32 (xArr m (yn d) (rowIn (base (yn d)) (base_le (yn d)) i))) = _
  rw [h1, h2]
  rfl

theorem ref_apply (w : (⟨⟨2, ![32768, 1024]⟩, .f32⟩ : BufTy).Contents (Elt Ideal)) (j : S16384x1024.Idx) :
    Cert.ReferenceIdeal.Read.val_main_v2 (F := Ideal) w j = w (R0 j) + w (R1 j) := by
  rw [Cert.ReferenceIdeal.Read.val_main_v2_apply, Cert.ReferenceIdeal.Read.val_main_v1_apply, Fin.sum_univ_two,
    Cert.ReferenceIdeal.Read.val_main_v0_apply, Cert.ReferenceIdeal.Read.val_main_v0_apply,
    Cert.ReferenceIdeal.Read.val_main_cst_apply, Ideal.truncf_def, Ideal.ofBits_def, Ideal.ofBits_zero_f32, zero_add]
  have h0 : (j 0).val < 16384 := (j 0).isLt
  have h1 : (j 1).val < 1024 := (j 1).isLt
  have e0 : Cert.ReferenceIdeal.Read.idx_main_v0 (Cert.ReferenceIdeal.Read.idx_main_v1 j 0) = R0 j := by
    funext a
    match a with
    | ⟨0, _⟩ => exact Fin.ext (show ((0 * 16384 + (j 0).val) * 1024 + (j 1).val) / 1024 = (j 0).val by omega)
    | ⟨1, _⟩ => exact Fin.ext (show ((0 * 16384 + (j 0).val) * 1024 + (j 1).val) % 1024 = (j 1).val by omega)
  have e1 : Cert.ReferenceIdeal.Read.idx_main_v0 (Cert.ReferenceIdeal.Read.idx_main_v1 j 1) = R1 j := by
    funext a
    match a with
    | ⟨0, _⟩ => exact Fin.ext (show ((1 * 16384 + (j 0).val) * 1024 + (j 1).val) / 1024 = 16384 + (j 0).val by omega)
    | ⟨1, _⟩ => exact Fin.ext (show ((1 * 16384 + (j 0).val) * 1024 + (j 1).val) % 1024 = (j 1).val by omega)
  rw [e0, e1]

theorem SUMv_half (m : (ℓ : Loc nD τ sig) → Buf (Elt Ideal) ℓ)
    (w : (⟨⟨2, ![32768, 1024]⟩, .f32⟩ : BufTy).Contents (Elt Ideal))
    (hagree : ∀ c : Dev nD, m ((c : Thread nD τ).loc main_arg0)
      = Layout.blockN ⟨2, ![16384, 1024]⟩ ⟨2, ![32768, 1024]⟩ (Layout.meshBlock [2, 2] ![[1], []] c) w)
    (d : Dev nD) (j : S16384x1024.Idx) (hd : (j 0).val / 8192 = d.val / 2) :
    SUMv (F := Ideal) m d (halfRow j) = w (R0 j) + w (R1 j) := by
  rw [SUMv_apply m w hagree]
  have hj : (j 0).val < 16384 := (j 0).isLt
  have hb : base d = 8192 * (d.val / 2) := rfl
  have hby : base (yn d) = base d := base_yn d
  have hy : (yn d).val % 2 = 1 - d.val % 2 := yn_mod d
  rcases Nat.mod_two_eq_zero_or_one d.val with h0 | h1
  · refine congrArg₂ (· + ·) (w_congr w _ _ _ _ ?_ rfl) (w_congr w _ _ _ _ ?_ rfl)
    · show d.val % 2 * 16384 + (base d + (j 0).val % 8192) = (j 0).val
      omega
    · show (yn d).val % 2 * 16384 + (base (yn d) + (j 0).val % 8192) = 16384 + (j 0).val
      omega
  · rw [add_comm]
    refine congrArg₂ (· + ·) (w_congr w _ _ _ _ ?_ rfl) (w_congr w _ _ _ _ ?_ rfl)
    · show (yn d).val % 2 * 16384 + (base (yn d) + (j 0).val % 8192) = (j 0).val
      omega
    · show d.val % 2 * 16384 + (base d + (j 0).val % 8192) = 16384 + (j 0).val
      omega

theorem OUT_eq_ref (m : (ℓ : Loc nD τ sig) → Buf (Elt Ideal) ℓ)
    (w : (⟨⟨2, ![32768, 1024]⟩, .f32⟩ : BufTy).Contents (Elt Ideal))
    (hagree : ∀ c : Dev nD, m ((c : Thread nD τ).loc main_arg0)
      = Layout.blockN ⟨2, ![16384, 1024]⟩ ⟨2, ![32768, 1024]⟩ (Layout.meshBlock [2, 2] ![[1], []] c) w)
    (c : Dev nD) :
    OUT (F := Ideal) m c = Cert.ReferenceIdeal.Read.val_main_v2 (F := Ideal) w := by
  funext j
  rw [ref_apply w j]
  have hj : (j 0).val < 16384 := (j 0).isLt
  have hc : c.val < 4 := c.isLt
  show (if (j 0).val / 8192 = c.val / 2 then SUMv (F := Ideal) m c (halfRow j) else SUMv (F := Ideal) m (xn c) (halfRow j)) = _
  split
  · next h => exact SUMv_half m w hagree c j h
  · next h => exact SUMv_half m w hagree (xn c) j (by rw [xn_div]; omega)

end Cert.KernelIdeal.AR

end
-- ==== Proof.Sched.lean ====
import proofs.«900140_g7700000000000141_dist_ar_v7x_xy2x2_y_m16384_n1024_bf16_1_alg».proof.Proof.Spec

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER; infer_instance

abbrev SK (k : Fin 18) : Shape := ⟨2, ![sz k, 1024]⟩

theorem inbH : ∀ (k : Fin 18) (a : Fin 2), (![off k, 0] : Fin 2 → Nat) a + (SK k).size a ≤ S8192x1024.size a := by decide

abbrev rectH (k : Fin 18) : Rect S8192x1024 := Rect.unit (s := S8192x1024) ![off k, 0] (SK k).size (inbH k)

abbrev xbM (k : Fin 18) : Memref sig .tc .vmem (SK k) .bf16 := (Memref.whole cc0_scratch0).slice (rectH k) (fun _ => rfl)
abbrev yrM (k : Fin 18) : Memref sig .tc .vmem (SK k) .bf16 := (Memref.whole cc0_scratch1).slice (rectH k) (fun _ => rfl)
abbrev smM (k : Fin 18) : Memref sig .tc .vmem (SK k) .bf16 := (Memref.whole cc0_scratch2).slice (rectH k) (fun _ => rfl)

def outOff (c : Dev nD) : Fin 18 → Fin 2 → ℕ
  | ⟨0, _⟩ => k0_off1 c 0#32
  | ⟨1, _⟩ => k0_off2 c 128#32
  | ⟨2, _⟩ => k0_off3 c 512#32
  | ⟨3, _⟩ => k0_off3 c 1024#32
  | ⟨4, _⟩ => k0_off3 c 1536#32
  | ⟨5, _⟩ => k0_off3 c 2048#32
  | ⟨6, _⟩ => k0_off3 c 2560#32
  | ⟨7, _⟩ => k0_off3 c 3072#32
  | ⟨8, _⟩ => k0_off3 c 3584#32
  | ⟨9, _⟩ => k0_off3 c 4096#32
  | ⟨10, _⟩ => k0_off3 c 4608#32
  | ⟨11, _⟩ => k0_off3 c 5120#32
  | ⟨12, _⟩ => k0_off3 c 5632#32
  | ⟨13, _⟩ => k0_off3 c 6144#32
  | ⟨14, _⟩ => k0_off3 c 6656#32
  | ⟨15, _⟩ => k0_off3 c 7168#32
  | ⟨16, _⟩ => k0_off2 c 7680#32
  | ⟨17, _⟩ => k0_off1 c 8064#32
  | ⟨n + 18, h⟩ => absurd h (by omega)

theorem outInb (c : Dev nD) : ∀ (k : Fin 18) (a : Fin 2), outOff c k a + (SK k).size a ≤ S16384x1024.size a
  | ⟨0, _⟩ => k0_off1_inb c 0
  | ⟨1, _⟩ => k0_off2_inb c 0
  | ⟨2, _⟩ => k0_off3_inb c 0
  | ⟨3, _⟩ => k0_off3_inb c 1
  | ⟨4, _⟩ => k0_off3_inb c 2
  | ⟨5, _⟩ => k0_off3_inb c 3
  | ⟨6, _⟩ => k0_off3_inb c 4
  | ⟨7, _⟩ => k0_off3_inb c 5
  | ⟨8, _⟩ => k0_off3_inb c 6
  | ⟨9, _⟩ => k0_off3_inb c 7
  | ⟨10, _⟩ => k0_off3_inb c 8
  | ⟨11, _⟩ => k0_off3_inb c 9
  | ⟨12, _⟩ => k0_off3_inb c 10
  | ⟨13, _⟩ => k0_off3_inb c 11
  | ⟨14, _⟩ => k0_off3_inb c 12
  | ⟨15, _⟩ => k0_off3_inb c 13
  | ⟨16, _⟩ => k0_off2_inb c 1
  | ⟨17, _⟩ => k0_off1_inb c 1
  | ⟨n + 18, h⟩ => absurd h (by omega)

abbrev outM (c : Dev nD) (k : Fin 18) : Memref sig .tc .hbm (SK k) .bf16 :=
  (Memref.whole main_v1).slice (Rect.unit (s := S16384x1024) (outOff c k) (SK k).size (outInb c k)) (fun _ => rfl)

def Ny (k : Fin 18) : ℕ := (yrM k).view.dmaCredit
def Nx (k : Fin 18) : ℕ := (outM (0 : Dev nD) k).view.dmaCredit
theorem Ny_pos (k : Fin 18) : 0 < Ny k := View.dmaCredit_pos _ (by revert k; decide)
theorem Nx_pos (k : Fin 18) : 0 < Nx k := View.dmaCredit_pos _ (by revert k; decide)
def famOf (i : DmaSem sig) : Option (Fin 4 × Fin 18) :=
  if h : i.val < 72 then some (⟨i.val / 18, by omega⟩, ⟨i.val % 18, Nat.mod_lt _ (by decide)⟩) else none

theorem famOf_dsem : ∀ (a : Fin 4) (k : Fin 18), famOf (dsem a k) = some (a, k) := by decide

variable (m : (ℓ : Loc nD τ sig) → Buf (Elt F) ℓ)

def barPayY (c : Dev nD) : sProp 𝕄 :=
  bigSep Finset.univ fun k : Fin 18 => iprop(∃ f, (yrM k).view.loc ((yn c : Dev nD) : Thread nD τ) ↦[(yrM k).view.set]{fullShare} f)

def barPayX (c : Dev nD) : sProp 𝕄 :=
  bigSep Finset.univ fun k : Fin 18 => iprop(∃ f, (outM c k).view.loc ((xn c : Dev nD) : Thread nD τ) ↦[(outM c k).view.set]{fullShare} f)

def famPay (c : Dev nD) : Fin 4 → Fin 18 → sProp 𝕄
  | 0, k => (xbM k).view.loc (c : Thread nD τ) ↦[(xbM k).view.set]{fullShare.left} XB m c
  | 1, k => (yrM k).view.loc (c : Thread nD τ) ↦[(yrM k).view.set]{fullShare} YR m c
  | 2, k => (smM k).view.loc (c : Thread nD τ) ↦[(smM k).view.set]{fullShare.left} SUMv m c
  | 3, k => (outM (xn c) k).view.loc (c : Thread nD τ) ↦[(outM (xn c) k).view.set]{fullShare} OUT m c

instance barPayY_storable (c : Dev nD) : BI.Storable (upEmb : UEmb _ 𝕄) (barPayY (F := F) c) := by unfold barPayY; infer_instance
instance barPayX_storable (c : Dev nD) : BI.Storable (upEmb : UEmb _ 𝕄) (barPayX (F := F) c) := by unfold barPayX; infer_instance
instance famPay_storable (c : Dev nD) (a : Fin 4) (k : Fin 18) : BI.Storable (upEmb : UEmb _ 𝕄) (famPay (F := F) m c a k) := by
  fin_cases a <;> (unfold famPay; infer_instance)

def Rd : Rounds.Schedule (GSem nD τ sig) Bool 𝕄 where
  duties g r :=
    if r = 0 ∧ g.1.2 = .tc then
      match g.2 with
      | .reg _ => Finset.univ
      | .dma i => if (famOf i).isSome then {false} else ∅
    else ∅
  unitless _ := False
  amount g _ _ := match g.2 with
    | .reg _ => 1
    | .dma i => match famOf i with
      | some (a, k) => if a.val < 2 then Ny k else Nx k
      | none => 1
  payload g _ d := match g.2 with
    | .reg _ => if d then barPayX g.1.1 else barPayY g.1.1
    | .dma i => match famOf i with
      | some (a, k) => famPay m g.1.1 a k
      | none => iprop(emp)
  amount_pos g _ _ _ := by
    rcases g with ⟨t, sm⟩
    cases sm with
    | reg s => exact Nat.one_pos
    | dma i =>
      show 0 < (match famOf i with | some (a, k) => if a.val < 2 then Ny k else Nx k | none => 1)
      cases famOf i with
      | none => exact Nat.one_pos
      | some ak => obtain ⟨a, k⟩ := ak; show 0 < (if a.val < 2 then Ny k else Nx k); split; exact Ny_pos k; exact Nx_pos k

instance Rd_payload_storable (g : GSem nD τ sig) (r : ℕ) (d : Bool) : BI.Storable (upEmb : UEmb _ 𝕄) ((Rd (F := F) m).payload g r d) := by
  rcases g with ⟨t, sm⟩
  cases sm with
  | reg s => show BI.Storable upEmb (if d then barPayX t.1 else barPayY t.1); split <;> infer_instance
  | dma i =>
    show BI.Storable upEmb (match famOf i with | some (a, k) => famPay m t.1 a k | none => iprop(emp))
    cases famOf i with
    | none => show BI.Storable upEmb iprop(emp); infer_instance
    | some ak => obtain ⟨a, k⟩ := ak; show BI.Storable upEmb (famPay m t.1 a k); infer_instance

end Cert.KernelIdeal.AR

end
-- ==== Proof.Ghost.lean ====
import proofs.«900140_g7700000000000141_dist_ar_v7x_xy2x2_y_m16384_n1024_bf16_1_alg».proof.Proof.Sched

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def csem (j : Fin 73) : SemLoc sig := if h : j.val = 0 then .reg barS else .dma ⟨j.val - 1, by have := j.isLt; show j.val - 1 < 92; omega⟩
abbrev kcell (cj : Dev nD × Fin 73) : GSem nD τ sig := ((cj.1 : Thread nD τ), csem cj.2)

def famIx (a : Fin 4) (k : Fin 18) : Fin 73 := ⟨1 + 18 * a.val + k.val, by have := a.isLt; have := k.isLt; omega⟩
theorem csem_zero : csem 0 = .reg barS := rfl
theorem csem_famIx : ∀ (a : Fin 4) (k : Fin 18), csem (famIx a k) = .dma (dsem a k) := by decide

def lsem (j : Fin 20) : DmaSem sig := ⟨72 + j.val, by have := j.isLt; show 72 + j.val < 92; omega⟩
abbrev lcell (c : Dev nD) (j : Fin 20) : GSem nD τ sig := ((c : Thread nD τ), .dma (lsem j))

abbrev osem : Fin 92 → SemLoc sig := fun i => .dma i

def Oy (c : Dev nD) (j : ℕ) : CellTallies nD τ sig Unit :=
  ∑ k ∈ Finset.univ.filter (fun k : Fin 18 => j ≤ k.val), tallyAt (dcell (yn c) 1 k) () (Ny k)
def Ox (c : Dev nD) (j : ℕ) : CellTallies nD τ sig Unit :=
  ∑ k ∈ Finset.univ.filter (fun k : Fin 18 => j ≤ k.val), tallyAt (dcell (xn c) 3 k) () (Nx k)

def O₁ (c : Dev nD) : CellTallies nD τ sig Unit := Oy c 0 + Ox c 0 + tallyAt (barCell (xn c)) () 1
def O₀ (c : Dev nD) : CellTallies nD τ sig Unit := O₁ c + tallyAt (barCell (yn c)) () 1

def L (g : GSem nD τ sig) : Finset Unit := if g.1.2 = .tc then {()} else ∅
def lv (g : GSem nD τ sig) (_ : Unit) : ℕ := match g.2 with
  | .reg _ => 1
  | .dma i => match famOf i with
    | some (a, k) => if a = 1 then 2 + k.val else if a = 3 then 100 else 0
    | none => 0
theorem L_of_ne (g : GSem nD τ sig) (h : g.1.2 ≠ .tc) : L g = ∅ := if_neg h
theorem L_tc (c : Dev nD) (sm : SemLoc sig) : L ((c : Thread nD τ), sm) = {()} := if_pos rfl

def records (K : Dev nD × Fin 73 → ℕ) : sProp 𝕄 :=
  iprop((bigSep Finset.univ fun cj : Dev nD × Fin 73 => cellInv ER (Rd m) (K cj) (kcell cj))
    ∗ bigSep Finset.univ fun cj : Dev nD × Fin 73 => reached ER (kcell cj) 0)
instance records_persistent (K : Dev nD × Fin 73 → ℕ) : BI.Persistent (records m K) := by unfold records; infer_instance

def payToks (c : Dev nD) : sProp 𝕄 :=
  iprop(dutyTok ER (barCell (yn c)) 0 false ∗ dutyTok ER (barCell (xn c)) 0 true
    ∗ (bigSep Finset.univ fun k : Fin 18 => dutyTok ER (dcell (yn c) 1 k) 0 false)
    ∗ (bigSep Finset.univ fun k : Fin 18 => dutyTok ER (dcell (xn c) 3 k) 0 false)
    ∗ (bigSep Finset.univ fun k : Fin 18 => dutyTok ER (dcell c 0 k) 0 false)
    ∗ (bigSep Finset.univ fun k : Fin 18 => dutyTok ER (dcell c 2 k) 0 false))

def linear (c : Dev nD) : sProp 𝕄 :=
  iprop((bigSep Finset.univ fun j : Fin 73 => atPos ER (kcell (c, j)) 0 ∅ 0) ∗ payToks (F := F) c)

def ghost (K : Dev nD × Fin 73 → ℕ) (c : Dev nD) : sProp 𝕄 := iprop(records m K ∗ linear (F := F) c)

def lsems0 (c : Dev nD) : sProp 𝕄 := bigSep Finset.univ fun j : Fin 20 => semVal (lcell c j) 0

def creds (c : Dev nD) : sProp 𝕄 :=
  iprop(cred (tallyAt (barCell c) () 2)
    ∗ (bigSep Finset.univ fun k : Fin 18 => cred (tallyAt (dcell c 1 k) () (Ny k)))
    ∗ (bigSep Finset.univ fun k : Fin 18 => cred (tallyAt (dcell c 3 k) () (Nx k))))

def start (c : Dev nD) : sProp 𝕄 :=
  iprop((∃ K, ghost m K c) ∗ lsems0 (F := F) c ∗ creds (F := F) c ∗ levAts L lv
    ∗ (((c : Thread nD τ).loc main_arg0) ↦{fullShare} m ((c : Thread nD τ).loc main_arg0))
    ∗ (((c : Thread nD τ).loc main_v1) ↦{fullShare} m ((c : Thread nD τ).loc main_v1)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch (F := F) c)

def Φ₁ (c : Dev nD) : sProp 𝕄 :=
  iprop(scratch (F := F) c ∗ (bigSep Finset.univ fun i : Fin 92 => semVal (((c : Thread nD τ), osem i) : GSem nD τ sig) 0)
    ∗ (((c : Thread nD τ).loc main_arg0) ↦{fullShare} m ((c : Thread nD τ).loc main_arg0))
    ∗ (((c : Thread nD τ).loc main_v1) ↦{fullShare} OUT m c))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AR

end
-- ==== Proof.Tables.lean ====
import proofs.«900140_g7700000000000141_dist_ar_v7x_xy2x2_y_m16384_n1024_bf16_1_alg».proof.Proof.Ghost

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD)

theorem kcell_famIx (a : Fin 4) (k : Fin 18) : kcell (c, famIx a k) = dcell c a k :=
  congrArg (Prod.mk (c : Thread nD τ)) (csem_famIx a k)

theorem duties_bar : (Rd (F := F) m).duties (barCell c) 0 = Finset.univ := by
  dsimp only [Rd]; exact if_pos ⟨rfl, rfl⟩
theorem duties_fam (a : Fin 4) (k : Fin 18) : (Rd (F := F) m).duties (dcell c a k) 0 = {false} := by
  dsimp only [Rd]; rw [if_pos ⟨rfl, rfl⟩, famOf_dsem]; rfl
theorem duties_later (g : GSem nD τ sig) : ∀ r, 1 ≤ r → (Rd (F := F) m).duties g r = ∅ := by
  intro r hr; dsimp only [Rd]; exact if_neg (fun h => absurd h.1 (by omega))

theorem amount_bar (d : Bool) : (Rd (F := F) m).amount (barCell c) 0 d = 1 := rfl
theorem amount_y (a : Fin 4) (ha : a.val < 2) (k : Fin 18) (d : Bool) : (Rd (F := F) m).amount (dcell c a k) 0 d = Ny k := by
  dsimp only [Rd]; rw [famOf_dsem]; exact if_pos ha
theorem amount_x (a : Fin 4) (ha : 2 ≤ a.val) (k : Fin 18) (d : Bool) : (Rd (F := F) m).amount (dcell c a k) 0 d = Nx k := by
  dsimp only [Rd]; rw [famOf_dsem]; exact if_neg (by omega)

theorem expect_bar : (Rd (F := F) m).expect (barCell c) 0 = 2 := by
  unfold Schedule.expect Schedule.amountOf
  rw [duties_bar, Fintype.sum_bool, amount_bar, amount_bar]
theorem expect_y (a : Fin 4) (ha : a.val < 2) (k : Fin 18) : (Rd (F := F) m).expect (dcell c a k) 0 = Ny k := by
  unfold Schedule.expect Schedule.amountOf; rw [duties_fam, Finset.sum_singleton, amount_y m c a ha]
theorem expect_x (a : Fin 4) (ha : 2 ≤ a.val) (k : Fin 18) : (Rd (F := F) m).expect (dcell c a k) 0 = Nx k := by
  unfold Schedule.expect Schedule.amountOf; rw [duties_fam, Finset.sum_singleton, amount_x m c a ha]

theorem payload_bar_false : (Rd (F := F) m).payload (barCell c) 0 false = barPayY c := rfl
theorem payload_bar_true : (Rd (F := F) m).payload (barCell c) 0 true = barPayX c := rfl
theorem payload_fam (a : Fin 4) (k : Fin 18) (d : Bool) : (Rd (F := F) m).payload (dcell c a k) 0 d = famPay m c a k := by
  dsimp only [Rd]; rw [famOf_dsem]

theorem rest_bar : bigSep ((Rd (F := F) m).duties (barCell c) 0 \ ∅) (fun d => (Rd (F := F) m).payload (barCell c) 0 d)
    = iprop(barPayY c ∗ barPayX c) := by
  rw [Finset.sdiff_empty, duties_bar, bigSep_univ_eq_bigSepL [false, true] (by decide) (by decide), bigSepL_cons_cons,
    bigSepL_singleton, payload_bar_false, payload_bar_true]
  rfl
/-- A sum over the chunks from `j` on is the sum from `j + 1` on and the `j`-th term. -/
theorem tail_succ (f : Fin 18 → CellTallies nD τ sig Unit) (j : Fin 18) :
    ∑ k ∈ Finset.univ.filter (fun k : Fin 18 => j.val ≤ k.val), f k
      = ∑ k ∈ Finset.univ.filter (fun k : Fin 18 => j.val + 1 ≤ k.val), f k + f j := by
  have hset : Finset.univ.filter (fun k : Fin 18 => j.val ≤ k.val)
      = insert j (Finset.univ.filter (fun k : Fin 18 => j.val + 1 ≤ k.val)) := by
    ext k
    simp only [Finset.mem_filter, Finset.mem_univ, true_and, Finset.mem_insert]
    constructor
    · intro h
      by_cases e : k = j
      · exact Or.inl e
      · exact Or.inr (by have : k.val ≠ j.val := fun h' => e (Fin.ext h'); omega)
    · rintro (rfl | h)
      · exact le_refl _
      · omega
  rw [hset, Finset.sum_insert (fun h => by have := (Finset.mem_filter.mp h).2; omega), add_comm]
theorem tail_end (f : Fin 18 → CellTallies nD τ sig Unit) :
    ∑ k ∈ Finset.univ.filter (fun k : Fin 18 => 18 ≤ k.val), f k = 0 := by
  rw [Finset.filter_eq_empty_iff.mpr (fun k _ => by have := k.isLt; omega), Finset.sum_empty]
theorem Oy_succ (j : Fin 18) : Oy c j.val = Oy c (j.val + 1) + tallyAt (dcell (yn c) 1 j) () (Ny j) := tail_succ _ j
theorem Ox_succ (j : Fin 18) : Ox c j.val = Ox c (j.val + 1) + tallyAt (dcell (xn c) 3 j) () (Nx j) := tail_succ _ j
theorem Oy_end : Oy c 18 = 0 := tail_end _
theorem Ox_end : Ox c 18 = 0 := tail_end _

/-- A cell at which such a tail of tallies is positive is one of its chunks' cells. -/
theorem tail_pos (cell : Fin 18 → GSem nD τ sig) (N : Fin 18 → ℕ) (j : ℕ) (g : GSem nD τ sig) (ι : Unit)
    (h : 0 < (∑ k ∈ Finset.univ.filter (fun k : Fin 18 => j ≤ k.val), tallyAt (cell k) () (N k)) g ι) :
    ∃ k : Fin 18, j ≤ k.val ∧ g = cell k := by
  obtain ⟨k, hk, hpos⟩ := Pipeline.sum_pos_exists h
  rw [tallyAt_apply] at hpos
  refine ⟨k, (Finset.mem_filter.mp hk).2, ?_⟩
  by_contra hne
  rw [if_neg (fun hh => hne hh.1)] at hpos
  exact absurd hpos (lt_irrefl 0)

theorem owed_pos (j i : ℕ) (g : GSem nD τ sig) (ι : Unit) (h : 0 < (Oy c j + Ox c i) g ι) :
    (∃ k : Fin 18, j ≤ k.val ∧ g = dcell (yn c) 1 k) ∨ (∃ k : Fin 18, i ≤ k.val ∧ g = dcell (xn c) 3 k) :=
  (Pipeline.add_pos_cases h).imp (tail_pos _ _ j g ι) (tail_pos _ _ i g ι)

theorem lv_y (d : Dev nD) (k : Fin 18) (ι : Unit) : lv (dcell d 1 k) ι = 2 + k.val := by
  show (match famOf (dsem 1 k) with
    | some (a, k) => if a = 1 then 2 + k.val else if a = 3 then 100 else 0
    | none => 0) = 2 + k.val
  rw [famOf_dsem]; rfl

theorem lv_x (d : Dev nD) (k : Fin 18) (ι : Unit) : lv (dcell d 3 k) ι = 100 := by
  show (match famOf (dsem 3 k) with
    | some (a, k) => if a = 1 then 2 + k.val else if a = 3 then 100 else 0
    | none => 0) = 100
  rw [famOf_dsem]; rfl

theorem mayWait_bar : (levAts L lv : sProp 𝕄) ⊢ MayWait (c : Thread nD τ) (.reg barS) () (Oy c 0 + Ox c 0) :=
  Pipeline.mayWait_of_levAts (L := L) (lev := lv) (by rw [L_tc]; exact Finset.mem_singleton.mpr rfl) (fun g ι h => by
    rcases owed_pos c 0 0 g ι h with ⟨k', _, rfl⟩ | ⟨k', _, rfl⟩
    · exact ⟨by rw [L_tc]; exact Finset.mem_singleton.mpr rfl, by rw [lv_y]; show 1 < 2 + k'.val; omega⟩
    · exact ⟨by rw [L_tc]; exact Finset.mem_singleton.mpr rfl, by rw [lv_x]; show 1 < 100; omega⟩)

theorem mayWait_yrecv (k : Fin 18) (j i : ℕ) (hj : k.val < j) :
    (levAts L lv : sProp 𝕄) ⊢ MayWait (c : Thread nD τ) (.dma (dsem 1 k)) () (Oy c j + Ox c i) :=
  Pipeline.mayWait_of_levAts (L := L) (lev := lv) (by rw [L_tc]; exact Finset.mem_singleton.mpr rfl) (fun g ι h => by
    have hk : k.val < 18 := k.isLt
    rcases owed_pos c j i g ι h with ⟨k', hk', rfl⟩ | ⟨k', _, rfl⟩
    · exact ⟨by rw [L_tc]; exact Finset.mem_singleton.mpr rfl, by
        rw [show lv (((c : Thread nD τ), .dma (dsem 1 k)) : GSem nD τ sig) () = 2 + k.val from lv_y c k (), lv_y]; omega⟩
    · exact ⟨by rw [L_tc]; exact Finset.mem_singleton.mpr rfl, by
        rw [show lv (((c : Thread nD τ), .dma (dsem 1 k)) : GSem nD τ sig) () = 2 + k.val from lv_y c k (), lv_x]; omega⟩)

theorem mayWait_low (q : DmaSem sig) (hq : lv (((c : Thread nD τ), .dma q) : GSem nD τ sig) () = 0) (j i : ℕ) :
    (levAts L lv : sProp 𝕄) ⊢ MayWait (c : Thread nD τ) (.dma q) () (Oy c j + Ox c i) :=
  Pipeline.mayWait_of_levAts (L := L) (lev := lv) (by rw [L_tc]; exact Finset.mem_singleton.mpr rfl) (fun g ι h => by
    rcases owed_pos c j i g ι h with ⟨k', _, rfl⟩ | ⟨k', _, rfl⟩
    · exact ⟨by rw [L_tc]; exact Finset.mem_singleton.mpr rfl, by rw [hq, lv_y]; omega⟩
    · exact ⟨by rw [L_tc]; exact Finset.mem_singleton.mpr rfl, by rw [hq, lv_x]; omega⟩)

theorem outOff_eq : ∀ (c : Dev nD) (k : Fin 18), outOff c k = ![base c + off k, 0] := by decide +kernel

end Tables

end Cert.KernelIdeal.AR

end
-- ==== Proof.BodyDefs.lean ====
import proofs.«900140_g7700000000000141_dist_ar_v7x_xy2x2_y_m16384_n1024_bf16_1_alg».proof.Proof.Tables

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev w0_128 := (Memref.whole cc0_scratch3 : Memref sig .tc .vmem S2x512x1024 .f32).slice (Rect.unit (s := S2x512x1024) ![0, 0, 0] S1x128x1024.size inb_S2x512x1024_S1x128x1024_0_0_0) (fun _ => rfl)
abbrev w0_384 := (Memref.whole cc0_scratch3 : Memref sig .tc .vmem S2x512x1024 .f32).slice (Rect.unit (s := S2x512x1024) ![0, 0, 0] S1x384x1024.size inb_S2x512x1024_S1x384x1024_0_0_0) (fun _ => rfl)
abbrev w0_512 := (Memref.whole cc0_scratch3 : Memref sig .tc .vmem S2x512x1024 .f32).slice (Rect.unit (s := S2x512x1024) ![0, 0, 0] S1x512x1024.size inb_S2x512x1024_S1x512x1024_0_0_0) (fun _ => rfl)
abbrev w1_128 := (Memref.whole cc0_scratch3 : Memref sig .tc .vmem S2x512x1024 .f32).slice (Rect.unit (s := S2x512x1024) ![1, 0, 0] S1x128x1024.size inb_S2x512x1024_S1x128x1024_1_0_0) (fun _ => rfl)
abbrev w1_384 := (Memref.whole cc0_scratch3 : Memref sig .tc .vmem S2x512x1024 .f32).slice (Rect.unit (s := S2x512x1024) ![1, 0, 0] S1x384x1024.size inb_S2x512x1024_S1x384x1024_1_0_0) (fun _ => rfl)
abbrev w1_512 := (Memref.whole cc0_scratch3 : Memref sig .tc .vmem S2x512x1024 .f32).slice (Rect.unit (s := S2x512x1024) ![1, 0, 0] S1x512x1024.size inb_S2x512x1024_S1x512x1024_1_0_0) (fun _ => rfl)

theorem bigSep_fin18 (Φ : Fin 18 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- A product over the eighteen chunks, written out factor by factor. -/
def sep18 (Φ : Fin 18 → sProp 𝕄) : sProp 𝕄 := iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17)
def sep20 (Φ : Fin 20 → sProp 𝕄) : sProp 𝕄 := iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19)
theorem sep18_eq (Φ : Fin 18 → sProp 𝕄) : sep18 Φ = bigSep Finset.univ Φ := (bigSep_fin18 Φ).symm
theorem sep20_eq (Φ : Fin 20 → sProp 𝕄) : sep20 Φ = bigSep Finset.univ Φ :=
  (bigSep_univ_eq_bigSepL [0, 1, 2, 3, 4, 5, 6, 7, 8, 9, 10, 11, 12, 13, 14, 15, 16, 17, 18, 19] (by decide) (by decide) Φ).symm

/-- What one device holds when its body starts, grouped by kind: a product over the eighteen chunks stands for each family. -/
def bodyPre (c : Dev nD) (K : Dev nD × Fin 73 → ℕ) (W : Waits sig Unit)
    (f3 : Buf (Elt F) ((c : Thread nD τ).loc cc0_scratch3)) (fxb : Buf (Elt F) ((c : Thread nD τ).loc cc0_scratch0))
    (fsm : Buf (Elt F) ((c : Thread nD τ).loc cc0_scratch2)) (fyr : Buf (Elt F) ((c : Thread nD τ).loc cc0_scratch1))
    (fo : Buf (Elt F) ((c : Thread nD τ).loc main_v1)) : sProp 𝕄 :=
  iprop((cellInv ER (Rd m) (K (c, 0)) (barCell c) ∗ cellInv ER (Rd m) (K (yn c, 0)) (barCell (yn c)) ∗ cellInv ER (Rd m) (K (xn c, 0)) (barCell (xn c))
        ∗ (sep18 fun k : Fin 18 => cellInv ER (Rd m) (K (c, famIx 0 k)) (dcell c 0 k)) ∗ (sep18 fun k : Fin 18 => cellInv ER (Rd m) (K (c, famIx 1 k)) (dcell c 1 k)) ∗ (sep18 fun k : Fin 18 => cellInv ER (Rd m) (K (c, famIx 2 k)) (dcell c 2 k)) ∗ (sep18 fun k : Fin 18 => cellInv ER (Rd m) (K (c, famIx 3 k)) (dcell c 3 k))
        ∗ (sep18 fun k : Fin 18 => cellInv ER (Rd m) (K (yn c, famIx 1 k)) (dcell (yn c) 1 k)) ∗ (sep18 fun k : Fin 18 => cellInv ER (Rd m) (K (xn c, famIx 3 k)) (dcell (xn c) 3 k)))
      ∗ (reached ER (barCell (yn c)) 0 ∗ reached ER (barCell (xn c)) 0 ∗ (sep18 fun k : Fin 18 => reached ER (dcell (yn c) 1 k) 0) ∗ (sep18 fun k : Fin 18 => reached ER (dcell (xn c) 3 k) 0) ∗ (sep18 fun k : Fin 18 => reached ER (dcell c 0 k) 0) ∗ (sep18 fun k : Fin 18 => reached ER (dcell c 2 k) 0))
      ∗ levAts L lv
      ∗ owes (c : Thread nD τ) (O₀ c) W
      ∗ (dutyTok ER (barCell (yn c)) 0 false ∗ dutyTok ER (barCell (xn c)) 0 true
        ∗ (sep18 fun k : Fin 18 => dutyTok ER (dcell (yn c) 1 k) 0 false)
        ∗ (sep18 fun k : Fin 18 => dutyTok ER (dcell (xn c) 3 k) 0 false)
        ∗ (sep18 fun k : Fin 18 => dutyTok ER (dcell c 0 k) 0 false)
        ∗ (sep18 fun k : Fin 18 => dutyTok ER (dcell c 2 k) 0 false))
      ∗ (atPos ER (barCell c) 0 ∅ 0 ∗ (sep18 fun k : Fin 18 => atPos ER (dcell c 0 k) 0 ∅ 0) ∗ (sep18 fun k : Fin 18 => atPos ER (dcell c 1 k) 0 ∅ 0) ∗ (sep18 fun k : Fin 18 => atPos ER (dcell c 2 k) 0 ∅ 0) ∗ (sep18 fun k : Fin 18 => atPos ER (dcell c 3 k) 0 ∅ 0))
      ∗ (cred (tallyAt (barCell c) () 2)
        ∗ (sep18 fun k : Fin 18 => cred (tallyAt (dcell c 1 k) () (Ny k)))
        ∗ (sep18 fun k : Fin 18 => cred (tallyAt (dcell c 3 k) () (Nx k))))
      ∗ (sep20 fun j : Fin 20 => semVal (lcell c j) 0)
      ∗ ((Memref.whole main_arg0 : Memref sig .tc .hbm S16384x1024 .f32).view.loc (c : Thread nD τ) ↦{fullShare} m ((c : Thread nD τ).loc main_arg0))
      ∗ ((w0_128.view.loc (c : Thread nD τ) ↦[w0_128.view.set]{fullShare} f3)
        ∗ (w0_512.view.loc (c : Thread nD τ) ↦[w0_512.view.set \ w0_128.view.set]{fullShare} f3)
        ∗ (w1_384.view.loc (c : Thread nD τ) ↦[w1_384.view.set]{fullShare} f3)
        ∗ (w1_512.view.loc (c : Thread nD τ) ↦[w1_512.view.set \ w1_384.view.set]{fullShare} f3))
      ∗ (sep18 fun k : Fin 18 => ((xbM k).view.loc (c : Thread nD τ) ↦[(xbM k).view.set]{fullShare} fxb : sProp 𝕄))
      ∗ (sep18 fun k : Fin 18 => ((smM k).view.loc (c : Thread nD τ) ↦[(smM k).view.set]{fullShare} fsm : sProp 𝕄))
      ∗ (sep18 fun k : Fin 18 => ((yrM k).view.loc (c : Thread nD τ) ↦[(yrM k).view.set]{fullShare} fyr : sProp 𝕄))
      ∗ (sep18 fun k : Fin 18 => ((outM c k).view.loc (c : Thread nD τ) ↦[(outM c k).view.set]{fullShare} fo : sProp 𝕄))
      ∗ (sep18 fun k : Fin 18 => ((outM (xn c) k).view.loc (c : Thread nD τ) ↦[(outM (xn c) k).view.set]{fullShare} fo : sProp 𝕄)))

/-- What it holds at the end: each narrowed and each summed chunk as two halves, each received and each result chunk at its specified contents. -/
def bodyPost (c : Dev nD) : sProp 𝕄 :=
  iprop((∃ W' : Waits sig Unit, owes (c : Thread nD τ) 0 W')
      ∗ ((∃ f, (w0_384.view.loc (c : Thread nD τ) ↦[w0_384.view.set]{fullShare} f))
        ∗ (∃ f, (w0_512.view.loc (c : Thread nD τ) ↦[w0_512.view.set \ w0_384.view.set]{fullShare} f))
        ∗ (∃ f, (w1_128.view.loc (c : Thread nD τ) ↦[w1_128.view.set]{fullShare} f))
        ∗ (∃ f, (w1_512.view.loc (c : Thread nD τ) ↦[w1_512.view.set \ w1_128.view.set]{fullShare} f)))
      ∗ ((Memref.whole main_arg0 : Memref sig .tc .hbm S16384x1024 .f32).view.loc (c : Thread nD τ) ↦{fullShare} m ((c : Thread nD τ).loc main_arg0))
      ∗ (sep18 fun k : Fin 18 => iprop(((xbM k).view.loc (c : Thread nD τ) ↦[(xbM k).view.set]{fullShare.left} XB m c)
          ∗ ((xbM k).view.loc (c : Thread nD τ) ↦[(xbM k).view.set]{fullShare.right} XB m c)))
      ∗ (sep18 fun k : Fin 18 => iprop(((smM k).view.loc (c : Thread nD τ) ↦[(smM k).view.set]{fullShare.left} SUMv m c)
          ∗ ((smM k).view.loc (c : Thread nD τ) ↦[(smM k).view.set]{fullShare.right} SUMv m c)))
      ∗ (sep18 fun k : Fin 18 => ((yrM k).view.loc (c : Thread nD τ) ↦[(yrM k).view.set]{fullShare} YR m c : sProp 𝕄))
      ∗ (sep18 fun k : Fin 18 => ((outM c k).view.loc (c : Thread nD τ) ↦[(outM c k).view.set]{fullShare} OUT m c : sProp 𝕄))
      ∗ (sep18 fun k : Fin 18 => ((outM (xn c) k).view.loc (c : Thread nD τ) ↦[(outM (xn c) k).view.set]{fullShare} OUT m c : sProp 𝕄))
      ∗ ((sep18 fun k : Fin 18 => atPos ER (dcell c 0 k) 1 ∅ 0) ∗ (sep18 fun k : Fin 18 => atPos ER (dcell c 1 k) 1 ∅ 0) ∗ (sep18 fun k : Fin 18 => atPos ER (dcell c 2 k) 1 ∅ 0) ∗ (sep18 fun k : Fin 18 => atPos ER (dcell c 3 k) 1 ∅ 0))
      ∗ (sep20 fun j : Fin 20 => semVal (lcell c j) 0))

end Cert.KernelIdeal.AR

end
-- ==== Proof.Incl.lean ====
import proofs.«900140_g7700000000000141_dist_ar_v7x_xy2x2_y_m16384_n1024_bf16_1_alg».proof.Proof.Tables

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem incl_0_128 : (Memref.whole cc0_scratch3 : Memref sig .tc .vmem S2x512x1024 .f32).view.setOn (Rect.unit (s := S2x512x1024) ![0, 0, 0] S1x128x1024.size inb_S2x512x1024_S1x128x1024_0_0_0).toLoadRect.set
    ⊆ (Memref.whole cc0_scratch3 : Memref sig .tc .vmem S2x512x1024 .f32).view.setOn (Rect.unit (s := S2x512x1024) ![0, 0, 0] S1x512x1024.size inb_S2x512x1024_S1x512x1024_0_0_0).toLoadRect.set :=
  Finset.map_subset_map.mpr (Rect.set_subset_of_span _ _ (fun _ => rfl) (by decide))
theorem incl_0_384 : (Memref.whole cc0_scratch3 : Memref sig .tc .vmem S2x512x1024 .f32).view.setOn (Rect.unit (s := S2x512x1024) ![0, 0, 0] S1x384x1024.size inb_S2x512x1024_S1x384x1024_0_0_0).toLoadRect.set
    ⊆ (Memref.whole cc0_scratch3 : Memref sig .tc .vmem S2x512x1024 .f32).view.setOn (Rect.unit (s := S2x512x1024) ![0, 0, 0] S1x512x1024.size inb_S2x512x1024_S1x512x1024_0_0_0).toLoadRect.set :=
  Finset.map_subset_map.mpr (Rect.set_subset_of_span _ _ (fun _ => rfl) (by decide))
theorem incl_1_128 : (Memref.whole cc0_scratch3 : Memref sig .tc .vmem S2x512x1024 .f32).view.setOn (Rect.unit (s := S2x512x1024) ![1, 0, 0] S1x128x1024.size inb_S2x512x1024_S1x128x1024_1_0_0).toLoadRect.set
    ⊆ (Memref.whole cc0_scratch3 : Memref sig .tc .vmem S2x512x1024 .f32).view.setOn (Rect.unit (s := S2x512x1024) ![1, 0, 0] S1x512x1024.size inb_S2x512x1024_S1x512x1024_1_0_0).toLoadRect.set :=
  Finset.map_subset_map.mpr (Rect.set_subset_of_span _ _ (fun _ => rfl) (by decide))
theorem incl_1_384 : (Memref.whole cc0_scratch3 : Memref sig .tc .vmem S2x512x1024 .f32).view.setOn (Rect.unit (s := S2x512x1024) ![1, 0, 0] S1x384x1024.size inb_S2x512x1024_S1x384x1024_1_0_0).toLoadRect.set
    ⊆ (Memref.whole cc0_scratch3 : Memref sig .tc .vmem S2x512x1024 .f32).view.setOn (Rect.unit (s := S2x512x1024) ![1, 0, 0] S1x512x1024.size inb_S2x512x1024_S1x512x1024_1_0_0).toLoadRect.set :=
  Finset.map_subset_map.mpr (Rect.set_subset_of_span _ _ (fun _ => rfl) (by decide))

end Cert.KernelIdeal.AR

end
-- ==== Proof.Slots.lean ====
import proofs.«900140_g7700000000000141_dist_ar_v7x_xy2x2_y_m16384_n1024_bf16_1_alg».proof.Proof.Incl

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev dbufM : Memref sig .tc .vmem S2x512x1024 .f32 := Memref.whole cc0_scratch3

theorem slice_set (R : Rect S2x512x1024) (hr : ∀ a, R.stride a = 1) :
    (dbufM.slice R hr).view.set = dbufM.view.setOn R.toLoadRect.set := View.set_slice _ R

theorem slice_incl {R₁ R₂ : Rect S2x512x1024} (h₁ : ∀ a, R₁.stride a = 1) (h₂ : ∀ a, R₂.stride a = 1)
    (h : dbufM.view.setOn R₁.toLoadRect.set ⊆ dbufM.view.setOn R₂.toLoadRect.set) :
    (dbufM.slice R₁ h₁).view.set ⊆ (dbufM.slice R₂ h₂).view.set := by
  rw [slice_set, slice_set]; exact h

theorem slot_join (c : Dev nD) {R₁ R₂ : Rect S2x512x1024} (h₁ : ∀ a, R₁.stride a = 1) (h₂ : ∀ a, R₂.stride a = 1)
    (h : dbufM.view.setOn R₁.toLoadRect.set ⊆ dbufM.view.setOn R₂.toLoadRect.set)
    (g f : Buf (Elt F) ((c : Thread nD τ).loc cc0_scratch3)) :
    iprop(((dbufM.slice R₁ h₁).view.loc (c : Thread nD τ) ↦[(dbufM.slice R₁ h₁).view.set]{fullShare} g)
        ∗ ((dbufM.slice R₂ h₂).view.loc (c : Thread nD τ) ↦[(dbufM.slice R₂ h₂).view.set \ (dbufM.slice R₁ h₁).view.set]{fullShare} f))
      ⊢ (iprop(∃ h', (dbufM.slice R₂ h₂).view.loc (c : Thread nD τ) ↦[(dbufM.slice R₂ h₂).view.set]{fullShare} h') : sProp 𝕄) := by
  refine (pointsTo_join_subset (slice_incl h₁ h₂ h)).trans ?_
  iintro H
  iexists _
  iexact H

theorem slot_split (c : Dev nD) {R₁ R₂ : Rect S2x512x1024} (h₁ : ∀ a, R₁.stride a = 1) (h₂ : ∀ a, R₂.stride a = 1)
    (h : dbufM.view.setOn R₁.toLoadRect.set ⊆ dbufM.view.setOn R₂.toLoadRect.set)
    (f : Buf (Elt F) ((c : Thread nD τ).loc cc0_scratch3)) :
    ((dbufM.slice R₂ h₂).view.loc (c : Thread nD τ) ↦[(dbufM.slice R₂ h₂).view.set]{fullShare} f : sProp 𝕄)
      ⊢ iprop(((dbufM.slice R₁ h₁).view.loc (c : Thread nD τ) ↦[(dbufM.slice R₁ h₁).view.set]{fullShare} f)
        ∗ ((dbufM.slice R₂ h₂).view.loc (c : Thread nD τ) ↦[(dbufM.slice R₂ h₂).view.set \ (dbufM.slice R₁ h₁).view.set]{fullShare} f)) :=
  (pointsTo_split_subset (slice_incl h₁ h₂ h)).1

theorem slot_join_0_128 (c : Dev nD) (g f : Buf (Elt F) ((c : Thread nD τ).loc cc0_scratch3)) :
    iprop((((Memref.whole cc0_scratch3 : Memref sig .tc .vmem S2x512x1024 .f32).slice (Rect.unit (s := S2x512x1024) ![0, 0, 0] S1x128x1024.size inb_S2x512x1024_S1x128x1024_0_0_0) (fun _ => rfl)).view.loc (c : Thread nD τ) ↦[((Memref.whole cc0_scratch3 : Memref sig .tc .vmem S2x512x1024 .f32).slice (Rect.unit (s := S2x512x1024) ![0, 0, 0] S1x128x1024.size inb_S2x512x1024_S1x128x1024_0_0_0) (fun _ => rfl)).view.set]{fullShare} g) ∗ (((Memref.whole cc0_scratch3 : Memref sig .tc .vmem S2x512x1024 .f32).slice (Rect.unit (s := S2x512x1024) ![0, 0, 0] S1x512x1024.size inb_S2x512x1024_S1x512x1024_0_0_0) (fun _ => rfl)).view.loc (c : Thread nD τ) ↦[((Memref.whole cc0_scratch3 : Memref sig .tc .vmem S2x512x1024 .f32).slice (Rect.unit (s := S2x512x1024) ![0, 0, 0] S1x512x1024.size inb_S2x512x1024_S1x512x1024_0_0_0) (fun _ => rfl)).view.set \ ((Memref.whole cc0_scratch3 : Memref sig .tc .vmem S2x512x1024 .f32).slice (Rect.unit (s := S2x512x1024) ![0, 0, 0] S1x128x1024.size inb_S2x512x1024_S1x128x1024_0_0_0) (fun _ => rfl)).view.set]{fullShare} f)) ⊢ (iprop(∃ h, (((Memref.whole cc0_scratch3 : Memref sig .tc .vmem S2x512x1024 .f32).slice (Rect.unit (s := S2x512x1024) ![0, 0, 0] S1x512x1024.size inb_S2x512x1024_S1x512x1024_0_0_0) (fun _ => rfl)).view.loc (c : Thread nD τ) ↦[((Memref.whole cc0_scratch3 : Memref sig .tc .vmem S2x512x1024 .f32).slice (Rect.unit (s := S2x512x1024) ![0, 0, 0] S1x512x1024.size inb_S2x512x1024_S1x512x1024_0_0_0) (fun _ => rfl)).view.set]{fullShare} h)) : sProp 𝕄) := by
  exact slot_join c _ _ incl_0_128 g f
theorem slot_join_1_384 (c : Dev nD) (g f : Buf (Elt F) ((c : Thread nD τ).loc cc0_scratch3)) :
    iprop((((Memref.whole cc0_scratch3 : Memref sig .tc .vmem S2x512x1024 .f32).slice (Rect.unit (s := S2x512x1024) ![1, 0, 0] S1x384x1024.size inb_S2x512x1024_S1x384x1024_1_0_0) (fun _ => rfl)).view.loc (c : Thread nD τ) ↦[((Memref.whole cc0_scratch3 : Memref sig .tc .vmem S2x512x1024 .f32).slice (Rect.unit (s := S2x512x1024) ![1, 0, 0] S1x384x1024.size inb_S2x512x1024_S1x384x1024_1_0_0) (fun _ => rfl)).view.set]{fullShare} g) ∗ (((Memref.whole cc0_scratch3 : Memref sig .tc .vmem S2x512x1024 .f32).slice (Rect.unit (s := S2x512x1024) ![1, 0, 0] S1x512x1024.size inb_S2x512x1024_S1x512x1024_1_0_0) (fun _ => rfl)).view.loc (c : Thread nD τ) ↦[((Memref.whole cc0_scratch3 : Memref sig .tc .vmem S2x512x1024 .f32).slice (Rect.unit (s := S2x512x1024) ![1, 0, 0] S1x512x1024.size inb_S2x512x1024_S1x512x1024_1_0_0) (fun _ => rfl)).view.set \ ((Memref.whole cc0_scratch3 : Memref sig .tc .vmem S2x512x1024 .f32).slice (Rect.unit (s := S2x512x1024) ![1, 0, 0] S1x384x1024.size inb_S2x512x1024_S1x384x1024_1_0_0) (fun _ => rfl)).view.set]{fullShare} f)) ⊢ (iprop(∃ h, (((Memref.whole cc0_scratch3 : Memref sig .tc .vmem S2x512x1024 .f32).slice (Rect.unit (s := S2x512x1024) ![1, 0, 0] S1x512x1024.size inb_S2x512x1024_S1x512x1024_1_0_0) (fun _ => rfl)).view.loc (c : Thread nD τ) ↦[((Memref.whole cc0_scratch3 : Memref sig .tc .vmem S2x512x1024 .f32).slice (Rect.unit (s := S2x512x1024) ![1, 0, 0] S1x512x1024.size inb_S2x512x1024_S1x512x1024_1_0_0) (fun _ => rfl)).view.set]{fullShare} h)) : sProp 𝕄) := by
  exact slot_join c _ _ incl_1_384 g f

theorem slot_split_0_384 (c : Dev nD) (f : Buf (Elt F) ((c : Thread nD τ).loc cc0_scratch3)) :
    ((((Memref.whole cc0_scratch3 : Memref sig .tc .vmem S2x512x1024 .f32).slice (Rect.unit (s := S2x512x1024) ![0, 0, 0] S1x512x1024.size inb_S2x512x1024_S1x512x1024_0_0_0) (fun _ => rfl)).view.loc (c : Thread nD τ) ↦[((Memref.whole cc0_scratch3 : Memref sig .tc .vmem S2x512x1024 .f32).slice (Rect.unit (s := S2x512x1024) ![0, 0, 0] S1x512x1024.size inb_S2x512x1024_S1x512x1024_0_0_0) (fun _ => rfl)).view.set]{fullShare} f) : sProp 𝕄) ⊢ iprop((((Memref.whole cc0_scratch3 : Memref sig .tc .vmem S2x512x1024 .f32).slice (Rect.unit (s := S2x512x1024) ![0, 0, 0] S1x384x1024.size inb_S2x512x1024_S1x384x1024_0_0_0) (fun _ => rfl)).view.loc (c : Thread nD τ) ↦[((Memref.whole cc0_scratch3 : Memref sig .tc .vmem S2x512x1024 .f32).slice (Rect.unit (s := S2x512x1024) ![0, 0, 0] S1x384x1024.size inb_S2x512x1024_S1x384x1024_0_0_0) (fun _ => rfl)).view.set]{fullShare} f) ∗ (((Memref.whole cc0_scratch3 : Memref sig .tc .vmem S2x512x1024 .f32).slice (Rect.unit (s := S2x512x1024) ![0, 0, 0] S1x512x1024.size inb_S2x512x1024_S1x512x1024_0_0_0) (fun _ => rfl)).view.loc (c : Thread nD τ) ↦[((Memref.whole cc0_scratch3 : Memref sig .tc .vmem S2x512x1024 .f32).slice (Rect.unit (s := S2x512x1024) ![0, 0, 0] S1x512x1024.size inb_S2x512x1024_S1x512x1024_0_0_0) (fun _ => rfl)).view.set \ ((Memref.whole cc0_scratch3 : Memref sig .tc .vmem S2x512x1024 .f32).slice (Rect.unit (s := S2x512x1024) ![0, 0, 0] S1x384x1024.size inb_S2x512x1024_S1x384x1024_0_0_0) (fun _ => rfl)).view.set]{fullShare} f)) := by
  exact slot_split c _ _ incl_0_384 f
theorem slot_split_1_128 (c : Dev nD) (f : Buf (Elt F) ((c : Thread nD τ).loc cc0_scratch3)) :
    ((((Memref.whole cc0_scratch3 : Memref sig .tc .vmem S2x512x1024 .f32).slice (Rect.unit (s := S2x512x1024) ![1, 0, 0] S1x512x1024.size inb_S2x512x1024_S1x512x1024_1_0_0) (fun _ => rfl)).view.loc (c : Thread nD τ) ↦[((Memref.whole cc0_scratch3 : Memref sig .tc .vmem S2x512x1024 .f32).slice (Rect.unit (s := S2x512x1024) ![1, 0, 0] S1x512x1024.size inb_S2x512x1024_S1x512x1024_1_0_0) (fun _ => rfl)).view.set]{fullShare} f) : sProp 𝕄) ⊢ iprop((((Memref.whole cc0_scratch3 : Memref sig .tc .vmem S2x512x1024 .f32).slice (Rect.unit (s := S2x512x1024) ![1, 0, 0] S1x128x1024.size inb_S2x512x1024_S1x128x1024_1_0_0) (fun _ => rfl)).view.loc (c : Thread nD τ) ↦[((Memref.whole cc0_scratch3 : Memref sig .tc .vmem S2x512x1024 .f32).slice (Rect.unit (s := S2x512x1024) ![1, 0, 0] S1x128x1024.size inb_S2x512x1024_S1x128x1024_1_0_0) (fun _ => rfl)).view.set]{fullShare} f) ∗ (((Memref.whole cc0_scratch3 : Memref sig .tc .vmem S2x512x1024 .f32).slice (Rect.unit (s := S2x512x1024) ![1, 0, 0] S1x512x1024.size inb_S2x512x1024_S1x512x1024_1_0_0) (fun _ => rfl)).view.loc (c : Thread nD τ) ↦[((Memref.whole cc0_scratch3 : Memref sig .tc .vmem S2x512x1024 .f32).slice (Rect.unit (s := S2x512x1024) ![1, 0, 0] S1x512x1024.size inb_S2x512x1024_S1x512x1024_1_0_0) (fun _ => rfl)).view.set \ ((Memref.whole cc0_scratch3 : Memref sig .tc .vmem S2x512x1024 .f32).slice (Rect.unit (s := S2x512x1024) ![1, 0, 0] S1x128x1024.size inb_S2x512x1024_S1x128x1024_1_0_0) (fun _ => rfl)).view.set]{fullShare} f)) := by
  exact slot_split c _ _ incl_1_128 f

end Cert.KernelIdeal.AR

end
-- ==== Proof.Landing.lean ====
import proofs.«900140_g7700000000000141_dist_ar_v7x_xy2x2_y_m16384_n1024_bf16_1_alg».proof.Proof.Tables
import Idealize.ShloMosaic.Lib.Pipeline.Value

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem OUT_apply (c : Dev nD) (j : S16384x1024.Idx) :
    OUT m c j = if (j 0).val / 8192 = c.val / 2 then SUMv m c (halfRow j) else SUMv m (xn c) (halfRow j) := rfl

theorem out_div (c : Dev nD) (k : Fin 18) (y : (SK k).Idx) : (((outM c k).view.emb y) 0).val / 8192 = c.val / 2 := by
  have hy0 : (y 0).val < sz k := (y 0).isLt
  have hk := off_sz k
  have h0 : outOff c k 0 = base c + off k := by rw [outOff_eq]; rfl
  have hb : base c = 8192 * (c.val / 2) := rfl
  show (outOff c k 0 + 1 * (y 0).val) / 8192 = c.val / 2
  rw [h0, hb]; omega

theorem out_half (c : Dev nD) (k : Fin 18) (y : (SK k).Idx) : halfRow ((outM c k).view.emb y) = (smM k).view.emb y := by
  have hy0 : (y 0).val < sz k := (y 0).isLt
  have hk := off_sz k
  have h0 : outOff c k 0 = base c + off k := by rw [outOff_eq]; rfl
  have h1 : outOff c k 1 = 0 := by rw [outOff_eq]; rfl
  have hb : base c = 8192 * (c.val / 2) := rfl
  funext a
  apply Fin.ext
  match a with
  | ⟨0, _⟩ =>
    show (outOff c k 0 + 1 * (y 0).val) % 8192 = off k + 1 * (y 0).val
    rw [h0, hb]; omega
  | ⟨1, _⟩ =>
    show outOff c k 1 + 1 * (y 1).val = 0 + 1 * (y 1).val
    rw [h1]

theorem land_y (c : Dev nD) (k : Fin 18)
    (fn : Buf (Elt F) ((yrM k).view.loc ((yn c : Dev nD) : Thread nD τ))) (fs : Buf (Elt F) ((xbM k).view.loc (c : Thread nD τ)))
    (hfs : ∀ i ∈ (xbM k).view.set, fs i = XB m c i) :
    ∀ i ∈ (yrM k).view.set, (yrM k).view.write (Elt F) fn ((xbM k).view.read (Elt F) fs) Finset.univ i = YR m (yn c) i := by
  intro i hi
  obtain ⟨y, rfl⟩ := View.exists_emb_of_mem_set (yrM k).view hi
  rw [View.write_emb_of_mem _ _ (Finset.mem_univ y), View.read_apply, hfs _ ((xbM k).view.emb_mem_set y)]
  show XB m c ((rectH k).emb y) = XB m (yn (yn c)) ((rectH k).emb y)
  rw [yn_yn]

theorem land_x (c : Dev nD) (k : Fin 18)
    (fn : Buf (Elt F) ((outM c k).view.loc ((xn c : Dev nD) : Thread nD τ))) (fs : Buf (Elt F) ((smM k).view.loc (c : Thread nD τ)))
    (hfs : ∀ i ∈ (smM k).view.set, fs i = SUMv m c i) :
    ∀ i ∈ (outM c k).view.set, (outM c k).view.write (Elt F) fn ((smM k).view.read (Elt F) fs) Finset.univ i = OUT m (xn c) i := by
  intro i hi
  obtain ⟨y, rfl⟩ := View.exists_emb_of_mem_set (outM c k).view hi
  rw [View.write_emb_of_mem _ _ (Finset.mem_univ y), View.read_apply, hfs _ ((smM k).view.emb_mem_set y)]
  show SUMv m c ((smM k).view.emb y) = OUT m (xn c) ((outM c k).view.emb y)
  have hc : c.val < 4 := c.isLt
  rw [OUT_apply, if_neg (by rw [out_div, xn_div]; omega), out_half, xn_xn]

theorem land_o (c : Dev nD) (k : Fin 18)
    (fn : Buf (Elt F) ((outM c k).view.loc (c : Thread nD τ))) (fs : Buf (Elt F) ((smM k).view.loc (c : Thread nD τ)))
    (hfs : ∀ i ∈ (smM k).view.set, fs i = SUMv m c i) :
    ∀ i ∈ (outM c k).view.set, (outM c k).view.write (Elt F) fn ((smM k).view.read (Elt F) fs) Finset.univ i = OUT m c i := by
  intro i hi
  obtain ⟨y, rfl⟩ := View.exists_emb_of_mem_set (outM c k).view hi
  rw [View.write_emb_of_mem _ _ (Finset.mem_univ y), View.read_apply, hfs _ ((smM k).view.emb_mem_set y)]
  show SUMv m c ((smM k).view.emb y) = OUT m c ((outM c k).view.emb y)
  rw [OUT_apply, if_pos (out_div c k y), out_half]

end Cert.KernelIdeal.AR

end
-- ==== Proof.Vals.lean ====
import proofs.«900140_g7700000000000141_dist_ar_v7x_xy2x2_y_m16384_n1024_bf16_1_alg».proof.Proof.Tables
import proofs.«900140_g7700000000000141_dist_ar_v7x_xy2x2_y_m16384_n1024_bf16_1_alg».proof.Proof.Landing
import Idealize.ShloMosaic.Lib.Pipeline.Value
import Idealize.ShloMosaic.Lib.Writes

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem narrow_val (c : Dev nD) (n o s : ℕ)
    (inbX : ∀ a, (![o, 0] : Fin 2 → ℕ) a + (⟨2, ![n, 1024]⟩ : Shape).size a ≤ S8192x1024.size a)
    (inb3 : ∀ a, (![s, 0, 0] : Fin 3 → ℕ) a + (⟨3, ![1, n, 1024]⟩ : Shape).size a ≤ S2x512x1024.size a)
    (offA : Fin 2 → ℕ) (hoff : offA = ![base c + o, 0])
    (inbA : ∀ a, offA a + (⟨2, ![n, 1024]⟩ : Shape).size a ≤ S16384x1024.size a)
    (hsq : (⟨3, ![1, n, 1024]⟩ : Shape).Squeezes ⟨2, ![n, 1024]⟩)
    (hc1 : (⟨3, ![1, n, 1024]⟩ : Shape).ShapeCasts ⟨2, ![n, 1024]⟩)
    (hc2 : (⟨2, ![n, 1024]⟩ : Shape).ShapeCasts ⟨2, ![n, 1024]⟩)
    (f3 : Buf (Elt F) ((c : Thread nD τ).loc cc0_scratch3)) (fxb : Buf (Elt F) ((c : Thread nD τ).loc cc0_scratch0)) :
    ∀ i ∈ ((Memref.whole cc0_scratch0 : Memref sig .tc .vmem S8192x1024 .bf16).access (Rect.unit (s := S8192x1024) ![o, 0] ![n, 1024] inbX)).set,
      View.write (Elt F) ((Memref.whole cc0_scratch0 : Memref sig .tc .vmem S8192x1024 .bf16).access (Rect.unit (s := S8192x1024) ![o, 0] ![n, 1024] inbX)) fxb
        (shapeCast ⟨2, ![n, 1024]⟩
          (truncf .bf16
            (shapeCast ⟨2, ![n, 1024]⟩
              (View.readAt (Elt F) (Memref.whole cc0_scratch3 : Memref sig .tc .vmem S2x512x1024 .f32).view
                (Rect.unit (s := S2x512x1024) ![s, 0, 0] ![1, n, 1024] inb3).toLoadRect
                (View.write (Elt F)
                  (((Memref.whole cc0_scratch3 : Memref sig .tc .vmem S2x512x1024 .f32).slice (Rect.unit (s := S2x512x1024) ![s, 0, 0] ![1, n, 1024] inb3) (fun _ => rfl)).squeeze ⟨2, ![n, 1024]⟩ hsq).view
                  f3
                  (ReadAs.same.apply
                    (View.read (Elt F)
                      ((Memref.whole main_arg0 : Memref sig .tc .hbm S16384x1024 .f32).slice (Rect.unit (s := S16384x1024) offA ![n, 1024] inbA) (fun _ => rfl)).view
                      (m ((c : Thread nD τ).loc main_arg0))))
                  Finset.univ))
              hc1)
            bitsLt_bf16_f32)
          hc2)
        Finset.univ i
      = XB m c i := by
  intro i hi
  obtain ⟨y, rfl⟩ := View.exists_emb_of_mem_set _ hi
  rw [View.write_emb_of_mem _ _ (Finset.mem_univ y)]
  subst hoff
  rw [shapeCast_self]
  unfold truncf
  rw [shapeCast_dropUnit_apply, View.readAt_apply, View.read_apply]
  have e : (Memref.whole cc0_scratch3 : Memref sig .tc .vmem S2x512x1024 .f32).view.emb
        ((Rect.unit (s := S2x512x1024) ![s, 0, 0] ![1, n, 1024] inb3).toLoadRect.idx (Fin.cons ⟨0, Nat.one_pos⟩ y))
      = (((Memref.whole cc0_scratch3 : Memref sig .tc .vmem S2x512x1024 .f32).slice (Rect.unit (s := S2x512x1024) ![s, 0, 0] ![1, n, 1024] inb3) (fun _ => rfl)).squeeze ⟨2, ![n, 1024]⟩ hsq).view.emb y := by
    show _ = (Rect.unit (s := S2x512x1024) ![s, 0, 0] ![1, n, 1024] inb3).emb (Shape.reshapeEquiv _ y)
    rw [Shape.reshapeEquiv_cons_one]; rfl
  rw [e, View.write_emb_of_mem _ _ (Finset.mem_univ y), ReadAs.apply_same, View.read_apply]
  simp only [cast_cast, cast_eq]
  unfold XB
  have ei : ((View.whole main_arg0 : View sig .tc _ _ _).slice (Rect.unit (s := S16384x1024) ![base c + o, 0] ![n, 1024] inbA)).emb y
      = rowIn (base c) (base_le c) (((Memref.whole cc0_scratch0 : Memref sig .tc .vmem S8192x1024 .bf16).access (Rect.unit (s := S8192x1024) ![o, 0] ![n, 1024] inbX)).emb y) := by
    funext a
    apply Fin.ext
    fin_cases a
    · show (base c + o) + 1 * (y 0 : ℕ) = base c + (o + 1 * (y 0 : ℕ)); omega
    · show 0 + 1 * (y 1 : ℕ) = 0 + 1 * (y 1 : ℕ); rfl
  rw [ei]

theorem sum_val (c : Dev nD) (n o : ℕ)
    (inbX : ∀ a, (![o, 0] : Fin 2 → ℕ) a + (⟨2, ![n, 1024]⟩ : Shape).size a ≤ S8192x1024.size a)
    (hc : (⟨2, ![n, 1024]⟩ : Shape).ShapeCasts ⟨2, ![n, 1024]⟩)
    (fx : Buf (Elt F) ((c : Thread nD τ).loc cc0_scratch0)) (fy : Buf (Elt F) ((c : Thread nD τ).loc cc0_scratch1))
    (fsm : Buf (Elt F) ((c : Thread nD τ).loc cc0_scratch2))
    (hx : ∀ i ∈ ((Memref.whole cc0_scratch0 : Memref sig .tc .vmem S8192x1024 .bf16).access (Rect.unit (s := S8192x1024) ![o, 0] ![n, 1024] inbX)).set, fx i = XB m c i)
    (hy : ∀ i ∈ ((Memref.whole cc0_scratch1 : Memref sig .tc .vmem S8192x1024 .bf16).access (Rect.unit (s := S8192x1024) ![o, 0] ![n, 1024] inbX)).set, fy i = YR m c i) :
    ∀ i ∈ ((Memref.whole cc0_scratch2 : Memref sig .tc .vmem S8192x1024 .bf16).access (Rect.unit (s := S8192x1024) ![o, 0] ![n, 1024] inbX)).set,
      View.write (Elt F) ((Memref.whole cc0_scratch2 : Memref sig .tc .vmem S8192x1024 .bf16).access (Rect.unit (s := S8192x1024) ![o, 0] ![n, 1024] inbX)) fsm
        (shapeCast ⟨2, ![n, 1024]⟩
          (addf
            (View.readAt (Elt F) (Memref.whole cc0_scratch0 : Memref sig .tc .vmem S8192x1024 .bf16).view
              (Rect.unit (s := S8192x1024) ![o, 0] ![n, 1024] inbX).toLoadRect fx : Vec F ⟨2, ![n, 1024]⟩ .bf16)
            (View.readAt (Elt F) (Memref.whole cc0_scratch1 : Memref sig .tc .vmem S8192x1024 .bf16).view
              (Rect.unit (s := S8192x1024) ![o, 0] ![n, 1024] inbX).toLoadRect fy : Vec F ⟨2, ![n, 1024]⟩ .bf16))
          hc)
        Finset.univ i
      = SUMv m c i := by
  intro i hi
  obtain ⟨y, rfl⟩ := View.exists_emb_of_mem_set _ hi
  rw [View.write_emb_of_mem _ _ (Finset.mem_univ y)]
  simp only [cast_eq]
  refine (congrFun (shapeCast_self (s := ⟨2, ![n, 1024]⟩) _ hc) y).trans ?_
  unfold addf SUMv
  rw [View.readAt_apply, View.readAt_apply, View.read_apply, View.read_apply]
  simp only [cast_eq]
  exact congrArg₂ _
    (hx _ (View.emb_mem_set ((Memref.whole cc0_scratch0 : Memref sig .tc .vmem S8192x1024 .bf16).access (Rect.unit (s := S8192x1024) ![o, 0] ![n, 1024] inbX)) y))
    (hy _ (View.emb_mem_set ((Memref.whole cc0_scratch1 : Memref sig .tc .vmem S8192x1024 .bf16).access (Rect.unit (s := S8192x1024) ![o, 0] ![n, 1024] inbX)) y))

theorem land_o_w (c : Dev nD) (k : Fin 18)
    (fn : Buf (Elt F) ((outM c k).view.loc (c : Thread nD τ))) (fs : Buf (Elt F) ((smM k).view.loc (c : Thread nD τ)))
    (hfs : ∀ i ∈ (smM k).view.set, fs i = SUMv m c i)
    (P : (SK k).Idx → Elt F .bf16) (hP : P = (smM k).view.read (Elt F) fs) :
    ∀ i ∈ (outM c k).view.set, (outM c k).view.writes (Elt F) fn [⟨Rect.whole (SK k), P⟩] i = OUT m c i := by
  intro i hi
  subst hP
  have key : (outM c k).view.writes (Elt F) fn [⟨Rect.whole (SK k), (smM k).view.read (Elt F) fs⟩] i
      = (outM c k).view.write (Elt F) fn ((smM k).view.read (Elt F) fs) Finset.univ i := by
    obtain ⟨y, rfl⟩ := View.exists_emb_of_mem_set (outM c k).view hi
    have e : ((outM c k).view.slice (Rect.whole (SK k))).emb y = (outM c k).view.emb y := by
      rw [View.emb_slice, Function.Embedding.trans_apply, Rect.emb_whole_apply]
    rw [View.writes_singleton, View.write_emb_of_mem _ _ (Finset.mem_univ y), ← e,
      View.write_emb_of_mem _ _ (Finset.mem_univ y)]
  rw [key]
  exact land_o m c k fn fs hfs i hi

end Cert.KernelIdeal.AR

end
-- ==== Proof.Sends.lean ====
import proofs.«900140_g7700000000000141_dist_ar_v7x_xy2x2_y_m16384_n1024_bf16_1_alg».proof.Proof.Landing
import proofs.«900140_g7700000000000141_dist_ar_v7x_xy2x2_y_m16384_n1024_bf16_1_alg».proof.Proof.Gen.KernelIdeal.Skeleton

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Column transfer `k` from the whole chunk, at contents that agree with the narrowed rows: the left half travels, the right half comes back. -/
theorem send_y (κ₁ κ₂ : ℕ) (c n : Dev nD) (hn : n = yn c) (k : Fin 18)
    {hsc : ((yrM k) : Memref sig (Dev.tc n : Thread nD τ).2.kind .vmem (SK k) .bf16).view.ref.isScScratch = false}
    {hsrc : (xbM k).view.WordExact} {hdst : (yrM k).view.WordExact}
    {hsem : DmaTarget.Typed .vmem (.dma (dsem 1 k)) (.remote (Dev.tc n : Thread nD τ) (yrM k) (.dma (dsem 0 k)) hsc)}
    {α : Type} {Q : α → sProp 𝕄} {kk : PUnit → Prog (TpuEff nD τ sig (Elt F) Λ₀ .tc) α}
    (fn : Buf (Elt F) ((yrM k).view.loc ((yn c : Dev nD) : Thread nD τ))) (fs : Buf (Elt F) ((xbM k).view.loc (c : Thread nD τ)))
    (hfs : ∀ i ∈ (xbM k).view.set, fs i = XB m c i)
    (O₀ O : CellTallies nD τ sig Unit) (hO : O₀ = O + tallyAt (dcell (yn c) 1 k) () (Ny k)) (W : Waits sig Unit) :
    iprop(owes (c : Thread nD τ) O₀ W
        ∗ ((xbM k).view.loc (c : Thread nD τ) ↦[(xbM k).view.set]{fullShare} fs)
        ∗ ((yrM k).view.loc ((yn c : Dev nD) : Thread nD τ) ↦[(yrM k).view.set]{fullShare} fn)
        ∗ cellInv ER (Rd m) κ₁ (dcell c 0 k) ∗ cellInv ER (Rd m) κ₂ (dcell (yn c) 1 k)
        ∗ dutyTok ER (dcell c 0 k) 0 false ∗ reached ER (dcell c 0 k) 0
        ∗ dutyTok ER (dcell (yn c) 1 k) 0 false ∗ reached ER (dcell (yn c) 1 k) 0)
      ⊢ iprop(((((xbM k).view.loc (c : Thread nD τ) ↦[(xbM k).view.set]{fullShare.right} XB m c)
              ∗ cred (tallyAt (dcell c 0 k) () (Ny k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xbM k) (.remote (Dev.tc n : Thread nD τ) (yrM k) (.dma (dsem 0 k)) hsc) (.dma (dsem 1 k)) hsrc hdst hsem) kk) Q) := by
  subst hn
  rw [pointsTo_congr hfs]
  iintro ⟨HO, Hs, Hn, #I1, #I2, T1, #R1, T2, #R2⟩ Hk
  ihave Hs := (pointsTo_share (PosShare.mem_left_op_right fullShare)).1 $$ Hs
  icases Hs with ⟨Hl, Hr⟩
  iapply (Rounds.wp_send_pointsTo 𝒱₀ ER (Rd m) (c : Thread nD τ) none (κ₁ := κ₁) (κ₂ := κ₂)
    (r₁ := 0) (r₂ := 0) (d₁ := false) (d₂ := false) (fd := fn) (fs := XB m c) (q := fullShare.left)
    (by rw [duties_fam]; exact Finset.mem_singleton_self _) (by rw [duties_fam]; exact Finset.mem_singleton_self _)
    () () (Ny k) rfl (amount_y m c 0 (by decide) k false) (amount_y m (yn c) 1 (by decide) k false) O hO (W := W)
    (by rw [payload_fam]; exact Entails.of_eq rfl)
    (by rw [payload_fam]
        show _ ⊢ ((yrM k).view.loc ((yn c : Dev nD) : Thread nD τ) ↦[(yrM k).view.set]{fullShare} YR m (yn c))
        rw [pointsTo_congr (land_y m c k fn (XB m c) (fun _ _ => rfl))])) $$ [Hl Hn HO T1 T2]
  · iframe I1 I2 R1 R2 ∗
  iintro ⟨Hc, HO⟩
  iapply Hk
  iframe

/-- Row transfer `k` from the whole chunk of sums, likewise. -/
theorem send_x (κ₁ κ₂ : ℕ) (c n : Dev nD) (hn : n = xn c) (k : Fin 18)
    {hsc : ((outM c k) : Memref sig (Dev.tc n : Thread nD τ).2.kind .hbm (SK k) .bf16).view.ref.isScScratch = false}
    {hsrc : (smM k).view.WordExact} {hdst : (outM c k).view.WordExact}
    {hsem : DmaTarget.Typed .vmem (.dma (dsem 3 k)) (.remote (Dev.tc n : Thread nD τ) (outM c k) (.dma (dsem 2 k)) hsc)}
    {α : Type} {Q : α → sProp 𝕄} {kk : PUnit → Prog (TpuEff nD τ sig (Elt F) Λ₀ .tc) α}
    (fn : Buf (Elt F) ((outM c k).view.loc ((xn c : Dev nD) : Thread nD τ))) (fs : Buf (Elt F) ((smM k).view.loc (c : Thread nD τ)))
    (hfs : ∀ i ∈ (smM k).view.set, fs i = SUMv m c i)
    (O₀ O : CellTallies nD τ sig Unit) (hO : O₀ = O + tallyAt (dcell (xn c) 3 k) () (Nx k)) (W : Waits sig Unit) :
    iprop(owes (c : Thread nD τ) O₀ W
        ∗ ((smM k).view.loc (c : Thread nD τ) ↦[(smM k).view.set]{fullShare} fs)
        ∗ ((outM c k).view.loc ((xn c : Dev nD) : Thread nD τ) ↦[(outM c k).view.set]{fullShare} fn)
        ∗ cellInv ER (Rd m) κ₁ (dcell c 2 k) ∗ cellInv ER (Rd m) κ₂ (dcell (xn c) 3 k)
        ∗ dutyTok ER (dcell c 2 k) 0 false ∗ reached ER (dcell c 2 k) 0
        ∗ dutyTok ER (dcell (xn c) 3 k) 0 false ∗ reached ER (dcell (xn c) 3 k) 0)
      ⊢ iprop(((((smM k).view.loc (c : Thread nD τ) ↦[(smM k).view.set]{fullShare.right} SUMv m c)
              ∗ cred (tallyAt (dcell c 2 k) () (Nx k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (smM k) (.remote (Dev.tc n : Thread nD τ) (outM c k) (.dma (dsem 2 k)) hsc) (.dma (dsem 3 k)) hsrc hdst hsem) kk) Q) := by
  subst hn
  rw [pointsTo_congr hfs]
  iintro ⟨HO, Hs, Hn, #I1, #I2, T1, #R1, T2, #R2⟩ Hk
  ihave Hs := (pointsTo_share (PosShare.mem_left_op_right fullShare)).1 $$ Hs
  icases Hs with ⟨Hl, Hr⟩
  iapply (Rounds.wp_send_pointsTo 𝒱₀ ER (Rd m) (c : Thread nD τ) none (κ₁ := κ₁) (κ₂ := κ₂)
    (r₁ := 0) (r₂ := 0) (d₁ := false) (d₂ := false) (fd := fn) (fs := SUMv m c) (q := fullShare.left)
    (by rw [duties_fam]; exact Finset.mem_singleton_self _) (by rw [duties_fam]; exact Finset.mem_singleton_self _)
    () () (Nx k) rfl (amount_x m c 2 (by decide) k false) (amount_x m (xn c) 3 (by decide) k false) O hO (W := W)
    (by rw [payload_fam]; exact Entails.of_eq rfl)
    (by rw [payload_fam]
        show _ ⊢ ((outM (xn (xn c)) k).view.loc ((xn c : Dev nD) : Thread nD τ) ↦[(outM (xn (xn c)) k).view.set]{fullShare} OUT m (xn c))
        rw [xn_xn, pointsTo_congr (land_x m c k fn (SUMv m c) (fun _ _ => rfl))])) $$ [Hl Hn HO T1 T2]
  · iframe I1 I2 R1 R2 ∗
  iintro ⟨Hc, HO⟩
  iapply Hk
  iframe

end Cert.KernelIdeal.AR

end
-- ==== Proof.Run.lean ====
import proofs.«900140_g7700000000000141_dist_ar_v7x_xy2x2_y_m16384_n1024_bf16_1_alg».proof.Proof.BodyDefs
import proofs.«900140_g7700000000000141_dist_ar_v7x_xy2x2_y_m16384_n1024_bf16_1_alg».proof.Proof.Incl
import proofs.«900140_g7700000000000141_dist_ar_v7x_xy2x2_y_m16384_n1024_bf16_1_alg».proof.Proof.Slots
import proofs.«900140_g7700000000000141_dist_ar_v7x_xy2x2_y_m16384_n1024_bf16_1_alg».proof.Proof.Vals
import proofs.«900140_g7700000000000141_dist_ar_v7x_xy2x2_y_m16384_n1024_bf16_1_alg».proof.Proof.Sends
import proofs.«900140_g7700000000000141_dist_ar_v7x_xy2x2_y_m16384_n1024_bf16_1_alg».proof.Proof.Gen.KernelIdeal.Skeleton
import proofs.«900140_g7700000000000141_dist_ar_v7x_xy2x2_y_m16384_n1024_bf16_1_alg».proof.Proof.Gen.KernelIdeal.Points
import proofs.«900140_g7700000000000141_dist_ar_v7x_xy2x2_y_m16384_n1024_bf16_1_alg».proof.Proof.Gen.KernelIdeal.Frame

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

theorem bar_pay_split (c : Dev nD) : (bigSep Finset.univ fun d : Bool => (Rd (F := F) m).payload (barCell c) 0 d)
    = iprop(barPayY c ∗ barPayX c) := by
  have h := rest_bar (F := F) m c
  rwa [Finset.sdiff_empty, duties_bar] at h
theorem expect_bar' (c : Dev nD) : (Rd (F := F) m).expect (barCell c) 0 = 2 := expect_bar m c
theorem amount_f0 (c : Dev nD) (k : Fin 18) (d : Bool) : (Rd (F := F) m).amount (dcell c 0 k) 0 d = Ny k := amount_y m c 0 (by decide) k d
theorem amount_f1 (c : Dev nD) (k : Fin 18) (d : Bool) : (Rd (F := F) m).amount (dcell c 1 k) 0 d = Ny k := amount_y m c 1 (by decide) k d
theorem amount_f2 (c : Dev nD) (k : Fin 18) (d : Bool) : (Rd (F := F) m).amount (dcell c 2 k) 0 d = Nx k := amount_x m c 2 (by decide) k d
theorem amount_f3 (c : Dev nD) (k : Fin 18) (d : Bool) : (Rd (F := F) m).amount (dcell c 3 k) 0 d = Nx k := amount_x m c 3 (by decide) k d
theorem expect_f0 (c : Dev nD) (k : Fin 18) : (Rd (F := F) m).expect (dcell c 0 k) 0 = Ny k := expect_y m c 0 (by decide) k
theorem expect_f1 (c : Dev nD) (k : Fin 18) : (Rd (F := F) m).expect (dcell c 1 k) 0 = Ny k := expect_y m c 1 (by decide) k
theorem expect_f2 (c : Dev nD) (k : Fin 18) : (Rd (F := F) m).expect (dcell c 2 k) 0 = Nx k := expect_x m c 2 (by decide) k
theorem expect_f3 (c : Dev nD) (k : Fin 18) : (Rd (F := F) m).expect (dcell c 3 k) 0 = Nx k := expect_x m c 3 (by decide) k
theorem payload_f0 (c : Dev nD) (k : Fin 18) (d : Bool) : (Rd (F := F) m).payload (dcell c 0 k) 0 d
    = ((xbM k).view.loc (c : Thread nD τ) ↦[(xbM k).view.set]{fullShare.left} XB m c) := payload_fam m c 0 k d
theorem payload_f1 (c : Dev nD) (k : Fin 18) (d : Bool) : (Rd (F := F) m).payload (dcell c 1 k) 0 d
    = ((yrM k).view.loc (c : Thread nD τ) ↦[(yrM k).view.set]{fullShare} YR m c) := payload_fam m c 1 k d
theorem payload_f2 (c : Dev nD) (k : Fin 18) (d : Bool) : (Rd (F := F) m).payload (dcell c 2 k) 0 d
    = ((smM k).view.loc (c : Thread nD τ) ↦[(smM k).view.set]{fullShare.left} SUMv m c) := payload_fam m c 2 k d
theorem payload_f3 (c : Dev nD) (k : Fin 18) (d : Bool) : (Rd (F := F) m).payload (dcell c 3 k) 0 d
    = ((outM (xn c) k).view.loc (c : Thread nD τ) ↦[(outM (xn c) k).view.set]{fullShare} OUT m c) := payload_fam m c 3 k d

theorem restate_ob (c : Dev nD) (k : Fin 18) (q : PosShare TreeShare) (f : Buf (Elt F) ((outM c k).view.loc (c : Thread nD τ)))
    (h : ∀ i ∈ (outM c k).view.set, f i = OUT m c i) :
    ((outM c k).view.loc (c : Thread nD τ) ↦[(outM c k).view.set]{q} f : sProp 𝕄) ⊢ ((outM c k).view.loc (c : Thread nD τ) ↦[(outM c k).view.set]{q} OUT m c) :=
  Entails.of_eq (pointsTo_congr h)

theorem owes_end (c : Dev nD) (W : Waits sig Unit) : (owes (c : Thread nD τ) (Oy c 18 + Ox c 18) W : sProp 𝕄) ⊢ owes (c : Thread nD τ) 0 W :=
  Entails.of_eq (by rw [Oy_end, Ox_end, add_zero])

theorem owe_y (c : Dev nD) (k : Fin 18) (i : ℕ) :
    Oy c k.val + Ox c i = (Oy c (k.val + 1) + Ox c i) + tallyAt (dcell (yn c) 1 k) () (Ny k) := by
  rw [Oy_succ c k, add_right_comm]
theorem owe_x (c : Dev nD) (j : ℕ) (k : Fin 18) :
    Oy c j + Ox c k.val = (Oy c j + Ox c (k.val + 1)) + tallyAt (dcell (xn c) 3 k) () (Nx k) := by
  rw [Ox_succ c k, add_assoc]

attribute [local sl_rounds] duties_bar amount_bar expect_bar' duties_fam
  amount_f0 amount_f1 amount_f2 amount_f3 expect_f0 expect_f1 expect_f2 expect_f3 payload_f0 payload_f1 payload_f2 payload_f3

set_option maxHeartbeats 40000000 in
set_option sl_exec.stepHeartbeats 1000000 in
/-- One device's body in program order: two barrier signals, thirty-six transfers, and at the end every piece where `bodyPost` wants it. -/
theorem sound_body (c : Dev nD) (K : Dev nD × Fin 73 → ℕ) (W : Waits sig Unit)
    (f3 : Buf (Elt F) ((c : Thread nD τ).loc cc0_scratch3)) (fxb : Buf (Elt F) ((c : Thread nD τ).loc cc0_scratch0))
    (fsm : Buf (Elt F) ((c : Thread nD τ).loc cc0_scratch2)) (fyr : Buf (Elt F) ((c : Thread nD τ).loc cc0_scratch1))
    (fo : Buf (Elt F) ((c : Thread nD τ).loc main_v1)) :
    bodyPre m c K W f3 fxb fsm fyr fo
      ⊢ wp frame (wpE (defs₀ (F := F)) 𝒱₀ (c : Thread nD τ) none) Set.univ
          (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9)
          (fun _ => bodyPost m c) := by
  unfold bodyPre sep18 sep20 w0_128 w0_512 w1_384 w1_512
  beta_reduce
  iintro ⟨⟨#HIb, #HIby, #HIbx, ⟨#HI0_0, #HI0_1, #HI0_2, #HI0_3, #HI0_4, #HI0_5, #HI0_6, #HI0_7, #HI0_8, #HI0_9, #HI0_10, #HI0_11, #HI0_12, #HI0_13, #HI0_14, #HI0_15, #HI0_16, #HI0_17⟩, ⟨#HI1_0, #HI1_1, #HI1_2, #HI1_3, #HI1_4, #HI1_5, #HI1_6, #HI1_7, #HI1_8, #HI1_9, #HI1_10, #HI1_11, #HI1_12, #HI1_13, #HI1_14, #HI1_15, #HI1_16, #HI1_17⟩, ⟨#HI2_0, #HI2_1, #HI2_2, #HI2_3, #HI2_4, #HI2_5, #HI2_6, #HI2_7, #HI2_8, #HI2_9, #HI2_10, #HI2_11, #HI2_12, #HI2_13, #HI2_14, #HI2_15, #HI2_16, #HI2_17⟩, ⟨#HI3_0, #HI3_1, #HI3_2, #HI3_3, #HI3_4, #HI3_5, #HI3_6, #HI3_7, #HI3_8, #HI3_9, #HI3_10, #HI3_11, #HI3_12, #HI3_13, #HI3_14, #HI3_15, #HI3_16, #HI3_17⟩, ⟨#HIy_0, #HIy_1, #HIy_2, #HIy_3, #HIy_4, #HIy_5, #HIy_6, #HIy_7, #HIy_8, #HIy_9, #HIy_10, #HIy_11, #HIy_12, #HIy_13, #HIy_14, #HIy_15, #HIy_16, #HIy_17⟩, ⟨#HIx_0, #HIx_1, #HIx_2, #HIx_3, #HIx_4, #HIx_5, #HIx_6, #HIx_7, #HIx_8, #HIx_9, #HIx_10, #HIx_11, #HIx_12, #HIx_13, #HIx_14, #HIx_15, #HIx_16, #HIx_17⟩⟩, ⟨#Hrby, #Hrbx, ⟨#Hry_0, #Hry_1, #Hry_2, #Hry_3, #Hry_4, #Hry_5, #Hry_6, #Hry_7, #Hry_8, #Hry_9, #Hry_10, #Hry_11, #Hry_12, #Hry_13, #Hry_14, #Hry_15, #Hry_16, #Hry_17⟩, ⟨#Hrx_0, #Hrx_1, #Hrx_2, #Hrx_3, #Hrx_4, #Hrx_5, #Hrx_6, #Hrx_7, #Hrx_8, #Hrx_9, #Hrx_10, #Hrx_11, #Hrx_12, #Hrx_13, #Hrx_14, #Hrx_15, #Hrx_16, #Hrx_17⟩, ⟨#Hr0_0, #Hr0_1, #Hr0_2, #Hr0_3, #Hr0_4, #Hr0_5, #Hr0_6, #Hr0_7, #Hr0_8, #Hr0_9, #Hr0_10, #Hr0_11, #Hr0_12, #Hr0_13, #Hr0_14, #Hr0_15, #Hr0_16, #Hr0_17⟩, ⟨#Hr2_0, #Hr2_1, #Hr2_2, #Hr2_3, #Hr2_4, #Hr2_5, #Hr2_6, #Hr2_7, #Hr2_8, #Hr2_9, #Hr2_10, #Hr2_11, #Hr2_12, #Hr2_13, #Hr2_14, #Hr2_15, #Hr2_16, #Hr2_17⟩⟩, #Hlev, HO, ⟨Htby, Htbx, ⟨Hty_0, Hty_1, Hty_2, Hty_3, Hty_4, Hty_5, Hty_6, Hty_7, Hty_8, Hty_9, Hty_10, Hty_11, Hty_12, Hty_13, Hty_14, Hty_15, Hty_16, Hty_17⟩, ⟨Htx_0, Htx_1, Htx_2, Htx_3, Htx_4, Htx_5, Htx_6, Htx_7, Htx_8, Htx_9, Htx_10, Htx_11, Htx_12, Htx_13, Htx_14, Htx_15, Htx_16, Htx_17⟩, ⟨Ht0_0, Ht0_1, Ht0_2, Ht0_3, Ht0_4, Ht0_5, Ht0_6, Ht0_7, Ht0_8, Ht0_9, Ht0_10, Ht0_11, Ht0_12, Ht0_13, Ht0_14, Ht0_15, Ht0_16, Ht0_17⟩, ⟨Ht2_0, Ht2_1, Ht2_2, Ht2_3, Ht2_4, Ht2_5, Ht2_6, Ht2_7, Ht2_8, Ht2_9, Ht2_10, Ht2_11, Ht2_12, Ht2_13, Ht2_14, Ht2_15, Ht2_16, Ht2_17⟩⟩, ⟨Hatb, ⟨Hat0_0, Hat0_1, Hat0_2, Hat0_3, Hat0_4, Hat0_5, Hat0_6, Hat0_7, Hat0_8, Hat0_9, Hat0_10, Hat0_11, Hat0_12, Hat0_13, Hat0_14, Hat0_15, Hat0_16, Hat0_17⟩, ⟨Hat1_0, Hat1_1, Hat1_2, Hat1_3, Hat1_4, Hat1_5, Hat1_6, Hat1_7, Hat1_8, Hat1_9, Hat1_10, Hat1_11, Hat1_12, Hat1_13, Hat1_14, Hat1_15, Hat1_16, Hat1_17⟩, ⟨Hat2_0, Hat2_1, Hat2_2, Hat2_3, Hat2_4, Hat2_5, Hat2_6, Hat2_7, Hat2_8, Hat2_9, Hat2_10, Hat2_11, Hat2_12, Hat2_13, Hat2_14, Hat2_15, Hat2_16, Hat2_17⟩, ⟨Hat3_0, Hat3_1, Hat3_2, Hat3_3, Hat3_4, Hat3_5, Hat3_6, Hat3_7, Hat3_8, Hat3_9, Hat3_10, Hat3_11, Hat3_12, Hat3_13, Hat3_14, Hat3_15, Hat3_16, Hat3_17⟩⟩, ⟨Hcb, ⟨Hc1_0, Hc1_1, Hc1_2, Hc1_3, Hc1_4, Hc1_5, Hc1_6, Hc1_7, Hc1_8, Hc1_9, Hc1_10, Hc1_11, Hc1_12, Hc1_13, Hc1_14, Hc1_15, Hc1_16, Hc1_17⟩, ⟨Hc3_0, Hc3_1, Hc3_2, Hc3_3, Hc3_4, Hc3_5, Hc3_6, Hc3_7, Hc3_8, Hc3_9, Hc3_10, Hc3_11, Hc3_12, Hc3_13, Hc3_14, Hc3_15, Hc3_16, Hc3_17⟩⟩, ⟨Hs_0, Hs_1, Hs_2, Hs_3, Hs_4, Hs_5, Hs_6, Hs_7, Hs_8, Hs_9, Hs_10, Hs_11, Hs_12, Hs_13, Hs_14, Hs_15, Hs_16, Hs_17, Hs_18, Hs_19⟩, Hx, ⟨Hf30, Hf30r, Hf31, Hf31r⟩, ⟨Hxb_0, Hxb_1, Hxb_2, Hxb_3, Hxb_4, Hxb_5, Hxb_6, Hxb_7, Hxb_8, Hxb_9, Hxb_10, Hxb_11, Hxb_12, Hxb_13, Hxb_14, Hxb_15, Hxb_16, Hxb_17⟩, ⟨Hsm_0, Hsm_1, Hsm_2, Hsm_3, Hsm_4, Hsm_5, Hsm_6, Hsm_7, Hsm_8, Hsm_9, Hsm_10, Hsm_11, Hsm_12, Hsm_13, Hsm_14, Hsm_15, Hsm_16, Hsm_17⟩, ⟨Hyr_0, Hyr_1, Hyr_2, Hyr_3, Hyr_4, Hyr_5, Hyr_6, Hyr_7, Hyr_8, Hyr_9, Hyr_10, Hyr_11, Hyr_12, Hyr_13, Hyr_14, Hyr_15, Hyr_16, Hyr_17⟩, ⟨Hob_0, Hob_1, Hob_2, Hob_3, Hob_4, Hob_5, Hob_6, Hob_7, Hob_8, Hob_9, Hob_10, Hob_11, Hob_12, Hob_13, Hob_14, Hob_15, Hob_16, Hob_17⟩, ⟨Hoo_0, Hoo_1, Hoo_2, Hoo_3, Hoo_4, Hoo_5, Hoo_6, Hoo_7, Hoo_8, Hoo_9, Hoo_10, Hoo_11, Hoo_12, Hoo_13, Hoo_14, Hoo_15, Hoo_16, Hoo_17⟩⟩
  unfold O₀ O₁
  have hmw := mayWait_bar (F := F) c
  have hlow : ∀ (q : DmaSem sig) (hq : lv (((c : Thread nD τ), .dma q) : GSem nD τ sig) () = 0) (j i : ℕ),
      (levAts L lv : sProp 𝕄) ⊢ MayWait (c : Thread nD τ) (.dma q) () (Oy c j + Ox c i) := fun q hq j i => mayWait_low (F := F) c q hq j i
  have hyr : ∀ (k : Fin 18) (j i : ℕ) (hj : k.val < j),
      (levAts L lv : sProp 𝕄) ⊢ MayWait (c : Thread nD τ) (.dma (dsem 1 k)) () (Oy c j + Ox c i) := fun k j i hj => mayWait_yrecv (F := F) c k j i hj
  sl_exec_parts
  iapply (Rounds.wp_signal 𝒱₀ ER (Rd m) (c : Thread nD τ) none (dst := ((yn c : Dev nD) : Thread nD τ)) (κ := K (yn c, 0))
      (d := false) (by rw [duties_bar]; exact Finset.mem_univ _) ((amount_bar m (yn c) false).trans (by decide)) ()
      (Oy c 0 + Ox c 0 + tallyAt (barCell (xn c)) () 1) rfl)
    $$ [HO Htby Hyr_0 Hyr_1 Hyr_2 Hyr_3 Hyr_4 Hyr_5 Hyr_6 Hyr_7 Hyr_8 Hyr_9 Hyr_10 Hyr_11 Hyr_12 Hyr_13 Hyr_14 Hyr_15 Hyr_16 Hyr_17]
  · isplitr; · iexact HIby
    isplitl [HO]; · iexact HO
    isplitl [Htby]; · iexact Htby
    isplitr [Hrby]
    · rw [payload_bar_false]; unfold barPayY; rw [bigSep_fin18, yn_yn]
      isplitl [Hyr_0]; · iexists fyr; iexact Hyr_0
      isplitl [Hyr_1]; · iexists fyr; iexact Hyr_1
      isplitl [Hyr_2]; · iexists fyr; iexact Hyr_2
      isplitl [Hyr_3]; · iexists fyr; iexact Hyr_3
      isplitl [Hyr_4]; · iexists fyr; iexact Hyr_4
      isplitl [Hyr_5]; · iexists fyr; iexact Hyr_5
      isplitl [Hyr_6]; · iexists fyr; iexact Hyr_6
      isplitl [Hyr_7]; · iexists fyr; iexact Hyr_7
      isplitl [Hyr_8]; · iexists fyr; iexact Hyr_8
      isplitl [Hyr_9]; · iexists fyr; iexact Hyr_9
      isplitl [Hyr_10]; · iexists fyr; iexact Hyr_10
      isplitl [Hyr_11]; · iexists fyr; iexact Hyr_11
      isplitl [Hyr_12]; · iexists fyr; iexact Hyr_12
      isplitl [Hyr_13]; · iexists fyr; iexact Hyr_13
      isplitl [Hyr_14]; · iexists fyr; iexact Hyr_14
      isplitl [Hyr_15]; · iexists fyr; iexact Hyr_15
      isplitl [Hyr_16]; · iexists fyr; iexact Hyr_16
      iexists fyr; iexact Hyr_17
    · iexact Hrby
  iintro HO
  sl_exec_parts
  iapply (Rounds.wp_signal 𝒱₀ ER (Rd m) (c : Thread nD τ) none (dst := ((xn c : Dev nD) : Thread nD τ)) (κ := K (xn c, 0))
      (d := true) (by rw [duties_bar]; exact Finset.mem_univ _) ((amount_bar m (xn c) true).trans (by decide)) ()
      (Oy c 0 + Ox c 0) rfl)
    $$ [HO Htbx Hoo_0 Hoo_1 Hoo_2 Hoo_3 Hoo_4 Hoo_5 Hoo_6 Hoo_7 Hoo_8 Hoo_9 Hoo_10 Hoo_11 Hoo_12 Hoo_13 Hoo_14 Hoo_15 Hoo_16 Hoo_17]
  · isplitr; · iexact HIbx
    isplitl [HO]; · iexact HO
    isplitl [Htbx]; · iexact Htbx
    isplitr [Hrbx]
    · rw [payload_bar_true]; unfold barPayX; rw [bigSep_fin18, xn_xn]
      isplitl [Hoo_0]; · iexists fo; iexact Hoo_0
      isplitl [Hoo_1]; · iexists fo; iexact Hoo_1
      isplitl [Hoo_2]; · iexists fo; iexact Hoo_2
      isplitl [Hoo_3]; · iexists fo; iexact Hoo_3
      isplitl [Hoo_4]; · iexists fo; iexact Hoo_4
      isplitl [Hoo_5]; · iexists fo; iexact Hoo_5
      isplitl [Hoo_6]; · iexists fo; iexact Hoo_6
      isplitl [Hoo_7]; · iexists fo; iexact Hoo_7
      isplitl [Hoo_8]; · iexists fo; iexact Hoo_8
      isplitl [Hoo_9]; · iexists fo; iexact Hoo_9
      isplitl [Hoo_10]; · iexists fo; iexact Hoo_10
      isplitl [Hoo_11]; · iexists fo; iexact Hoo_11
      isplitl [Hoo_12]; · iexists fo; iexact Hoo_12
      isplitl [Hoo_13]; · iexists fo; iexact Hoo_13
      isplitl [Hoo_14]; · iexists fo; iexact Hoo_14
      isplitl [Hoo_15]; · iexists fo; iexact Hoo_15
      isplitl [Hoo_16]; · iexists fo; iexact Hoo_16
      iexists fo; iexact Hoo_17
    · iexact Hrbx
  iintro HO
  sl_exec_parts
  ihave Hp := (Entails.of_eq (bar_pay_split m c)) $$ Hatb_pay1
  conv in barPayY c => unfold barPayY; rw [bigSep_fin18]
  conv in barPayX c => unfold barPayX; rw [bigSep_fin18]
  icases Hp with ⟨⟨⟨%fyn0, Hyn_0⟩, ⟨%fyn1, Hyn_1⟩, ⟨%fyn2, Hyn_2⟩, ⟨%fyn3, Hyn_3⟩, ⟨%fyn4, Hyn_4⟩, ⟨%fyn5, Hyn_5⟩, ⟨%fyn6, Hyn_6⟩, ⟨%fyn7, Hyn_7⟩, ⟨%fyn8, Hyn_8⟩, ⟨%fyn9, Hyn_9⟩, ⟨%fyn10, Hyn_10⟩, ⟨%fyn11, Hyn_11⟩, ⟨%fyn12, Hyn_12⟩, ⟨%fyn13, Hyn_13⟩, ⟨%fyn14, Hyn_14⟩, ⟨%fyn15, Hyn_15⟩, ⟨%fyn16, Hyn_16⟩, ⟨%fyn17, Hyn_17⟩⟩, ⟨⟨%fxn0, Hxn_0⟩, ⟨%fxn1, Hxn_1⟩, ⟨%fxn2, Hxn_2⟩, ⟨%fxn3, Hxn_3⟩, ⟨%fxn4, Hxn_4⟩, ⟨%fxn5, Hxn_5⟩, ⟨%fxn6, Hxn_6⟩, ⟨%fxn7, Hxn_7⟩, ⟨%fxn8, Hxn_8⟩, ⟨%fxn9, Hxn_9⟩, ⟨%fxn10, Hxn_10⟩, ⟨%fxn11, Hxn_11⟩, ⟨%fxn12, Hxn_12⟩, ⟨%fxn13, Hxn_13⟩, ⟨%fxn14, Hxn_14⟩, ⟨%fxn15, Hxn_15⟩, ⟨%fxn16, Hxn_16⟩, ⟨%fxn17, Hxn_17⟩⟩⟩
  iapply (send_y m (K (c, famIx 0 0)) (K (yn c, famIx 1 0)) c _ (dev3_eq c) 0 fyn0 _ (narrow_val m c 128 0 0 _ _ _ (outOff_eq c 0) _ _ _ _ _ _) (Oy c 0 + Ox c 0) (Oy c 1 + Ox c 0) (owe_y c 0 0) _) $$ [Hxb_0 Hyn_0 HO Ht0_0 Hty_0]
  · isplitl [HO]; · iexact HO
    isplitl [Hxb_0]; · iexact Hxb_0
    iframe HI0_0 HIy_0 Hr0_0 Hry_0 ∗
  iintro ⟨Hxbr_0, Hcs0_0, HO⟩
  ihave Hj := (slot_join_0_128 c _ _) $$ [Hf30 Hf30r]
  · isplitl [Hf30]; · iexact Hf30
    iexact Hf30r
  icases Hj with ⟨%fj0, Hf30⟩
  sl_exec_parts
  iapply (send_y m (K (c, famIx 0 1)) (K (yn c, famIx 1 1)) c _ (dev4_eq c) 1 fyn1 _ (narrow_val m c 384 128 1 _ _ _ (outOff_eq c 1) _ _ _ _ _ _) (Oy c 1 + Ox c 0) (Oy c 2 + Ox c 0) (owe_y c 1 0) _) $$ [Hxb_1 Hyn_1 HO Ht0_1 Hty_1]
  · isplitl [HO]; · iexact HO
    isplitl [Hxb_1]; · iexact Hxb_1
    iframe HI0_1 HIy_1 Hr0_1 Hry_1 ∗
  iintro ⟨Hxbr_1, Hcs0_1, HO⟩
  sl_exec_parts
  iapply (send_x m (K (c, famIx 2 0)) (K (xn c, famIx 3 0)) c _ (dev5_eq c) 0 fxn0 _ (sum_val m c 128 0 _ _ _ _ _ (fun _ _ => rfl) (fun _ _ => rfl)) (Oy c 2 + Ox c 0) (Oy c 2 + Ox c 1) (owe_x c 2 0) _) $$ [Hsm_0 Hxn_0 HO Ht2_0 Htx_0]
  · isplitl [HO]; · iexact HO
    isplitl [Hsm_0]; · iexact Hsm_0
    iframe HI2_0 HIx_0 Hr2_0 Hrx_0 ∗
  iintro ⟨Hsmr_0, Hcs2_0, HO⟩
  ihave Hj := (slot_join_1_384 c _ _) $$ [Hf31 Hf31r]
  · isplitl [Hf31]; · iexact Hf31
    iexact Hf31r
  icases Hj with ⟨%fj1, Hf31⟩
  sl_exec_parts
  iapply (send_y m (K (c, famIx 0 2)) (K (yn c, famIx 1 2)) c _ (dev6_eq c) 2 fyn2 _ (narrow_val m c 512 512 0 _ _ _ (outOff_eq c 2) _ _ _ _ _ _) (Oy c 2 + Ox c 1) (Oy c 3 + Ox c 1) (owe_y c 2 1) _) $$ [Hxb_2 Hyn_2 HO Ht0_2 Hty_2]
  · isplitl [HO]; · iexact HO
    isplitl [Hxb_2]; · iexact Hxb_2
    iframe HI0_2 HIy_2 Hr0_2 Hry_2 ∗
  iintro ⟨Hxbr_2, Hcs0_2, HO⟩
  sl_exec_parts
  iapply (send_x m (K (c, famIx 2 1)) (K (xn c, famIx 3 1)) c _ (dev7_eq c) 1 fxn1 _ (sum_val m c 384 128 _ _ _ _ _ (fun _ _ => rfl) (fun _ _ => rfl)) (Oy c 3 + Ox c 1) (Oy c 3 + Ox c 2) (owe_x c 3 1) _) $$ [Hsm_1 Hxn_1 HO Ht2_1 Htx_1]
  · isplitl [HO]; · iexact HO
    isplitl [Hsm_1]; · iexact Hsm_1
    iframe HI2_1 HIx_1 Hr2_1 Hrx_1 ∗
  iintro ⟨Hsmr_1, Hcs2_1, HO⟩
  sl_exec_parts
  iapply (send_y m (K (c, famIx 0 3)) (K (yn c, famIx 1 3)) c _ (dev8_eq c) 3 fyn3 _ (narrow_val m c 512 1024 1 _ _ _ (outOff_eq c 3) _ _ _ _ _ _) (Oy c 3 + Ox c 2) (Oy c 4 + Ox c 2) (owe_y c 3 2) _) $$ [Hxb_3 Hyn_3 HO Ht0_3 Hty_3]
  · isplitl [HO]; · iexact HO
    isplitl [Hxb_3]; · iexact Hxb_3
    iframe HI0_3 HIy_3 Hr0_3 Hry_3 ∗
  iintro ⟨Hxbr_3, Hcs0_3, HO⟩
  sl_exec_parts
  iapply (send_x m (K (c, famIx 2 2)) (K (xn c, famIx 3 2)) c _ (dev9_eq c) 2 fxn2 _ (sum_val m c 512 512 _ _ _ _ _ (fun _ _ => rfl) (fun _ _ => rfl)) (Oy c 4 + Ox c 2) (Oy c 4 + Ox c 3) (owe_x c 4 2) _) $$ [Hsm_2 Hxn_2 HO Ht2_2 Htx_2]
  · isplitl [HO]; · iexact HO
    isplitl [Hsm_2]; · iexact Hsm_2
    iframe HI2_2 HIx_2 Hr2_2 Hrx_2 ∗
  iintro ⟨Hsmr_2, Hcs2_2, HO⟩
  sl_exec_parts
  iapply (send_y m (K (c, famIx 0 4)) (K (yn c, famIx 1 4)) c _ (dev10_eq c) 4 fyn4 _ (narrow_val m c 512 1536 0 _ _ _ (outOff_eq c 4) _ _ _ _ _ _) (Oy c 4 + Ox c 3) (Oy c 5 + Ox c 3) (owe_y c 4 3) _) $$ [Hxb_4 Hyn_4 HO Ht0_4 Hty_4]
  · isplitl [HO]; · iexact HO
    isplitl [Hxb_4]; · iexact Hxb_4
    iframe HI0_4 HIy_4 Hr0_4 Hry_4 ∗
  iintro ⟨Hxbr_4, Hcs0_4, HO⟩
  sl_exec_parts
  iapply (send_x m (K (c, famIx 2 3)) (K (xn c, famIx 3 3)) c _ (dev11_eq c) 3 fxn3 _ (sum_val m c 512 1024 _ _ _ _ _ (fun _ _ => rfl) (fun _ _ => rfl)) (Oy c 5 + Ox c 3) (Oy c 5 + Ox c 4) (owe_x c 5 3) _) $$ [Hsm_3 Hxn_3 HO Ht2_3 Htx_3]
  · isplitl [HO]; · iexact HO
    isplitl [Hsm_3]; · iexact Hsm_3
    iframe HI2_3 HIx_3 Hr2_3 Hrx_3 ∗
  iintro ⟨Hsmr_3, Hcs2_3, HO⟩
  sl_exec_parts
  iapply (send_y m (K (c, famIx 0 5)) (K (yn c, famIx 1 5)) c _ (dev12_eq c) 5 fyn5 _ (narrow_val m c 512 2048 1 _ _ _ (outOff_eq c 5) _ _ _ _ _ _) (Oy c 5 + Ox c 4) (Oy c 6 + Ox c 4) (owe_y c 5 4) _) $$ [Hxb_5 Hyn_5 HO Ht0_5 Hty_5]
  · isplitl [HO]; · iexact HO
    isplitl [Hxb_5]; · iexact Hxb_5
    iframe HI0_5 HIy_5 Hr0_5 Hry_5 ∗
  iintro ⟨Hxbr_5, Hcs0_5, HO⟩
  sl_exec_parts
  iapply (send_x m (K (c, famIx 2 4)) (K (xn c, famIx 3 4)) c _ (dev13_eq c) 4 fxn4 _ (sum_val m c 512 1536 _ _ _ _ _ (fun _ _ => rfl) (fun _ _ => rfl)) (Oy c 6 + Ox c 4) (Oy c 6 + Ox c 5) (owe_x c 6 4) _) $$ [Hsm_4 Hxn_4 HO Ht2_4 Htx_4]
  · isplitl [HO]; · iexact HO
    isplitl [Hsm_4]; · iexact Hsm_4
    iframe HI2_4 HIx_4 Hr2_4 Hrx_4 ∗
  iintro ⟨Hsmr_4, Hcs2_4, HO⟩
  sl_exec_parts
  iapply (send_y m (K (c, famIx 0 6)) (K (yn c, famIx 1 6)) c _ (dev14_eq c) 6 fyn6 _ (narrow_val m c 512 2560 0 _ _ _ (outOff_eq c 6) _ _ _ _ _ _) (Oy c 6 + Ox c 5) (Oy c 7 + Ox c 5) (owe_y c 6 5) _) $$ [Hxb_6 Hyn_6 HO Ht0_6 Hty_6]
  · isplitl [HO]; · iexact HO
    isplitl [Hxb_6]; · iexact Hxb_6
    iframe HI0_6 HIy_6 Hr0_6 Hry_6 ∗
  iintro ⟨Hxbr_6, Hcs0_6, HO⟩
  sl_exec_parts
  iapply (send_x m (K (c, famIx 2 5)) (K (xn c, famIx 3 5)) c _ (dev15_eq c) 5 fxn5 _ (sum_val m c 512 2048 _ _ _ _ _ (fun _ _ => rfl) (fun _ _ => rfl)) (Oy c 7 + Ox c 5) (Oy c 7 + Ox c 6) (owe_x c 7 5) _) $$ [Hsm_5 Hxn_5 HO Ht2_5 Htx_5]
  · isplitl [HO]; · iexact HO
    isplitl [Hsm_5]; · iexact Hsm_5
    iframe HI2_5 HIx_5 Hr2_5 Hrx_5 ∗
  iintro ⟨Hsmr_5, Hcs2_5, HO⟩
  sl_exec_parts
  iapply (send_y m (K (c, famIx 0 7)) (K (yn c, famIx 1 7)) c _ (dev16_eq c) 7 fyn7 _ (narrow_val m c 512 3072 1 _ _ _ (outOff_eq c 7) _ _ _ _ _ _) (Oy c 7 + Ox c 6) (Oy c 8 + Ox c 6) (owe_y c 7 6) _) $$ [Hxb_7 Hyn_7 HO Ht0_7 Hty_7]
  · isplitl [HO]; · iexact HO
    isplitl [Hxb_7]; · iexact Hxb_7
    iframe HI0_7 HIy_7 Hr0_7 Hry_7 ∗
  iintro ⟨Hxbr_7, Hcs0_7, HO⟩
  sl_exec_parts
  iapply (send_x m (K (c, famIx 2 6)) (K (xn c, famIx 3 6)) c _ (dev17_eq c) 6 fxn6 _ (sum_val m c 512 2560 _ _ _ _ _ (fun _ _ => rfl) (fun _ _ => rfl)) (Oy c 8 + Ox c 6) (Oy c 8 + Ox c 7) (owe_x c 8 6) _) $$ [Hsm_6 Hxn_6 HO Ht2_6 Htx_6]
  · isplitl [HO]; · iexact HO
    isplitl [Hsm_6]; · iexact Hsm_6
    iframe HI2_6 HIx_6 Hr2_6 Hrx_6 ∗
  iintro ⟨Hsmr_6, Hcs2_6, HO⟩
  sl_exec_parts
  iapply (send_y m (K (c, famIx 0 8)) (K (yn c, famIx 1 8)) c _ (dev18_eq c) 8 fyn8 _ (narrow_val m c 512 3584 0 _ _ _ (outOff_eq c 8) _ _ _ _ _ _) (Oy c 8 + Ox c 7) (Oy c 9 + Ox c 7) (owe_y c 8 7) _) $$ [Hxb_8 Hyn_8 HO Ht0_8 Hty_8]
  · isplitl [HO]; · iexact HO
    isplitl [Hxb_8]; · iexact Hxb_8
    iframe HI0_8 HIy_8 Hr0_8 Hry_8 ∗
  iintro ⟨Hxbr_8, Hcs0_8, HO⟩
  sl_exec_parts
  iapply (send_x m (K (c, famIx 2 7)) (K (xn c, famIx 3 7)) c _ (dev19_eq c) 7 fxn7 _ (sum_val m c 512 3072 _ _ _ _ _ (fun _ _ => rfl) (fun _ _ => rfl)) (Oy c 9 + Ox c 7) (Oy c 9 + Ox c 8) (owe_x c 9 7) _) $$ [Hsm_7 Hxn_7 HO Ht2_7 Htx_7]
  · isplitl [HO]; · iexact HO
    isplitl [Hsm_7]; · iexact Hsm_7
    iframe HI2_7 HIx_7 Hr2_7 Hrx_7 ∗
  iintro ⟨Hsmr_7, Hcs2_7, HO⟩
  sl_exec_parts
  iapply (send_y m (K (c, famIx 0 9)) (K (yn c, famIx 1 9)) c _ (dev20_eq c) 9 fyn9 _ (narrow_val m c 512 4096 1 _ _ _ (outOff_eq c 9) _ _ _ _ _ _) (Oy c 9 + Ox c 8) (Oy c 10 + Ox c 8) (owe_y c 9 8) _) $$ [Hxb_9 Hyn_9 HO Ht0_9 Hty_9]
  · isplitl [HO]; · iexact HO
    isplitl [Hxb_9]; · iexact Hxb_9
    iframe HI0_9 HIy_9 Hr0_9 Hry_9 ∗
  iintro ⟨Hxbr_9, Hcs0_9, HO⟩
  sl_exec_parts
  iapply (send_x m (K (c, famIx 2 8)) (K (xn c, famIx 3 8)) c _ (dev21_eq c) 8 fxn8 _ (sum_val m c 512 3584 _ _ _ _ _ (fun _ _ => rfl) (fun _ _ => rfl)) (Oy c 10 + Ox c 8) (Oy c 10 + Ox c 9) (owe_x c 10 8) _) $$ [Hsm_8 Hxn_8 HO Ht2_8 Htx_8]
  · isplitl [HO]; · iexact HO
    isplitl [Hsm_8]; · iexact Hsm_8
    iframe HI2_8 HIx_8 Hr2_8 Hrx_8 ∗
  iintro ⟨Hsmr_8, Hcs2_8, HO⟩
  sl_exec_parts
  iapply (send_y m (K (c, famIx 0 10)) (K (yn c, famIx 1 10)) c _ (dev22_eq c) 10 fyn10 _ (narrow_val m c 512 4608 0 _ _ _ (outOff_eq c 10) _ _ _ _ _ _) (Oy c 10 + Ox c 9) (Oy c 11 + Ox c 9) (owe_y c 10 9) _) $$ [Hxb_10 Hyn_10 HO Ht0_10 Hty_10]
  · isplitl [HO]; · iexact HO
    isplitl [Hxb_10]; · iexact Hxb_10
    iframe HI0_10 HIy_10 Hr0_10 Hry_10 ∗
  iintro ⟨Hxbr_10, Hcs0_10, HO⟩
  sl_exec_parts
  iapply (send_x m (K (c, famIx 2 9)) (K (xn c, famIx 3 9)) c _ (dev23_eq c) 9 fxn9 _ (sum_val m c 512 4096 _ _ _ _ _ (fun _ _ => rfl) (fun _ _ => rfl)) (Oy c 11 + Ox c 9) (Oy c 11 + Ox c 10) (owe_x c 11 9) _) $$ [Hsm_9 Hxn_9 HO Ht2_9 Htx_9]
  · isplitl [HO]; · iexact HO
    isplitl [Hsm_9]; · iexact Hsm_9
    iframe HI2_9 HIx_9 Hr2_9 Hrx_9 ∗
  iintro ⟨Hsmr_9, Hcs2_9, HO⟩
  sl_exec_parts
  iapply (send_y m (K (c, famIx 0 11)) (K (yn c, famIx 1 11)) c _ (dev24_eq c) 11 fyn11 _ (narrow_val m c 512 5120 1 _ _ _ (outOff_eq c 11) _ _ _ _ _ _) (Oy c 11 + Ox c 10) (Oy c 12 + Ox c 10) (owe_y c 11 10) _) $$ [Hxb_11 Hyn_11 HO Ht0_11 Hty_11]
  · isplitl [HO]; · iexact HO
    isplitl [Hxb_11]; · iexact Hxb_11
    iframe HI0_11 HIy_11 Hr0_11 Hry_11 ∗
  iintro ⟨Hxbr_11, Hcs0_11, HO⟩
  sl_exec_parts
  iapply (send_x m (K (c, famIx 2 10)) (K (xn c, famIx 3 10)) c _ (dev25_eq c) 10 fxn10 _ (sum_val m c 512 4608 _ _ _ _ _ (fun _ _ => rfl) (fun _ _ => rfl)) (Oy c 12 + Ox c 10) (Oy c 12 + Ox c 11) (owe_x c 12 10) _) $$ [Hsm_10 Hxn_10 HO Ht2_10 Htx_10]
  · isplitl [HO]; · iexact HO
    isplitl [Hsm_10]; · iexact Hsm_10
    iframe HI2_10 HIx_10 Hr2_10 Hrx_10 ∗
  iintro ⟨Hsmr_10, Hcs2_10, HO⟩
  sl_exec_parts
  iapply (send_y m (K (c, famIx 0 12)) (K (yn c, famIx 1 12)) c _ (dev26_eq c) 12 fyn12 _ (narrow_val m c 512 5632 0 _ _ _ (outOff_eq c 12) _ _ _ _ _ _) (Oy c 12 + Ox c 11) (Oy c 13 + Ox c 11) (owe_y c 12 11) _) $$ [Hxb_12 Hyn_12 HO Ht0_12 Hty_12]
  · isplitl [HO]; · iexact HO
    isplitl [Hxb_12]; · iexact Hxb_12
    iframe HI0_12 HIy_12 Hr0_12 Hry_12 ∗
  iintro ⟨Hxbr_12, Hcs0_12, HO⟩
  sl_exec_parts
  iapply (send_x m (K (c, famIx 2 11)) (K (xn c, famIx 3 11)) c _ (dev27_eq c) 11 fxn11 _ (sum_val m c 512 5120 _ _ _ _ _ (fun _ _ => rfl) (fun _ _ => rfl)) (Oy c 13 + Ox c 11) (Oy c 13 + Ox c 12) (owe_x c 13 11) _) $$ [Hsm_11 Hxn_11 HO Ht2_11 Htx_11]
  · isplitl [HO]; · iexact HO
    isplitl [Hsm_11]; · iexact Hsm_11
    iframe HI2_11 HIx_11 Hr2_11 Hrx_11 ∗
  iintro ⟨Hsmr_11, Hcs2_11, HO⟩
  sl_exec_parts
  iapply (send_y m (K (c, famIx 0 13)) (K (yn c, famIx 1 13)) c _ (dev28_eq c) 13 fyn13 _ (narrow_val m c 512 6144 1 _ _ _ (outOff_eq c 13) _ _ _ _ _ _) (Oy c 13 + Ox c 12) (Oy c 14 + Ox c 12) (owe_y c 13 12) _) $$ [Hxb_13 Hyn_13 HO Ht0_13 Hty_13]
  · isplitl [HO]; · iexact HO
    isplitl [Hxb_13]; · iexact Hxb_13
    iframe HI0_13 HIy_13 Hr0_13 Hry_13 ∗
  iintro ⟨Hxbr_13, Hcs0_13, HO⟩
  sl_exec_parts
  iapply (send_x m (K (c, famIx 2 12)) (K (xn c, famIx 3 12)) c _ (dev29_eq c) 12 fxn12 _ (sum_val m c 512 5632 _ _ _ _ _ (fun _ _ => rfl) (fun _ _ => rfl)) (Oy c 14 + Ox c 12) (Oy c 14 + Ox c 13) (owe_x c 14 12) _) $$ [Hsm_12 Hxn_12 HO Ht2_12 Htx_12]
  · isplitl [HO]; · iexact HO
    isplitl [Hsm_12]; · iexact Hsm_12
    iframe HI2_12 HIx_12 Hr2_12 Hrx_12 ∗
  iintro ⟨Hsmr_12, Hcs2_12, HO⟩
  sl_exec_parts
  iapply (send_y m (K (c, famIx 0 14)) (K (yn c, famIx 1 14)) c _ (dev30_eq c) 14 fyn14 _ (narrow_val m c 512 6656 0 _ _ _ (outOff_eq c 14) _ _ _ _ _ _) (Oy c 14 + Ox c 13) (Oy c 15 + Ox c 13) (owe_y c 14 13) _) $$ [Hxb_14 Hyn_14 HO Ht0_14 Hty_14]
  · isplitl [HO]; · iexact HO
    isplitl [Hxb_14]; · iexact Hxb_14
    iframe HI0_14 HIy_14 Hr0_14 Hry_14 ∗
  iintro ⟨Hxbr_14, Hcs0_14, HO⟩
  sl_exec_parts
  iapply (send_x m (K (c, famIx 2 13)) (K (xn c, famIx 3 13)) c _ (dev31_eq c) 13 fxn13 _ (sum_val m c 512 6144 _ _ _ _ _ (fun _ _ => rfl) (fun _ _ => rfl)) (Oy c 15 + Ox c 13) (Oy c 15 + Ox c 14) (owe_x c 15 13) _) $$ [Hsm_13 Hxn_13 HO Ht2_13 Htx_13]
  · isplitl [HO]; · iexact HO
    isplitl [Hsm_13]; · iexact Hsm_13
    iframe HI2_13 HIx_13 Hr2_13 Hrx_13 ∗
  iintro ⟨Hsmr_13, Hcs2_13, HO⟩
  ihave Hj := (slot_split_0_384 c _) $$ Hf30
  icases Hj with ⟨Hf30, Hf30r⟩
  sl_exec_parts
  iapply (send_y m (K (c, famIx 0 15)) (K (yn c, famIx 1 15)) c _ (dev32_eq c) 15 fyn15 _ (narrow_val m c 512 7168 1 _ _ _ (outOff_eq c 15) _ _ _ _ _ _) (Oy c 15 + Ox c 14) (Oy c 16 + Ox c 14) (owe_y c 15 14) _) $$ [Hxb_15 Hyn_15 HO Ht0_15 Hty_15]
  · isplitl [HO]; · iexact HO
    isplitl [Hxb_15]; · iexact Hxb_15
    iframe HI0_15 HIy_15 Hr0_15 Hry_15 ∗
  iintro ⟨Hxbr_15, Hcs0_15, HO⟩
  sl_exec_parts
  iapply (send_x m (K (c, famIx 2 14)) (K (xn c, famIx 3 14)) c _ (dev33_eq c) 14 fxn14 _ (sum_val m c 512 6656 _ _ _ _ _ (fun _ _ => rfl) (fun _ _ => rfl)) (Oy c 16 + Ox c 14) (Oy c 16 + Ox c 15) (owe_x c 16 14) _) $$ [Hsm_14 Hxn_14 HO Ht2_14 Htx_14]
  · isplitl [HO]; · iexact HO
    isplitl [Hsm_14]; · iexact Hsm_14
    iframe HI2_14 HIx_14 Hr2_14 Hrx_14 ∗
  iintro ⟨Hsmr_14, Hcs2_14, HO⟩
  ihave Hj := (slot_split_1_128 c _) $$ Hf31
  icases Hj with ⟨Hf31, Hf31r⟩
  sl_exec_parts
  iapply (send_y m (K (c, famIx 0 16)) (K (yn c, famIx 1 16)) c _ (dev34_eq c) 16 fyn16 _ (narrow_val m c 384 7680 0 _ _ _ (outOff_eq c 16) _ _ _ _ _ _) (Oy c 16 + Ox c 15) (Oy c 17 + Ox c 15) (owe_y c 16 15) _) $$ [Hxb_16 Hyn_16 HO Ht0_16 Hty_16]
  · isplitl [HO]; · iexact HO
    isplitl [Hxb_16]; · iexact Hxb_16
    iframe HI0_16 HIy_16 Hr0_16 Hry_16 ∗
  iintro ⟨Hxbr_16, Hcs0_16, HO⟩
  sl_exec_parts
  iapply (send_x m (K (c, famIx 2 15)) (K (xn c, famIx 3 15)) c _ (dev35_eq c) 15 fxn15 _ (sum_val m c 512 7168 _ _ _ _ _ (fun _ _ => rfl) (fun _ _ => rfl)) (Oy c 17 + Ox c 15) (Oy c 17 + Ox c 16) (owe_x c 17 15) _) $$ [Hsm_15 Hxn_15 HO Ht2_15 Htx_15]
  · isplitl [HO]; · iexact HO
    isplitl [Hsm_15]; · iexact Hsm_15
    iframe HI2_15 HIx_15 Hr2_15 Hrx_15 ∗
  iintro ⟨Hsmr_15, Hcs2_15, HO⟩
  sl_exec_parts
  iapply (send_y m (K (c, famIx 0 17)) (K (yn c, famIx 1 17)) c _ (dev36_eq c) 17 fyn17 _ (narrow_val m c 128 8064 1 _ _ _ (outOff_eq c 17) _ _ _ _ _ _) (Oy c 17 + Ox c 16) (Oy c 18 + Ox c 16) (owe_y c 17 16) _) $$ [Hxb_17 Hyn_17 HO Ht0_17 Hty_17]
  · isplitl [HO]; · iexact HO
    isplitl [Hxb_17]; · iexact Hxb_17
    iframe HI0_17 HIy_17 Hr0_17 Hry_17 ∗
  iintro ⟨Hxbr_17, Hcs0_17, HO⟩
  sl_exec_parts
  iapply (send_x m (K (c, famIx 2 16)) (K (xn c, famIx 3 16)) c _ (dev37_eq c) 16 fxn16 _ (sum_val m c 384 7680 _ _ _ _ _ (fun _ _ => rfl) (fun _ _ => rfl)) (Oy c 18 + Ox c 16) (Oy c 18 + Ox c 17) (owe_x c 18 16) _) $$ [Hsm_16 Hxn_16 HO Ht2_16 Htx_16]
  · isplitl [HO]; · iexact HO
    isplitl [Hsm_16]; · iexact Hsm_16
    iframe HI2_16 HIx_16 Hr2_16 Hrx_16 ∗
  iintro ⟨Hsmr_16, Hcs2_16, HO⟩
  sl_exec_parts
  iapply (send_x m (K (c, famIx 2 17)) (K (xn c, famIx 3 17)) c _ (dev38_eq c) 17 fxn17 _ (sum_val m c 128 8064 _ _ _ _ _ (fun _ _ => rfl) (fun _ _ => rfl)) (Oy c 18 + Ox c 17) (Oy c 18 + Ox c 18) (owe_x c 18 17) _) $$ [Hsm_17 Hxn_17 HO Ht2_17 Htx_17]
  · isplitl [HO]; · iexact HO
    isplitl [Hsm_17]; · iexact Hsm_17
    iframe HI2_17 HIx_17 Hr2_17 Hrx_17 ∗
  iintro ⟨Hsmr_17, Hcs2_17, HO⟩
  sl_exec_parts
  ihave HO := (owes_end c _) $$ HO
  sl_exec_parts
  sl_step
  unfold bodyPost sep18 sep20 w0_384 w0_512 w1_128 w1_512
  beta_reduce
  isplitl [HO]; · iexists _; iexact HO
  isplitl [Hf30 Hf30r Hf31 Hf31r]
  · isplitl [Hf30]; · iexists _; iexact Hf30
    isplitl [Hf30r]; · iexists _; iexact Hf30r
    isplitl [Hf31]; · iexists _; iexact Hf31
    iexists _; iexact Hf31r
  ihave Hob_0 := (restate_ob m c 0 fullShare _ (land_o_w m c 0 _ (SUMv m c) (fun _ _ => rfl) _ rfl)) $$ [Hob_0]
  · iexact Hob_0
  ihave Hob_1 := (restate_ob m c 1 fullShare _ (land_o_w m c 1 _ (SUMv m c) (fun _ _ => rfl) _ rfl)) $$ [Hob_1]
  · iexact Hob_1
  ihave Hob_2 := (restate_ob m c 2 fullShare _ (land_o_w m c 2 _ (SUMv m c) (fun _ _ => rfl) _ rfl)) $$ [Hob_2]
  · iexact Hob_2
  ihave Hob_3 := (restate_ob m c 3 fullShare _ (land_o_w m c 3 _ (SUMv m c) (fun _ _ => rfl) _ rfl)) $$ [Hob_3]
  · iexact Hob_3
  ihave Hob_4 := (restate_ob m c 4 fullShare _ (land_o_w m c 4 _ (SUMv m c) (fun _ _ => rfl) _ rfl)) $$ [Hob_4]
  · iexact Hob_4
  ihave Hob_5 := (restate_ob m c 5 fullShare _ (land_o_w m c 5 _ (SUMv m c) (fun _ _ => rfl) _ rfl)) $$ [Hob_5]
  · iexact Hob_5
  ihave Hob_6 := (restate_ob m c 6 fullShare _ (land_o_w m c 6 _ (SUMv m c) (fun _ _ => rfl) _ rfl)) $$ [Hob_6]
  · iexact Hob_6
  ihave Hob_7 := (restate_ob m c 7 fullShare _ (land_o_w m c 7 _ (SUMv m c) (fun _ _ => rfl) _ rfl)) $$ [Hob_7]
  · iexact Hob_7
  ihave Hob_8 := (restate_ob m c 8 fullShare _ (land_o_w m c 8 _ (SUMv m c) (fun _ _ => rfl) _ rfl)) $$ [Hob_8]
  · iexact Hob_8
  ihave Hob_9 := (restate_ob m c 9 fullShare _ (land_o_w m c 9 _ (SUMv m c) (fun _ _ => rfl) _ rfl)) $$ [Hob_9]
  · iexact Hob_9
  ihave Hob_10 := (restate_ob m c 10 fullShare _ (land_o_w m c 10 _ (SUMv m c) (fun _ _ => rfl) _ rfl)) $$ [Hob_10]
  · iexact Hob_10
  ihave Hob_11 := (restate_ob m c 11 fullShare _ (land_o_w m c 11 _ (SUMv m c) (fun _ _ => rfl) _ rfl)) $$ [Hob_11]
  · iexact Hob_11
  ihave Hob_12 := (restate_ob m c 12 fullShare _ (land_o_w m c 12 _ (SUMv m c) (fun _ _ => rfl) _ rfl)) $$ [Hob_12]
  · iexact Hob_12
  ihave Hob_13 := (restate_ob m c 13 fullShare _ (land_o_w m c 13 _ (SUMv m c) (fun _ _ => rfl) _ rfl)) $$ [Hob_13]
  · iexact Hob_13
  ihave Hob_14 := (restate_ob m c 14 fullShare _ (land_o_w m c 14 _ (SUMv m c) (fun _ _ => rfl) _ rfl)) $$ [Hob_14]
  · iexact Hob_14
  ihave Hob_15 := (restate_ob m c 15 fullShare _ (land_o_w m c 15 _ (SUMv m c) (fun _ _ => rfl) _ rfl)) $$ [Hob_15]
  · iexact Hob_15
  ihave Hob_16 := (restate_ob m c 16 fullShare _ (land_o_w m c 16 _ (SUMv m c) (fun _ _ => rfl) _ rfl)) $$ [Hob_16]
  · iexact Hob_16
  ihave Hob_17 := (restate_ob m c 17 fullShare _ (land_o_w m c 17 _ (SUMv m c) (fun _ _ => rfl) _ rfl)) $$ [Hob_17]
  · iexact Hob_17
  iframe
  isplitl [Hsmr_0 Hsmr_1 Hsmr_2 Hsmr_3 Hsmr_4 Hsmr_5 Hsmr_6 Hsmr_7 Hsmr_8 Hsmr_9 Hsmr_10 Hsmr_11 Hsmr_12 Hsmr_13 Hsmr_14 Hsmr_15 Hsmr_16 Hsmr_17]
  · isplitl [Hsmr_0]; · iexact Hsmr_0
    isplitl [Hsmr_1]; · iexact Hsmr_1
    isplitl [Hsmr_2]; · iexact Hsmr_2
    isplitl [Hsmr_3]; · iexact Hsmr_3
    isplitl [Hsmr_4]; · iexact Hsmr_4
    isplitl [Hsmr_5]; · iexact Hsmr_5
    isplitl [Hsmr_6]; · iexact Hsmr_6
    isplitl [Hsmr_7]; · iexact Hsmr_7
    isplitl [Hsmr_8]; · iexact Hsmr_8
    isplitl [Hsmr_9]; · iexact Hsmr_9
    isplitl [Hsmr_10]; · iexact Hsmr_10
    isplitl [Hsmr_11]; · iexact Hsmr_11
    isplitl [Hsmr_12]; · iexact Hsmr_12
    isplitl [Hsmr_13]; · iexact Hsmr_13
    isplitl [Hsmr_14]; · iexact Hsmr_14
    isplitl [Hsmr_15]; · iexact Hsmr_15
    isplitl [Hsmr_16]; · iexact Hsmr_16
    iexact Hsmr_17
  isplitl [Hs_0]; · iexact Hs_0
  isplitl [Hs_1]; · iexact Hs_1
  isplitl [Hs_2]; · iexact Hs_2
  isplitl [Hs_3]; · iexact Hs_3
  isplitl [Hs_4]; · iexact Hs_4
  isplitl [Hs_5]; · iexact Hs_5
  isplitl [Hs_6]; · iexact Hs_6
  isplitl [Hs_7]; · iexact Hs_7
  isplitl [Hs_8]; · iexact Hs_8
  isplitl [Hs_9]; · iexact Hs_9
  isplitl [Hs_10]; · iexact Hs_10
  isplitl [Hs_11]; · iexact Hs_11
  isplitl [Hs_12]; · iexact Hs_12
  isplitl [Hs_13]; · iexact Hs_13
  isplitl [Hs_14]; · iexact Hs_14
  isplitl [Hs_15]; · iexact Hs_15
  isplitl [Hs_16]; · iexact Hs_16
  isplitl [Hs_17]; · iexact Hs_17
  isplitl [Hs_18]; · iexact Hs_18
  iexact Hs_19

end Cert.KernelIdeal.AR

end
-- ==== Proof.Carve.lean ====
import proofs.«900140_g7700000000000141_dist_ar_v7x_xy2x2_y_m16384_n1024_bf16_1_alg».proof.Proof.Tables

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem chunk_apart : ∀ k k' : Fin 18, k ≠ k' → off k + sz k ≤ off k' ∨ off k' + sz k' ≤ off k := by decide

theorem chunk_next : ∀ k : Fin 18, off k + sz k = if h : k.val + 1 < 18 then off ⟨k.val + 1, h⟩ else 8192 := by decide

theorem chunk_cover (r : ℕ) (h : r < 8192) : ∃ k : Fin 18, off k ≤ r ∧ r < off k + sz k := by
  by_contra hne
  have H : ∀ k : Fin 18, off k ≤ r → off k + sz k ≤ r := fun k hk => by
    by_contra hlt; exact hne ⟨k, hk, by omega⟩
  have step : ∀ n : ℕ, ∀ hn : n < 18, off ⟨n, hn⟩ ≤ r := by
    intro n
    induction n with
    | zero => intro hn; exact Nat.zero_le r
    | succ n ih =>
      intro hn
      have h1 := H ⟨n, by omega⟩ (ih (by omega))
      rw [chunk_next, dif_pos (by exact hn)] at h1
      exact h1
  have h17 := H 17 (step 17 (by omega))
  rw [chunk_next] at h17
  simp at h17
  omega

theorem mem_rectH (k : Fin 18) (i : S8192x1024.Idx) :
    i ∈ (rectH k).set ↔ off k ≤ (i 0 : ℕ) ∧ (i 0 : ℕ) < off k + sz k := by
  rw [Rect.mem_set_unit]
  constructor
  · intro h; exact h 0
  · intro h a
    fin_cases a
    · exact h
    · exact ⟨Nat.zero_le _, by have := (i 1).isLt; simpa using this⟩

theorem rectH_disj (k k' : Fin 18) (h : k ≠ k') : Disjoint (rectH k).set (rectH k').set :=
  Rect.unit_disjoint 0 (chunk_apart k k' h)

theorem rectH_cover : (Finset.univ : Finset S8192x1024.Idx) = Finset.univ.biUnion fun k : Fin 18 => (rectH k).set := by
  ext i
  simp only [Finset.mem_univ, Finset.mem_biUnion, true_and, true_iff]
  obtain ⟨k, hk⟩ := chunk_cover (i 0) (i 0).isLt
  exact ⟨k, (mem_rectH k i).mpr hk⟩

theorem carve_xb (c : Dev nD) (q : PosShare TreeShare) (f : Buf (Elt F) ((c : Thread nD τ).loc cc0_scratch0)) :
    ((((c : Thread nD τ).loc cc0_scratch0) ↦{q} f : sProp 𝕄))
      ⊣⊢ bigSep Finset.univ fun k : Fin 18 => ((xbM k).view.loc (c : Thread nD τ) ↦[(xbM k).view.set]{q} f : sProp 𝕄) := by
  have e : ∀ k : Fin 18, (xbM k).view.set = (rectH k).set := fun k => View.set_slice_whole _ _
  show ((c : Thread nD τ).loc cc0_scratch0 ↦[Finset.univ]{q} f : sProp 𝕄) ⊣⊢ bigSep Finset.univ fun k : Fin 18 => ((c : Thread nD τ).loc cc0_scratch0 ↦[(xbM k).view.set]{q} f : sProp 𝕄)
  simp only [e]
  rw [rectH_cover, pointsTo_biUnion _ _ (fun k _ k' _ h => rectH_disj k k' h)]
theorem carve_yr (c : Dev nD) (q : PosShare TreeShare) (f : Buf (Elt F) ((c : Thread nD τ).loc cc0_scratch1)) :
    ((((c : Thread nD τ).loc cc0_scratch1) ↦{q} f : sProp 𝕄))
      ⊣⊢ bigSep Finset.univ fun k : Fin 18 => ((yrM k).view.loc (c : Thread nD τ) ↦[(yrM k).view.set]{q} f : sProp 𝕄) := by
  have e : ∀ k : Fin 18, (yrM k).view.set = (rectH k).set := fun k => View.set_slice_whole _ _
  show ((c : Thread nD τ).loc cc0_scratch1 ↦[Finset.univ]{q} f : sProp 𝕄) ⊣⊢ bigSep Finset.univ fun k : Fin 18 => ((c : Thread nD τ).loc cc0_scratch1 ↦[(yrM k).view.set]{q} f : sProp 𝕄)
  simp only [e]
  rw [rectH_cover, pointsTo_biUnion _ _ (fun k _ k' _ h => rectH_disj k k' h)]
theorem carve_sm (c : Dev nD) (q : PosShare TreeShare) (f : Buf (Elt F) ((c : Thread nD τ).loc cc0_scratch2)) :
    ((((c : Thread nD τ).loc cc0_scratch2) ↦{q} f : sProp 𝕄))
      ⊣⊢ bigSep Finset.univ fun k : Fin 18 => ((smM k).view.loc (c : Thread nD τ) ↦[(smM k).view.set]{q} f : sProp 𝕄) := by
  have e : ∀ k : Fin 18, (smM k).view.set = (rectH k).set := fun k => View.set_slice_whole _ _
  show ((c : Thread nD τ).loc cc0_scratch2 ↦[Finset.univ]{q} f : sProp 𝕄) ⊣⊢ bigSep Finset.univ fun k : Fin 18 => ((c : Thread nD τ).loc cc0_scratch2 ↦[(smM k).view.set]{q} f : sProp 𝕄)
  simp only [e]
  rw [rectH_cover, pointsTo_biUnion _ _ (fun k _ k' _ h => rectH_disj k k' h)]

abbrev rectO (c : Dev nD) (k : Fin 18) : Rect S16384x1024 := Rect.unit (s := S16384x1024) (outOff c k) (SK k).size (outInb c k)

theorem mem_rectO (c : Dev nD) (k : Fin 18) (i : S16384x1024.Idx) :
    i ∈ (rectO c k).set ↔ base c + off k ≤ (i 0 : ℕ) ∧ (i 0 : ℕ) < base c + off k + sz k := by
  rw [Rect.mem_set_unit, outOff_eq]
  constructor
  · intro h; exact h 0
  · intro h a
    fin_cases a
    · exact h
    · exact ⟨Nat.zero_le _, by have := (i 1).isLt; simpa using this⟩

theorem rectO_disj (c : Dev nD) (k k' : Fin 18) (h : k ≠ k') : Disjoint (rectO c k).set (rectO c k').set := by
  rw [Finset.disjoint_left]
  intro i h₁ h₂
  rw [mem_rectO] at h₁ h₂
  have := chunk_apart k k' h
  omega

theorem mem_half (c : Dev nD) (i : S16384x1024.Idx) :
    i ∈ (Finset.univ.biUnion fun k : Fin 18 => (rectO c k).set) ↔ base c ≤ (i 0 : ℕ) ∧ (i 0 : ℕ) < base c + 8192 := by
  simp only [Finset.mem_biUnion, Finset.mem_univ, true_and, mem_rectO]
  constructor
  · rintro ⟨k, h₁, h₂⟩
    have := off_sz k
    omega
  · rintro ⟨h₁, h₂⟩
    obtain ⟨k, hk₁, hk₂⟩ := chunk_cover ((i 0 : ℕ) - base c) (by omega)
    exact ⟨k, by omega, by omega⟩

theorem half_le (c : Dev nD) : c.val / 2 ≤ 1 := by revert c; decide

theorem halves_disj (c : Dev nD) :
    Disjoint (Finset.univ.biUnion fun k : Fin 18 => (rectO c k).set) (Finset.univ.biUnion fun k : Fin 18 => (rectO (xn c) k).set) := by
  rw [Finset.disjoint_left]
  intro i h₁ h₂
  rw [mem_half] at h₁ h₂
  rw [base_xn] at h₂
  have := half_le c
  unfold base at h₁
  unfold obase at h₂
  omega

theorem halves_cover (c : Dev nD) :
    (Finset.univ : Finset S16384x1024.Idx)
      = (Finset.univ.biUnion fun k : Fin 18 => (rectO c k).set) ∪ (Finset.univ.biUnion fun k : Fin 18 => (rectO (xn c) k).set) := by
  ext i
  rw [Finset.mem_union, mem_half, mem_half, base_xn]
  have := half_le c
  have hi : (i 0 : ℕ) < 16384 := (i 0).isLt
  unfold base obase
  simp only [Finset.mem_univ, true_iff]
  omega

theorem carve_out (c d : Dev nD) (f : Buf (Elt F) ((d : Thread nD τ).loc main_v1)) :
    ((((d : Thread nD τ).loc main_v1) ↦{fullShare} f : sProp 𝕄))
      ⊣⊢ iprop((bigSep Finset.univ fun k : Fin 18 => ((outM c k).view.loc (d : Thread nD τ) ↦[(outM c k).view.set]{fullShare} f : sProp 𝕄))
          ∗ (bigSep Finset.univ fun k : Fin 18 => ((outM (xn c) k).view.loc (d : Thread nD τ) ↦[(outM (xn c) k).view.set]{fullShare} f : sProp 𝕄))) := by
  have e : ∀ (c : Dev nD) (k : Fin 18), (outM c k).view.set = (rectO c k).set := fun c k => View.set_slice_whole _ _
  show ((d : Thread nD τ).loc main_v1 ↦[Finset.univ]{fullShare} f : sProp 𝕄)
    ⊣⊢ iprop((bigSep Finset.univ fun k : Fin 18 => ((d : Thread nD τ).loc main_v1 ↦[(outM c k).view.set]{fullShare} f : sProp 𝕄))
        ∗ (bigSep Finset.univ fun k : Fin 18 => ((d : Thread nD τ).loc main_v1 ↦[(outM (xn c) k).view.set]{fullShare} f : sProp 𝕄)))
  simp only [e]
  rw [← pointsTo_biUnion _ _ (fun k _ k' _ h => rectO_disj c k k' h),
    ← pointsTo_biUnion _ _ (fun k _ k' _ h => rectO_disj (xn c) k k' h), halves_cover c]
  exact pointsTo_union (halves_disj c)

theorem setOn_whole {κ : Kind} (b : Ref sig κ) (M : Finset b.ty.shape.Idx) :
    (View.whole b : View sig κ _ _ _).setOn M = M := Finset.map_refl

theorem mem_slot0 (i : S2x512x1024.Idx) :
    i ∈ (Rect.unit (s := S2x512x1024) ![0, 0, 0] S1x512x1024.size inb_S2x512x1024_S1x512x1024_0_0_0).toLoadRect.set ↔ (i 0 : ℕ) = 0 := by
  rw [Rect.mem_set_unit]
  constructor
  · intro h; have h0 : (0 : ℕ) ≤ (i 0 : ℕ) ∧ (i 0 : ℕ) < 0 + 1 := h 0; omega
  · intro h a
    fin_cases a
    · show (0 : ℕ) ≤ (i 0 : ℕ) ∧ (i 0 : ℕ) < 0 + 1; omega
    · have h1 : (i 1 : ℕ) < 512 := (i 1).isLt
      show (0 : ℕ) ≤ (i 1 : ℕ) ∧ (i 1 : ℕ) < 0 + 512; omega
    · have h2 : (i 2 : ℕ) < 1024 := (i 2).isLt
      show (0 : ℕ) ≤ (i 2 : ℕ) ∧ (i 2 : ℕ) < 0 + 1024; omega

theorem mem_slot1 (i : S2x512x1024.Idx) :
    i ∈ (Rect.unit (s := S2x512x1024) ![1, 0, 0] S1x512x1024.size inb_S2x512x1024_S1x512x1024_1_0_0).toLoadRect.set ↔ (i 0 : ℕ) = 1 := by
  rw [Rect.mem_set_unit]
  constructor
  · intro h; have h0 : (1 : ℕ) ≤ (i 0 : ℕ) ∧ (i 0 : ℕ) < 1 + 1 := h 0; omega
  · intro h a
    fin_cases a
    · show (1 : ℕ) ≤ (i 0 : ℕ) ∧ (i 0 : ℕ) < 1 + 1; omega
    · have h1 : (i 1 : ℕ) < 512 := (i 1).isLt
      show (0 : ℕ) ≤ (i 1 : ℕ) ∧ (i 1 : ℕ) < 0 + 512; omega
    · have h2 : (i 2 : ℕ) < 1024 := (i 2).isLt
      show (0 : ℕ) ≤ (i 2 : ℕ) ∧ (i 2 : ℕ) < 0 + 1024; omega

theorem slots_disj :
    Disjoint (Rect.unit (s := S2x512x1024) ![0, 0, 0] S1x512x1024.size inb_S2x512x1024_S1x512x1024_0_0_0).toLoadRect.set
      (Rect.unit (s := S2x512x1024) ![1, 0, 0] S1x512x1024.size inb_S2x512x1024_S1x512x1024_1_0_0).toLoadRect.set := by
  rw [Finset.disjoint_left]
  intro i h₁ h₂
  rw [mem_slot0] at h₁
  rw [mem_slot1] at h₂
  omega

theorem slots_cover :
    (Finset.univ : Finset S2x512x1024.Idx)
      = (Rect.unit (s := S2x512x1024) ![0, 0, 0] S1x512x1024.size inb_S2x512x1024_S1x512x1024_0_0_0).toLoadRect.set
        ∪ (Rect.unit (s := S2x512x1024) ![1, 0, 0] S1x512x1024.size inb_S2x512x1024_S1x512x1024_1_0_0).toLoadRect.set := by
  ext i
  rw [Finset.mem_union, mem_slot0, mem_slot1]
  have hi : (i 0 : ℕ) < 2 := (i 0).isLt
  simp only [Finset.mem_univ, true_iff]
  omega

theorem carve_f32 (c : Dev nD) (f : Buf (Elt F) ((c : Thread nD τ).loc cc0_scratch3)) :
    ((((c : Thread nD τ).loc cc0_scratch3) ↦{fullShare} f : sProp 𝕄))
      ⊣⊢ iprop(((Memref.whole cc0_scratch3 : Memref sig .tc .vmem S2x512x1024 .f32).view.loc (c : Thread nD τ) ↦[(Memref.whole cc0_scratch3 : Memref sig .tc .vmem S2x512x1024 .f32).view.setOn (Rect.unit (s := S2x512x1024) ![0, 0, 0] S1x512x1024.size inb_S2x512x1024_S1x512x1024_0_0_0).toLoadRect.set]{fullShare} f)
          ∗ ((Memref.whole cc0_scratch3 : Memref sig .tc .vmem S2x512x1024 .f32).view.loc (c : Thread nD τ) ↦[(Memref.whole cc0_scratch3 : Memref sig .tc .vmem S2x512x1024 .f32).view.setOn (Rect.unit (s := S2x512x1024) ![1, 0, 0] S1x512x1024.size inb_S2x512x1024_S1x512x1024_1_0_0).toLoadRect.set]{fullShare} f)) := by
  show ((c : Thread nD τ).loc cc0_scratch3 ↦[Finset.univ]{fullShare} f : sProp 𝕄)
    ⊣⊢ iprop(((c : Thread nD τ).loc cc0_scratch3 ↦[(View.whole cc0_scratch3 : View sig .tc _ _ _).setOn (Rect.unit (s := S2x512x1024) ![0, 0, 0] S1x512x1024.size inb_S2x512x1024_S1x512x1024_0_0_0).toLoadRect.set]{fullShare} f)
        ∗ ((c : Thread nD τ).loc cc0_scratch3 ↦[(View.whole cc0_scratch3 : View sig .tc _ _ _).setOn (Rect.unit (s := S2x512x1024) ![1, 0, 0] S1x512x1024.size inb_S2x512x1024_S1x512x1024_1_0_0).toLoadRect.set]{fullShare} f))
  rw [setOn_whole, setOn_whole, slots_cover]
  exact pointsTo_union slots_disj

end Cert.KernelIdeal.AR

end
-- ==== Proof.Body.lean ====
import proofs.«900140_g7700000000000141_dist_ar_v7x_xy2x2_y_m16384_n1024_bf16_1_alg».proof.Proof.Run
import proofs.«900140_g7700000000000141_dist_ar_v7x_xy2x2_y_m16384_n1024_bf16_1_alg».proof.Proof.Carve

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def e73 : Unit ⊕ (Fin 4 × Fin 18) ≃ Fin 73 where
  toFun := Sum.elim (fun _ => 0) (fun ak => famIx ak.1 ak.2)
  invFun j := if h : j.val = 0 then .inl () else
    .inr (⟨(j.val - 1) / 18, by have := j.isLt; omega⟩, ⟨(j.val - 1) % 18, Nat.mod_lt _ (by decide)⟩)
  left_inv := by
    rintro (u | ⟨a, k⟩)
    · rfl
    · revert a k; decide
  right_inv := by intro j; revert j; decide

def e92 : (Fin 4 × Fin 18) ⊕ Fin 20 ≃ Fin 92 where
  toFun := Sum.elim (fun ak => (dsem ak.1 ak.2 : Fin 92)) (fun j => (lsem j : Fin 92))
  invFun i := if h : i.val < 72 then .inl (⟨i.val / 18, by omega⟩, ⟨i.val % 18, Nat.mod_lt _ (by decide)⟩) else
    .inr ⟨i.val - 72, by have := i.isLt; omega⟩
  left_inv := by
    rintro (⟨a, k⟩ | j)
    · revert a k; decide
    · revert j; decide
  right_inv := by intro i; revert i; decide

theorem bigSep_bool' (Φ : Bool → sProp 𝕄) : bigSep Finset.univ Φ = iprop(Φ false ∗ Φ true) := by
  rw [show (Finset.univ : Finset Bool) = {false, true} from by decide, bigSep_insert (by decide), bigSep_singleton]; rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_fin73 (Φ : Fin 73 → sProp 𝕄) :
    bigSep Finset.univ Φ = iprop(Φ 0 ∗ bigSep Finset.univ fun ak : Fin 4 × Fin 18 => Φ (famIx ak.1 ak.2)) := by
  rw [bigSep_univ_equiv e73 Φ, bigSep_univ_sum, bigSep_univ_of_subsingleton ()]; rfl

theorem bigSep_fin92 (Φ : Fin 92 → sProp 𝕄) :
    bigSep Finset.univ Φ = iprop((bigSep Finset.univ fun ak : Fin 4 × Fin 18 => Φ (dsem ak.1 ak.2)) ∗ bigSep Finset.univ fun j : Fin 20 => Φ (lsem j)) := by
  rw [bigSep_univ_equiv e92 Φ, bigSep_univ_sum]; rfl

theorem bigSep_cells (c : Dev nD) (Φ : GSem nD τ sig → sProp 𝕄) :
    (bigSep Finset.univ fun j : Fin 73 => Φ (kcell (c, j)))
      = iprop(Φ (barCell c) ∗ bigSep Finset.univ fun ak : Fin 4 × Fin 18 => Φ (dcell c ak.1 ak.2)) := by
  rw [bigSep_fin73, bigSep_congr (s := Finset.univ) (fun (ak : Fin 4 × Fin 18) _ =>
    show Φ (kcell (c, famIx ak.1 ak.2)) = Φ (dcell c ak.1 ak.2) from by rw [kcell_famIx])]
  rfl

theorem bigSep_fam4 (Φ : Fin 4 → Fin 18 → sProp 𝕄) :
    (bigSep Finset.univ fun ak : Fin 4 × Fin 18 => Φ ak.1 ak.2)
      = iprop((bigSep Finset.univ fun k => Φ 0 k) ∗ (bigSep Finset.univ fun k => Φ 1 k) ∗ (bigSep Finset.univ fun k => Φ 2 k) ∗ (bigSep Finset.univ fun k => Φ 3 k)) := by
  rw [bigSep_univ_prod, bigSep_fin4]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem inv_at (K : Dev nD × Fin 73 → ℕ) (cj : Dev nD × Fin 73) :
    (bigSep Finset.univ fun cj : Dev nD × Fin 73 => (cellInv ER (Rd m) (K cj) (kcell cj) : sProp 𝕄)) ⊢ cellInv ER (Rd m) (K cj) (kcell cj) :=
  bigSep_elim (Finset.mem_univ cj)
theorem reached_at (cj : Dev nD × Fin 73) :
    (bigSep Finset.univ fun cj : Dev nD × Fin 73 => (reached ER (kcell cj) 0 : sProp 𝕄)) ⊢ reached ER (kcell cj) 0 :=
  bigSep_elim (Finset.mem_univ cj)

theorem rec_inv (K : Dev nD × Fin 73 → ℕ) (cj : Dev nD × Fin 73) : records m K ⊢ cellInv ER (Rd m) (K cj) (kcell cj) := by
  unfold records
  iintro ⟨#HI, -⟩
  iapply (inv_at m K cj); iexact HI
theorem rec_reached (K : Dev nD × Fin 73 → ℕ) (cj : Dev nD × Fin 73) : records m K ⊢ reached ER (kcell cj) 0 := by
  unfold records
  iintro ⟨-, #HR⟩
  iapply (reached_at (F := F) cj); iexact HR

theorem rec_inv_bar (K : Dev nD × Fin 73 → ℕ) (d : Dev nD) : records m K ⊢ cellInv ER (Rd m) (K (d, 0)) (barCell d) := rec_inv m K (d, 0)
theorem rec_reached_bar (K : Dev nD × Fin 73 → ℕ) (d : Dev nD) : records m K ⊢ reached ER (barCell d) 0 := rec_reached m K (d, 0)
theorem rec_inv_fam (K : Dev nD × Fin 73 → ℕ) (d : Dev nD) (a : Fin 4) :
    records m K ⊢ bigSep Finset.univ fun k : Fin 18 => cellInv ER (Rd m) (K (d, famIx a k)) (dcell d a k) :=
  bigSep_intro_persistent fun k _ => by rw [← kcell_famIx d a k]; exact rec_inv m K (d, famIx a k)
theorem rec_reached_fam (K : Dev nD × Fin 73 → ℕ) (d : Dev nD) (a : Fin 4) :
    records m K ⊢ bigSep Finset.univ fun k : Fin 18 => reached ER (dcell d a k) 0 :=
  bigSep_intro_persistent fun k _ => by rw [← kcell_famIx d a k]; exact rec_reached m K (d, famIx a k)

theorem open_inv (c : Dev nD) (K : Dev nD × Fin 73 → ℕ) : records m K ⊢ iprop(cellInv ER (Rd m) (K (c, 0)) (barCell c) ∗ cellInv ER (Rd m) (K (yn c, 0)) (barCell (yn c)) ∗ cellInv ER (Rd m) (K (xn c, 0)) (barCell (xn c))
        ∗ (bigSep Finset.univ fun k : Fin 18 => cellInv ER (Rd m) (K (c, famIx 0 k)) (dcell c 0 k)) ∗ (bigSep Finset.univ fun k : Fin 18 => cellInv ER (Rd m) (K (c, famIx 1 k)) (dcell c 1 k)) ∗ (bigSep Finset.univ fun k : Fin 18 => cellInv ER (Rd m) (K (c, famIx 2 k)) (dcell c 2 k)) ∗ (bigSep Finset.univ fun k : Fin 18 => cellInv ER (Rd m) (K (c, famIx 3 k)) (dcell c 3 k))
        ∗ (bigSep Finset.univ fun k : Fin 18 => cellInv ER (Rd m) (K (yn c, famIx 1 k)) (dcell (yn c) 1 k)) ∗ (bigSep Finset.univ fun k : Fin 18 => cellInv ER (Rd m) (K (xn c, famIx 3 k)) (dcell (xn c) 3 k))) := by
  iintro #HR
  isplitr; · iapply (rec_inv_bar m K c); iexact HR
  isplitr; · iapply (rec_inv_bar m K (yn c)); iexact HR
  isplitr; · iapply (rec_inv_bar m K (xn c)); iexact HR
  isplitr; · iapply (rec_inv_fam m K c 0); iexact HR
  isplitr; · iapply (rec_inv_fam m K c 1); iexact HR
  isplitr; · iapply (rec_inv_fam m K c 2); iexact HR
  isplitr; · iapply (rec_inv_fam m K c 3); iexact HR
  isplitr; · iapply (rec_inv_fam m K (yn c) 1); iexact HR
  iapply (rec_inv_fam m K (xn c) 3); iexact HR

theorem open_reached (c : Dev nD) (K : Dev nD × Fin 73 → ℕ) : records m K ⊢ iprop(reached ER (barCell (yn c)) 0 ∗ reached ER (barCell (xn c)) 0 ∗ (bigSep Finset.univ fun k : Fin 18 => reached ER (dcell (yn c) 1 k) 0) ∗ (bigSep Finset.univ fun k : Fin 18 => reached ER (dcell (xn c) 3 k) 0) ∗ (bigSep Finset.univ fun k : Fin 18 => reached ER (dcell c 0 k) 0) ∗ (bigSep Finset.univ fun k : Fin 18 => reached ER (dcell c 2 k) 0)) := by
  iintro #HR
  isplitr; · iapply (rec_reached_bar m K (yn c)); iexact HR
  isplitr; · iapply (rec_reached_bar m K (xn c)); iexact HR
  isplitr; · iapply (rec_reached_fam m K (yn c) 1); iexact HR
  isplitr; · iapply (rec_reached_fam m K (xn c) 3); iexact HR
  isplitr; · iapply (rec_reached_fam m K c 0); iexact HR
  iapply (rec_reached_fam m K c 2); iexact HR

theorem open_at (c : Dev nD) :
    (bigSep Finset.univ fun j : Fin 73 => (atPos ER (kcell (c, j)) 0 ∅ 0 : sProp 𝕄)) ⊢ iprop(atPos ER (barCell c) 0 ∅ 0 ∗ (bigSep Finset.univ fun k : Fin 18 => atPos ER (dcell c 0 k) 0 ∅ 0) ∗ (bigSep Finset.univ fun k : Fin 18 => atPos ER (dcell c 1 k) 0 ∅ 0) ∗ (bigSep Finset.univ fun k : Fin 18 => atPos ER (dcell c 2 k) 0 ∅ 0) ∗ (bigSep Finset.univ fun k : Fin 18 => atPos ER (dcell c 3 k) 0 ∅ 0)) := by
  rw [bigSep_cells c (fun g => atPos ER g 0 ∅ 0), bigSep_fam4 (fun a k => atPos ER (dcell c a k) 0 ∅ 0)]

theorem f3_set (r : Rect S2x512x1024) (h : ∀ a, r.stride a = 1) :
    ((Memref.whole cc0_scratch3 : Memref sig .tc .vmem S2x512x1024 .f32).slice r h).view.set = (Memref.whole cc0_scratch3 : Memref sig .tc .vmem S2x512x1024 .f32).view.setOn r.toLoadRect.set :=
  (View.set_slice_whole _ _).trans (setOn_whole _ _).symm

theorem f3_split (c : Dev nD) (f : Buf (Elt F) ((c : Thread nD τ).loc cc0_scratch3)) (r₁ r₂ : Rect S2x512x1024)
    (h₁ : ∀ a, r₁.stride a = 1) (h₂ : ∀ a, r₂.stride a = 1)
    (hsub : (Memref.whole cc0_scratch3 : Memref sig .tc .vmem S2x512x1024 .f32).view.setOn r₁.toLoadRect.set ⊆ (Memref.whole cc0_scratch3 : Memref sig .tc .vmem S2x512x1024 .f32).view.setOn r₂.toLoadRect.set) :
    ((Memref.whole cc0_scratch3 : Memref sig .tc .vmem S2x512x1024 .f32).view.loc (c : Thread nD τ) ↦[(Memref.whole cc0_scratch3 : Memref sig .tc .vmem S2x512x1024 .f32).view.setOn r₂.toLoadRect.set]{fullShare} f : sProp 𝕄)
      ⊣⊢ iprop((((Memref.whole cc0_scratch3 : Memref sig .tc .vmem S2x512x1024 .f32).slice r₁ h₁).view.loc (c : Thread nD τ) ↦[((Memref.whole cc0_scratch3 : Memref sig .tc .vmem S2x512x1024 .f32).slice r₁ h₁).view.set]{fullShare} f)
          ∗ (((Memref.whole cc0_scratch3 : Memref sig .tc .vmem S2x512x1024 .f32).slice r₂ h₂).view.loc (c : Thread nD τ) ↦[((Memref.whole cc0_scratch3 : Memref sig .tc .vmem S2x512x1024 .f32).slice r₂ h₂).view.set \ ((Memref.whole cc0_scratch3 : Memref sig .tc .vmem S2x512x1024 .f32).slice r₁ h₁).view.set]{fullShare} f)) := by
  show ((c : Thread nD τ).loc cc0_scratch3 ↦[(Memref.whole cc0_scratch3 : Memref sig .tc .vmem S2x512x1024 .f32).view.setOn r₂.toLoadRect.set]{fullShare} f : sProp 𝕄)
    ⊣⊢ iprop(((c : Thread nD τ).loc cc0_scratch3 ↦[((Memref.whole cc0_scratch3 : Memref sig .tc .vmem S2x512x1024 .f32).slice r₁ h₁).view.set]{fullShare} f)
        ∗ ((c : Thread nD τ).loc cc0_scratch3 ↦[((Memref.whole cc0_scratch3 : Memref sig .tc .vmem S2x512x1024 .f32).slice r₂ h₂).view.set \ ((Memref.whole cc0_scratch3 : Memref sig .tc .vmem S2x512x1024 .f32).slice r₁ h₁).view.set]{fullShare} f))
  rw [f3_set r₁ h₁, f3_set r₂ h₂]
  exact pointsTo_split_subset hsub

theorem open_f32 (c : Dev nD) (f3 : Buf (Elt F) ((c : Thread nD τ).loc cc0_scratch3)) :
    ((((c : Thread nD τ).loc cc0_scratch3) ↦{fullShare} f3 : sProp 𝕄)) ⊢ iprop((w0_128.view.loc (c : Thread nD τ) ↦[w0_128.view.set]{fullShare} f3)
        ∗ (w0_512.view.loc (c : Thread nD τ) ↦[w0_512.view.set \ w0_128.view.set]{fullShare} f3)
        ∗ (w1_384.view.loc (c : Thread nD τ) ↦[w1_384.view.set]{fullShare} f3)
        ∗ (w1_512.view.loc (c : Thread nD τ) ↦[w1_512.view.set \ w1_384.view.set]{fullShare} f3)) := by
  iintro H
  ihave H := (carve_f32 c f3).1 $$ H
  icases H with ⟨S0, S1⟩
  ihave A := (f3_split c f3 (Rect.unit (s := S2x512x1024) ![0, 0, 0] S1x128x1024.size inb_S2x512x1024_S1x128x1024_0_0_0) (Rect.unit (s := S2x512x1024) ![0, 0, 0] S1x512x1024.size inb_S2x512x1024_S1x512x1024_0_0_0) (fun _ => rfl) (fun _ => rfl) incl_0_128).1 $$ S0
  icases A with ⟨A1, A2⟩
  ihave B := (f3_split c f3 (Rect.unit (s := S2x512x1024) ![1, 0, 0] S1x384x1024.size inb_S2x512x1024_S1x384x1024_1_0_0) (Rect.unit (s := S2x512x1024) ![1, 0, 0] S1x512x1024.size inb_S2x512x1024_S1x512x1024_1_0_0) (fun _ => rfl) (fun _ => rfl) incl_1_384).1 $$ S1
  icases B with ⟨B1, B2⟩
  isplitl [A1]; · iexact A1
  isplitl [A2]; · iexact A2
  isplitl [B1]; · iexact B1
  iexact B2

theorem close_cell (K : Dev nD × Fin 73 → ℕ) (c : Dev nD) (a : Fin 4) (k : Fin 18) :
    iprop(records m K ∗ atPos ER (dcell c a k) 1 ∅ 0) ⊢ (|={Set.univ}=> semVal (dcell c a k) 0 : sProp 𝕄) := by
  iintro ⟨#HR, Hat⟩
  ihave HI := (rec_inv m K (c, famIx a k)) $$ HR
  rw [kcell_famIx]
  iapply (Rounds.cell_close ER (Rd m) (Set.mem_univ (K (c, famIx a k))) (fun h => h) (R := 1) (duties_later m (dcell c a k)))
  isplitl [HI]; · iexact HI
  iexact Hat

theorem close_fam (K : Dev nD × Fin 73 → ℕ) (c : Dev nD) (a : Fin 4) :
    iprop(records m K ∗ bigSep Finset.univ fun k : Fin 18 => atPos ER (dcell c a k) 1 ∅ 0)
      ⊢ (|={Set.univ}=> bigSep Finset.univ fun k : Fin 18 => semVal (dcell c a k) 0 : sProp 𝕄) :=
  (bigSep_with_persistent (R := records m K) (fun k _ => close_cell m K c a k)).trans (bigSep_fupd _ _)

theorem sems_join (c : Dev nD) :
    iprop((bigSep Finset.univ fun k : Fin 18 => semVal (dcell c 0 k) 0) ∗ (bigSep Finset.univ fun k : Fin 18 => semVal (dcell c 1 k) 0)
        ∗ (bigSep Finset.univ fun k : Fin 18 => semVal (dcell c 2 k) 0) ∗ (bigSep Finset.univ fun k : Fin 18 => semVal (dcell c 3 k) 0) ∗ bigSep Finset.univ fun j : Fin 20 => semVal (lcell c j) 0)
      ⊢ (bigSep Finset.univ fun i : Fin 92 => semVal (((c : Thread nD τ), osem i) : GSem nD τ sig) 0 : sProp 𝕄) := by
  rw [bigSep_fin92, bigSep_fam4 (fun a k => semVal (((c : Thread nD τ), osem (dsem a k)) : GSem nD τ sig) 0)]
  iintro ⟨H0, H1, H2, H3, HL⟩
  isplitr [HL]
  · isplitl [H0]; · iexact H0
    isplitl [H1]; · iexact H1
    isplitl [H2]; · iexact H2
    iexact H3
  · iexact HL

/-- Eighteen chunks, each as two halves at the same contents, are their eighteen wholes. -/
theorem of_halves (c : Dev nD) (M : (k : Fin 18) → Memref sig .tc .vmem (SK k) .bf16)
    (v : (k : Fin 18) → Buf (Elt F) ((M k).view.loc (c : Thread nD τ))) :
    (bigSep Finset.univ fun k : Fin 18 => iprop(((M k).view.loc (c : Thread nD τ) ↦[(M k).view.set]{fullShare.left} v k)
        ∗ ((M k).view.loc (c : Thread nD τ) ↦[(M k).view.set]{fullShare.right} v k)) : sProp 𝕄)
      ⊢ bigSep Finset.univ fun k : Fin 18 => ((M k).view.loc (c : Thread nD τ) ↦[(M k).view.set]{fullShare} v k : sProp 𝕄) :=
  bigSep_mono fun k _ => (pointsTo_share (PosShare.mem_left_op_right fullShare)).2

theorem f3_join (c : Dev nD) (r₁ r₂ : Rect S2x512x1024) (h₁ : ∀ a, r₁.stride a = 1) (h₂ : ∀ a, r₂.stride a = 1)
    (hsub : (Memref.whole cc0_scratch3 : Memref sig .tc .vmem S2x512x1024 .f32).view.setOn r₁.toLoadRect.set ⊆ (Memref.whole cc0_scratch3 : Memref sig .tc .vmem S2x512x1024 .f32).view.setOn r₂.toLoadRect.set) :
    iprop((∃ f, ((Memref.whole cc0_scratch3 : Memref sig .tc .vmem S2x512x1024 .f32).slice r₁ h₁).view.loc (c : Thread nD τ) ↦[((Memref.whole cc0_scratch3 : Memref sig .tc .vmem S2x512x1024 .f32).slice r₁ h₁).view.set]{fullShare} f)
        ∗ (∃ f, ((Memref.whole cc0_scratch3 : Memref sig .tc .vmem S2x512x1024 .f32).slice r₂ h₂).view.loc (c : Thread nD τ) ↦[((Memref.whole cc0_scratch3 : Memref sig .tc .vmem S2x512x1024 .f32).slice r₂ h₂).view.set \ ((Memref.whole cc0_scratch3 : Memref sig .tc .vmem S2x512x1024 .f32).slice r₁ h₁).view.set]{fullShare} f))
      ⊢ (iprop(∃ f, (Memref.whole cc0_scratch3 : Memref sig .tc .vmem S2x512x1024 .f32).view.loc (c : Thread nD τ) ↦[(Memref.whole cc0_scratch3 : Memref sig .tc .vmem S2x512x1024 .f32).view.setOn r₂.toLoadRect.set]{fullShare} f) : sProp 𝕄) := by
  show iprop((∃ f, (c : Thread nD τ).loc cc0_scratch3 ↦[((Memref.whole cc0_scratch3 : Memref sig .tc .vmem S2x512x1024 .f32).slice r₁ h₁).view.set]{fullShare} f)
        ∗ (∃ f, (c : Thread nD τ).loc cc0_scratch3 ↦[((Memref.whole cc0_scratch3 : Memref sig .tc .vmem S2x512x1024 .f32).slice r₂ h₂).view.set \ ((Memref.whole cc0_scratch3 : Memref sig .tc .vmem S2x512x1024 .f32).slice r₁ h₁).view.set]{fullShare} f))
      ⊢ (iprop(∃ f, (c : Thread nD τ).loc cc0_scratch3 ↦[(Memref.whole cc0_scratch3 : Memref sig .tc .vmem S2x512x1024 .f32).view.setOn r₂.toLoadRect.set]{fullShare} f) : sProp 𝕄)
  rw [f3_set r₁ h₁, f3_set r₂ h₂]
  iintro ⟨⟨%g, H1⟩, ⟨%f, H2⟩⟩
  iexists _
  iapply (pointsTo_join_subset hsub)
  isplitl [H1]; · iexact H1
  iexact H2

theorem f3_slots_join (c : Dev nD) (fa fb : Buf (Elt F) ((c : Thread nD τ).loc cc0_scratch3)) :
    iprop(((Memref.whole cc0_scratch3 : Memref sig .tc .vmem S2x512x1024 .f32).view.loc (c : Thread nD τ) ↦[(Memref.whole cc0_scratch3 : Memref sig .tc .vmem S2x512x1024 .f32).view.setOn (Rect.unit (s := S2x512x1024) ![0, 0, 0] S1x512x1024.size inb_S2x512x1024_S1x512x1024_0_0_0).toLoadRect.set]{fullShare} fa)
        ∗ ((Memref.whole cc0_scratch3 : Memref sig .tc .vmem S2x512x1024 .f32).view.loc (c : Thread nD τ) ↦[(Memref.whole cc0_scratch3 : Memref sig .tc .vmem S2x512x1024 .f32).view.setOn (Rect.unit (s := S2x512x1024) ![1, 0, 0] S1x512x1024.size inb_S2x512x1024_S1x512x1024_1_0_0).toLoadRect.set]{fullShare} fb))
      ⊢ (iprop(∃ f : Buf (Elt F) ((c : Thread nD τ).loc cc0_scratch3), ((c : Thread nD τ).loc cc0_scratch3) ↦{fullShare} f) : sProp 𝕄) := by
  show iprop(((c : Thread nD τ).loc cc0_scratch3 ↦[(View.whole cc0_scratch3 : View sig .tc _ _ _).setOn (Rect.unit (s := S2x512x1024) ![0, 0, 0] S1x512x1024.size inb_S2x512x1024_S1x512x1024_0_0_0).toLoadRect.set]{fullShare} fa)
        ∗ ((c : Thread nD τ).loc cc0_scratch3 ↦[(View.whole cc0_scratch3 : View sig .tc _ _ _).setOn (Rect.unit (s := S2x512x1024) ![1, 0, 0] S1x512x1024.size inb_S2x512x1024_S1x512x1024_1_0_0).toLoadRect.set]{fullShare} fb))
      ⊢ (iprop(∃ f : Buf (Elt F) ((c : Thread nD τ).loc cc0_scratch3), (c : Thread nD τ).loc cc0_scratch3 ↦[Finset.univ]{fullShare} f) : sProp 𝕄)
  rw [setOn_whole, setOn_whole, slots_cover]
  iintro ⟨A, B⟩
  iexists _
  iapply (pointsTo_join slots_disj)
  isplitl [A]; · iexact A
  iexact B

theorem close_f32 (c : Dev nD) :
    iprop((∃ f, (w0_384.view.loc (c : Thread nD τ) ↦[w0_384.view.set]{fullShare} f))
        ∗ (∃ f, (w0_512.view.loc (c : Thread nD τ) ↦[w0_512.view.set \ w0_384.view.set]{fullShare} f))
        ∗ (∃ f, (w1_128.view.loc (c : Thread nD τ) ↦[w1_128.view.set]{fullShare} f))
        ∗ (∃ f, (w1_512.view.loc (c : Thread nD τ) ↦[w1_512.view.set \ w1_128.view.set]{fullShare} f)))
      ⊢ (iprop(∃ f : Buf (Elt F) ((c : Thread nD τ).loc cc0_scratch3), ((c : Thread nD τ).loc cc0_scratch3) ↦{fullShare} f) : sProp 𝕄) := by
  iintro ⟨A1, A2, B1, B2⟩
  ihave A := (f3_join c (Rect.unit (s := S2x512x1024) ![0, 0, 0] S1x384x1024.size inb_S2x512x1024_S1x384x1024_0_0_0) (Rect.unit (s := S2x512x1024) ![0, 0, 0] S1x512x1024.size inb_S2x512x1024_S1x512x1024_0_0_0) (fun _ => rfl) (fun _ => rfl) incl_0_384) $$ [A1 A2]
  · isplitl [A1]; · iexact A1
    iexact A2
  icases A with ⟨%fa, A⟩
  ihave B := (f3_join c (Rect.unit (s := S2x512x1024) ![1, 0, 0] S1x128x1024.size inb_S2x512x1024_S1x128x1024_1_0_0) (Rect.unit (s := S2x512x1024) ![1, 0, 0] S1x512x1024.size inb_S2x512x1024_S1x512x1024_1_0_0) (fun _ => rfl) (fun _ => rfl) incl_1_128) $$ [B1 B2]
  · isplitl [B1]; · iexact B1
    iexact B2
  icases B with ⟨%fb, B⟩
  iapply (f3_slots_join c fa fb)
  isplitl [A]; · iexact A
  iexact B

theorem body_open (c : Dev nD) (W : Waits sig Unit) :
    iprop(Φ₀ m c ∗ owes (c : Thread nD τ) (O₀ c) W)
      ⊢ iprop(∃ K f3 fxb fsm fyr fo, records m K ∗ bodyPre m c K W f3 fxb fsm fyr fo) := by
  unfold Φ₀ start scratch ghost linear payToks creds lsems0
  iintro ⟨⟨⟨⟨%K, #HR, Hat, Htok⟩, HL, Hcr, Hlev, Ha, Hv⟩, ⟨%f0, H0⟩, ⟨%f1, H1⟩, ⟨%f2, H2⟩, ⟨%f3, H3⟩⟩, Ho⟩
  iexists K
  iexists f3
  iexists f0
  iexists f2
  iexists f1
  iexists (m ((c : Thread nD τ).loc main_v1))
  isplitr; · iexact HR
  unfold bodyPre
  simp only [sep18_eq, sep20_eq]
  isplitr; · iapply (open_inv m c K); iexact HR
  isplitr; · iapply (open_reached m c K); iexact HR
  isplitl [Hlev]; · iexact Hlev
  isplitl [Ho]; · iexact Ho
  isplitl [Htok]; · iexact Htok
  isplitl [Hat]; · iapply (open_at (F := F) c); iexact Hat
  isplitl [Hcr]; · iexact Hcr
  isplitl [HL]; · iexact HL
  isplitl [Ha]; · iexact Ha
  isplitl [H3]; · iapply (open_f32 c f3); iexact H3
  isplitl [H0]; · iapply (carve_xb c fullShare f0).1; iexact H0
  isplitl [H2]; · iapply (carve_sm c fullShare f2).1; iexact H2
  isplitl [H1]; · iapply (carve_yr c fullShare f1).1; iexact H1
  iapply (carve_out c c (m ((c : Thread nD τ).loc main_v1))).1; iexact Hv

theorem body_close (c : Dev nD) (K : Dev nD × Fin 73 → ℕ) :
    iprop(records m K ∗ bodyPost m c)
      ⊢ |={Set.univ}=> iprop(Φ₁ m c ∗ ∃ W' : Waits sig Unit, owes (c : Thread nD τ) 0 W') := by
  unfold bodyPost
  simp only [sep18_eq, sep20_eq]
  iintro ⟨#HR, HO, Hf, Ha, Hxb, Hsm, Hyr, Ho1, Ho2, ⟨A0, A1, A2, A3⟩, HL⟩
  imod (close_fam m K c 0) $$ [A0] with Z0
  · isplitr; · iexact HR
    iexact A0
  imod (close_fam m K c 1) $$ [A1] with Z1
  · isplitr; · iexact HR
    iexact A1
  imod (close_fam m K c 2) $$ [A2] with Z2
  · isplitr; · iexact HR
    iexact A2
  imod (close_fam m K c 3) $$ [A3] with Z3
  · isplitr; · iexact HR
    iexact A3
  imodintro
  unfold Φ₁ scratch
  isplitr [HO]
  · isplitl [Hxb Hyr Hsm Hf]
    · isplitl [Hxb]; · iexists (XB m c); iapply (carve_xb c fullShare (XB m c)).2; iapply (of_halves c xbM fun _ => XB m c); iexact Hxb
      isplitl [Hyr]; · iexists (YR m c); iapply (carve_yr c fullShare (YR m c)).2; iexact Hyr
      isplitl [Hsm]; · iexists (SUMv m c); iapply (carve_sm c fullShare (SUMv m c)).2; iapply (of_halves c smM fun _ => SUMv m c); iexact Hsm
      iapply (close_f32 c); iexact Hf
    isplitl [Z0 Z1 Z2 Z3 HL]
    · iapply (sems_join (F := F) c)
      isplitl [Z0]; · iexact Z0
      isplitl [Z1]; · iexact Z1
      isplitl [Z2]; · iexact Z2
      isplitl [Z3]; · iexact Z3
      iexact HL
    isplitl [Ha]; · iexact Ha
    iapply (carve_out c c (OUT m c)).2
    isplitl [Ho1]; · iexact Ho1
    iexact Ho2
  · iexact HO

theorem body_obligation (c : Dev nD) : BodyObligation (dats (F := F) m 0 c) (defs₀ (F := F)) 𝒱₀ () Set.univ := fun t => by
  rw [Gen.fin_N0 t]
  have hpre : iprop((dats m 0 c).Φ t0_0.castSucc ∗ (dats m 0 c).owesAt () t0_0.castSucc ∗ emp)
      ⊢ iprop(∃ K W f3 fxb fsm fyr fo, records m K ∗ bodyPre m c K W f3 fxb fsm fyr fo) := by
    rw [show (dats m 0 c).Φ t0_0.castSucc = Φ₀ m c from rfl]
    unfold Dat.owesAt Pipeline.owesWithin
    rw [show (dats m 0 c).owed t0_0.castSucc = O₀ c from rfl]
    iintro ⟨HΦ, ⟨%W, -, Ho⟩, -⟩
    ihave H := (body_open m c W) $$ [HΦ Ho]
    · isplitl [HΦ]; · iexact HΦ
      iexact Ho
    icases H with ⟨%K, %f3, %fxb, %fsm, %fyr, %fo, H⟩
    iexists K, W, f3, fxb, fsm, fyr, fo
    iexact H
  have hpost : iprop(Φ₁ m c ∗ ∃ W' : Waits sig Unit, owes (c : Thread nD τ) 0 W')
      ⊢ iprop((dats m 0 c).Φ t0_0.succ ∗ (dats m 0 c).owesAt () t0_0.succ ∗ emp) := by
    rw [show (dats m 0 c).Φ t0_0.succ = Φ₁ m c from rfl]
    unfold Dat.owesAt Pipeline.owesWithin
    rw [show (dats m 0 c).owed t0_0.succ = 0 from rfl]
    iintro ⟨HΦ, ⟨%W', Ho⟩⟩
    isplitl [HΦ]; · iexact HΦ
    isplitl [Ho]
    · iexists W'
      isplitr; · ipureintro; exact fun _ _ => Or.inl trivial
      iexact Ho
    · iempintro
  have hrun (K : Dev nD × Fin 73 → ℕ) (W : Waits sig Unit) (f3 fxb fsm fyr fo) :
      iprop(records m K ∗ bodyPre m c K W f3 fxb fsm fyr fo)
        ⊢ wp frame (wpE (defs₀ (F := F)) 𝒱₀ (c : Thread nD τ) none) Set.univ
            (defs₀ Proc.tc cfg0.body (cfg0.bodyArgs t0_0 (cfg0.slots t0_0)))
            (fun _ => iprop((dats m 0 c).Φ t0_0.succ ∗ (dats m 0 c).owesAt () t0_0.succ ∗ emp)) :=
    ((sep_mono_right (sound_body m c K W f3 fxb fsm fyr fo)).trans (wp_frame_l _ _ _)).trans
      ((wp_mono _ _ _ fun _ => (body_close m c K).trans (BI.fupd_mono hpost)).trans (wp_fupd _ _ _ _ _))
  rw [show (Finset.univ : Finset (Fin cfg0.W)) = ∅ from rfl, bigSep_empty, bigSep_empty]
  refine hpre.trans ?_
  iintro ⟨%K, %W, %f3, %fxb, %fsm, %fyr, %fo, H⟩
  iapply (hrun K W f3 fxb fsm fyr fo)
  iexact H

end Cert.KernelIdeal.AR

end
-- ==== Proof.Launch.lean ====
import proofs.«900140_g7700000000000141_dist_ar_v7x_xy2x2_y_m16384_n1024_bf16_1_alg».proof.Proof.Body

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem :=
  ⟨by decide, fun a b h => SemLoc.dma.inj h, fun k w s => w.elim0⟩

theorem csem_injective : Function.Injective csem := by
  intro j j' h
  unfold csem at h
  by_cases h0 : j.val = 0 <;> by_cases h0' : j'.val = 0
  · exact Fin.ext (h0.trans h0'.symm)
  · rw [dif_pos h0, dif_neg h0'] at h; cases h
  · rw [dif_neg h0, dif_pos h0'] at h; cases h
  · rw [dif_neg h0, dif_neg h0'] at h
    have h1 := congrArg Fin.val (SemLoc.dma.inj h)
    simp only at h1
    exact Fin.ext (by omega)

theorem kcell_injective : Function.Injective (kcell : Dev nD × Fin 73 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

def tokOf (cx : Dev nD × (Bool ⊕ (Fin 4 × Fin 18))) : GSem nD τ sig × ℕ × Bool := match cx.2 with
  | .inl d => (barCell cx.1, 0, d)
  | .inr ak => (dcell cx.1 ak.1 ak.2, 0, false)

theorem tokOf_injective : Function.Injective (tokOf : Dev nD × (Bool ⊕ (Fin 4 × Fin 18)) → GSem nD τ sig × ℕ × Bool) := by
  rintro ⟨c, x⟩ ⟨c', x'⟩ h
  have h1 : c = c' := by
    have := congrArg (fun x : GSem nD τ sig × ℕ × Bool => x.1.1.1) h
    rcases x with d | ak <;> rcases x' with d' | ak' <;> exact this
  subst h1
  rcases x with d | ak <;> rcases x' with d' | ak'
  · have h2 : d = d' := congrArg (fun x : GSem nD τ sig × ℕ × Bool => x.2.2) h
    rw [h2]
  · exact absurd (congrArg (fun x : GSem nD τ sig × ℕ × Bool => x.1.2) h) (fun h' => by cases h')
  · exact absurd (congrArg (fun x : GSem nD τ sig × ℕ × Bool => x.1.2) h) (fun h' => by cases h')
  · have h2 : (SemLoc.dma (dsem ak.1 ak.2) : SemLoc sig) = .dma (dsem ak'.1 ak'.2) := congrArg (fun x : GSem nD τ sig × ℕ × Bool => x.1.2) h
    have h3 := congrArg famOf (SemLoc.dma.inj h2)
    rw [famOf_dsem, famOf_dsem] at h3
    have h4 : ak = ak' := Option.some.inj h3
    rw [h4]

def protoToks : Finset (GSem nD τ sig × ℕ × Bool) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop((dutyTok ER (barCell c) 0 false ∗ dutyTok ER (barCell c) 0 true)
    ∗ (bigSep Finset.univ fun k : Fin 18 => dutyTok ER (dcell c 0 k) 0 false)
    ∗ (bigSep Finset.univ fun k : Fin 18 => dutyTok ER (dcell c 1 k) 0 false)
    ∗ (bigSep Finset.univ fun k : Fin 18 => dutyTok ER (dcell c 2 k) 0 false)
    ∗ (bigSep Finset.univ fun k : Fin 18 => dutyTok ER (dcell c 3 k) 0 false))

def G (c : Dev nD) : sProp 𝕄 :=
  iprop((bigSep Finset.univ fun j : Fin 73 => roundState ER (Rd m) (kcell (c, j)) 0)
    ∗ (bigSep Finset.univ fun j : Fin 73 => iprop(atPos ER (kcell (c, j)) 0 ∅ 0 ∗ reached ER (kcell (c, j)) 0)) ∗ toks (F := F) c)

def G' (c : Dev nD) : sProp 𝕄 := iprop((∃ K, ghost m K c) ∗ lsems0 (F := F) c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun j : Fin 73 => Φ (kcell (c, j)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by rw [bigSep_univ_sum, bigSep_bool', bigSep_univ_prod, bigSep_fin4]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 73 => semVal (kcell (c, j)) 0) ∗ lsems0 c) : sProp 𝕄) := by
  rw [unscopedSems0_eq, bigSep_cells c (fun g => semVal g 0)]
  unfold Pipeline.ownSems0 lsems0
  rw [bigSep_fin92]
  iintro ⟨⟨HP, HL⟩, HB⟩
  isplitr [HL]
  · isplitl [HB]; · iexact HB
    iexact HP
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 73 => iprop(∃ κ : ℕ, cellInv ER (Rd m) κ (kcell (c, j))))
          ∗ (bigSep Finset.univ fun j : Fin 73 => iprop(atPos ER (kcell (c, j)) 0 ∅ 0 ∗ reached ER (kcell (c, j)) 0)) ∗ toks c ∗ lsems0 c) := by
  unfold G
  iintro ⟨Hos, Hus, Hst, Hat, Htok⟩
  ihave Hv := (sems0_split (F := F) c) $$ [Hos Hus]
  · isplitl [Hos] <;> iassumption
  icases Hv with ⟨Hv, HL⟩
  imod (show iprop((bigSep Finset.univ fun j : Fin 73 => semVal (kcell (c, j)) 0) ∗ bigSep Finset.univ fun j : Fin 73 => roundState ER (Rd m) (kcell (c, j)) 0)
      ⊢ (|={Set.univ}=> bigSep Finset.univ fun j : Fin 73 => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

theorem ghost_intro (K : Dev nD × Fin 73 → ℕ) (c : Dev nD) : iprop(records m K ∗ (linear c ∗ lsems0 c)) ⊢ G' m c := by
  unfold G' ghost
  iintro ⟨HR, HL, HS⟩
  isplitr [HS]
  · iexists K
    isplitl [HR]; · iexact HR
    iexact HL
  · iexact HS

theorem toks_around : (bigSep Finset.univ fun c : Dev nD => (toks c : sProp 𝕄)) ⊢ bigSep Finset.univ fun c : Dev nD => payToks c := by
  unfold toks payToks
  simp only [bigSep_sep']
  rw [bigSep_univ_equiv ySwap (fun c : Dev nD => (dutyTok ER (barCell c) 0 false : sProp 𝕄)),
    bigSep_univ_equiv xSwap (fun c : Dev nD => (dutyTok ER (barCell c) 0 true : sProp 𝕄)),
    bigSep_univ_equiv ySwap (fun c : Dev nD => (bigSep Finset.univ fun k : Fin 18 => dutyTok ER (dcell c 1 k) 0 false : sProp 𝕄)),
    bigSep_univ_equiv xSwap (fun c : Dev nD => (bigSep Finset.univ fun k : Fin 18 => dutyTok ER (dcell c 3 k) 0 false : sProp 𝕄))]
  iintro ⟨⟨HBF, HBT⟩, H0, H1, H2, H3⟩
  isplitl [HBF]; · iexact HBF
  isplitl [HBT]; · iexact HBT
  isplitl [H1]; · iexact H1
  isplitl [H3]; · iexact H3
  isplitl [H0]; · iexact H0
  iexact H2

theorem regroup :
    (bigSep Finset.univ fun c : Dev nD => iprop((bigSep Finset.univ fun j : Fin 73 => iprop(∃ κ : ℕ, cellInv ER (Rd m) κ (kcell (c, j))))
          ∗ (bigSep Finset.univ fun j : Fin 73 => iprop(atPos ER (kcell (c, j)) 0 ∅ 0 ∗ reached ER (kcell (c, j)) 0)) ∗ toks c ∗ lsems0 c) : sProp 𝕄)
      ⊢ bigSep Finset.univ (G' m) := by
  rw [bigSep_sep', bigSep_sep', bigSep_sep', ← bigSep_univ_prod (fun cj : Dev nD × Fin 73 => iprop(∃ κ : ℕ, cellInv ER (Rd m) κ (kcell cj))),
    bigSep_congr (s := Finset.univ) (fun (c : Dev nD) _ => bigSep_sep' Finset.univ (fun j : Fin 73 => (atPos ER (kcell (c, j)) 0 ∅ 0 : sProp 𝕄)) (fun j => reached ER (kcell (c, j)) 0)),
    bigSep_sep', ← bigSep_univ_prod (fun cj : Dev nD × Fin 73 => (reached ER (kcell cj) 0 : sProp 𝕄))]
  iintro ⟨HI, ⟨Hat, #HR⟩, Htok, HL⟩
  ihave HK := (BI.bigSep_exists_pi Finset.univ (fun (cj : Dev nD × Fin 73) (κ : ℕ) => (cellInv ER (Rd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [bigSep_sep']
    isplitr [HL]
    · unfold linear; rw [bigSep_sep']
      isplitl [Hat]; · iexact Hat
      iexact Htk
    · iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem creds_intro (c : Dev nD) : (Pipeline.launchCred O₀ c : sProp 𝕄) ⊢ creds c := by
  have e : (O₀ : Dev nD → CellTallies nD τ sig Unit)
      = fun d => ((Oy d 0 + Ox d 0) + tallyAt (barCell (xn d)) () 1) + tallyAt (barCell (yn d)) () 1 := rfl
  have hall : (Finset.univ.filter fun k : Fin 18 => 0 ≤ k.val) = Finset.univ := Finset.filter_true_of_mem fun k _ => Nat.zero_le _
  have hy : (bigSep Finset.univ fun k : Fin 18 => Pipeline.launchCred (fun d => tallyAt (dcell (yn d) 1 k) () (Ny k)) c : sProp 𝕄)
      ⊢ bigSep Finset.univ fun k : Fin 18 => cred (tallyAt (dcell c 1 k) () (Ny k)) :=
    bigSep_mono fun k _ => Pipeline.launchCred_tallyAt (SemLoc.dma (dsem 1 k)) yn yn yn_yn yn_yn () (Ny k) c
  have hx : (bigSep Finset.univ fun k : Fin 18 => Pipeline.launchCred (fun d => tallyAt (dcell (xn d) 3 k) () (Nx k)) c : sProp 𝕄)
      ⊢ bigSep Finset.univ fun k : Fin 18 => cred (tallyAt (dcell c 3 k) () (Nx k)) :=
    bigSep_mono fun k _ => Pipeline.launchCred_tallyAt (SemLoc.dma (dsem 3 k)) xn xn xn_xn xn_xn () (Nx k) c
  rw [e, Pipeline.launchCred_add (fun d => (Oy d 0 + Ox d 0) + tallyAt (barCell (xn d)) () 1) (fun d => tallyAt (barCell (yn d)) () 1) c,
    Pipeline.launchCred_add (fun d => Oy d 0 + Ox d 0) (fun d => tallyAt (barCell (xn d)) () 1) c,
    Pipeline.launchCred_add (fun d => Oy d 0) (fun d => Ox d 0) c]
  unfold Oy Ox
  rw [hall, Pipeline.launchCred_sum Finset.univ (fun (k : Fin 18) d => tallyAt (dcell (yn d) 1 k) () (Ny k)) c,
    Pipeline.launchCred_sum Finset.univ (fun (k : Fin 18) d => tallyAt (dcell (xn d) 3 k) () (Nx k)) c]
  iintro ⟨⟨⟨Hy, Hx⟩, HbX⟩, HbY⟩
  ihave H1 := (Pipeline.launchCred_tallyAt (SemLoc.reg barS) xn xn xn_xn xn_xn () 1 c) $$ HbX
  ihave H2 := (Pipeline.launchCred_tallyAt (SemLoc.reg barS) yn yn yn_yn yn_yn () 1 c) $$ HbY
  ihave H12 := ((cred_add _ _).2.trans (Entails.of_eq (congrArg cred (tallyAt_add (barCell c) () 1 1)))) $$ [H1 H2]
  · isplitl [H1] <;> iassumption
  ihave Hy' := hy $$ Hy
  ihave Hx' := hx $$ Hx
  unfold creds
  isplitl [H12]; · iexact H12
  isplitl [Hy']; · iexact Hy'
  iexact Hx'

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Ha, Hv⟩, Hlev, Hcr, -, ⟨HG, HL⟩⟩
  ihave Hc := (creds_intro (F := F) c) $$ Hcr
  imodintro
  unfold start
  isplitl
  · isplitl [HG]; · iexact HG
    isplitl [HL]; · iexact HL
    isplitl [Hc]; · iexact Hc
    isplitl [Hlev]; · iexact Hlev
    isplitl [Ha]; · iexact Ha
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

def Y (c : Dev nD) : sProp 𝕄 :=
  iprop((((c : Thread nD τ).loc main_arg0) ↦{fullShare} m ((c : Thread nD τ).loc main_arg0))
    ∗ (((c : Thread nD τ).loc main_v1) ↦{fullShare} OUT m c))

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ scratch Y Pipeline.ownSems0
  iintro ⟨Hr, Hz, Ha, Hv⟩
  isplitl [Ha Hv]
  · isplitl [Ha] <;> iassumption
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t => w.elim0

set_option maxRecDepth 8000 in

theorem run_main : θ_run (defs (F := F)) (onTc (τ := τ) (main (F := F))) (s₀ m ρ) (fun r => ∀ c : Dev nD,
    r.2.mem ((c : Thread nD τ).loc main_v1) = OUT m c
    ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HB, -⟩
      imod (show (BI.own (((Emb.inl : Emb UB (UB × Counters)).trans embR) (initOf protoCells protoToks)) : sProp 𝕄) ⊢ _ from fund_proto m) $$ HB with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c : Thread nD τ).loc main_v1) = OUT m c
      ∧ s.mem ((c : Thread nD τ).loc main_arg0) = m ((c : Thread nD τ).loc main_arg0))
    (hY := fun c s' => by
      unfold Y
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

end Cert.KernelIdeal.AR

end
-- ==== Proof.Bits.Mesh.lean ====
import proofs.«900140_g7700000000000141_dist_ar_v7x_xy2x2_y_m16384_n1024_bf16_1_alg».proof.Proof.Gen.Kernel
import proofs.«900140_g7700000000000141_dist_ar_v7x_xy2x2_y_m16384_n1024_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

def yn (c : Dev nD) : Dev nD := ⟨(2 * (c.val / 2) + 1) - (c.val % 2), by have := c.isLt; revert this; generalize c.val = v; decide +revert⟩

def xn (c : Dev nD) : Dev nD := ⟨((c.val % 2) + 2) - 2 * (c.val / 2), by have := c.isLt; revert this; generalize c.val = v; decide +revert⟩

theorem yn_yn (c : Dev nD) : yn (yn c) = c := by revert c; decide
theorem xn_xn (c : Dev nD) : xn (xn c) = c := by revert c; decide
theorem yn_mod (c : Dev nD) : (yn c).val % 2 = 1 - c.val % 2 := by revert c; decide
theorem xn_div (c : Dev nD) : (xn c).val / 2 = 1 - c.val / 2 := by revert c; decide

def ySwap : Dev nD ≃ Dev nD := ⟨yn, yn, yn_yn, yn_yn⟩
def xSwap : Dev nD ≃ Dev nD := ⟨xn, xn, xn_xn, xn_xn⟩

@[sl_canon] theorem dev1_eq (c : Dev nD) : (⟨k0_dev1 c, k0_dev1_lt c⟩ : Dev nD) = yn c := Fin.ext (k0_dev1_eq c)
@[sl_canon] theorem dev3_eq (c : Dev nD) : (⟨k0_dev3 c, k0_dev3_lt c⟩ : Dev nD) = yn c := Fin.ext (k0_dev3_eq c)
@[sl_canon] theorem dev4_eq (c : Dev nD) : (⟨k0_dev4 c, k0_dev4_lt c⟩ : Dev nD) = yn c := Fin.ext (k0_dev4_eq c)
@[sl_canon] theorem dev6_eq (c : Dev nD) : (⟨k0_dev6 c, k0_dev6_lt c⟩ : Dev nD) = yn c := Fin.ext (k0_dev6_eq c)
@[sl_canon] theorem dev8_eq (c : Dev nD) : (⟨k0_dev8 c, k0_dev8_lt c⟩ : Dev nD) = yn c := Fin.ext (k0_dev8_eq c)
@[sl_canon] theorem dev10_eq (c : Dev nD) : (⟨k0_dev10 c, k0_dev10_lt c⟩ : Dev nD) = yn c := Fin.ext (k0_dev10_eq c)
@[sl_canon] theorem dev12_eq (c : Dev nD) : (⟨k0_dev12 c, k0_dev12_lt c⟩ : Dev nD) = yn c := Fin.ext (k0_dev12_eq c)
@[sl_canon] theorem dev14_eq (c : Dev nD) : (⟨k0_dev14 c, k0_dev14_lt c⟩ : Dev nD) = yn c := Fin.ext (k0_dev14_eq c)
@[sl_canon] theorem dev16_eq (c : Dev nD) : (⟨k0_dev16 c, k0_dev16_lt c⟩ : Dev nD) = yn c := Fin.ext (k0_dev16_eq c)
@[sl_canon] theorem dev18_eq (c : Dev nD) : (⟨k0_dev18 c, k0_dev18_lt c⟩ : Dev nD) = yn c := Fin.ext (k0_dev18_eq c)
@[sl_canon] theorem dev20_eq (c : Dev nD) : (⟨k0_dev20 c, k0_dev20_lt c⟩ : Dev nD) = yn c := Fin.ext (k0_dev20_eq c)
@[sl_canon] theorem dev22_eq (c : Dev nD) : (⟨k0_dev22 c, k0_dev22_lt c⟩ : Dev nD) = yn c := Fin.ext (k0_dev22_eq c)
@[sl_canon] theorem dev24_eq (c : Dev nD) : (⟨k0_dev24 c, k0_dev24_lt c⟩ : Dev nD) = yn c := Fin.ext (k0_dev24_eq c)
@[sl_canon] theorem dev26_eq (c : Dev nD) : (⟨k0_dev26 c, k0_dev26_lt c⟩ : Dev nD) = yn c := Fin.ext (k0_dev26_eq c)
@[sl_canon] theorem dev28_eq (c : Dev nD) : (⟨k0_dev28 c, k0_dev28_lt c⟩ : Dev nD) = yn c := Fin.ext (k0_dev28_eq c)
@[sl_canon] theorem dev30_eq (c : Dev nD) : (⟨k0_dev30 c, k0_dev30_lt c⟩ : Dev nD) = yn c := Fin.ext (k0_dev30_eq c)
@[sl_canon] theorem dev32_eq (c : Dev nD) : (⟨k0_dev32 c, k0_dev32_lt c⟩ : Dev nD) = yn c := Fin.ext (k0_dev32_eq c)
@[sl_canon] theorem dev34_eq (c : Dev nD) : (⟨k0_dev34 c, k0_dev34_lt c⟩ : Dev nD) = yn c := Fin.ext (k0_dev34_eq c)
@[sl_canon] theorem dev36_eq (c : Dev nD) : (⟨k0_dev36 c, k0_dev36_lt c⟩ : Dev nD) = yn c := Fin.ext (k0_dev36_eq c)
@[sl_canon] theorem dev2_eq (c : Dev nD) : (⟨k0_dev2 c, k0_dev2_lt c⟩ : Dev nD) = xn c := Fin.ext (k0_dev2_eq c)
@[sl_canon] theorem dev5_eq (c : Dev nD) : (⟨k0_dev5 c, k0_dev5_lt c⟩ : Dev nD) = xn c := Fin.ext (k0_dev5_eq c)
@[sl_canon] theorem dev7_eq (c : Dev nD) : (⟨k0_dev7 c, k0_dev7_lt c⟩ : Dev nD) = xn c := Fin.ext (k0_dev7_eq c)
@[sl_canon] theorem dev9_eq (c : Dev nD) : (⟨k0_dev9 c, k0_dev9_lt c⟩ : Dev nD) = xn c := Fin.ext (k0_dev9_eq c)
@[sl_canon] theorem dev11_eq (c : Dev nD) : (⟨k0_dev11 c, k0_dev11_lt c⟩ : Dev nD) = xn c := Fin.ext (k0_dev11_eq c)
@[sl_canon] theorem dev13_eq (c : Dev nD) : (⟨k0_dev13 c, k0_dev13_lt c⟩ : Dev nD) = xn c := Fin.ext (k0_dev13_eq c)
@[sl_canon] theorem dev15_eq (c : Dev nD) : (⟨k0_dev15 c, k0_dev15_lt c⟩ : Dev nD) = xn c := Fin.ext (k0_dev15_eq c)
@[sl_canon] theorem dev17_eq (c : Dev nD) : (⟨k0_dev17 c, k0_dev17_lt c⟩ : Dev nD) = xn c := Fin.ext (k0_dev17_eq c)
@[sl_canon] theorem dev19_eq (c : Dev nD) : (⟨k0_dev19 c, k0_dev19_lt c⟩ : Dev nD) = xn c := Fin.ext (k0_dev19_eq c)
@[sl_canon] theorem dev21_eq (c : Dev nD) : (⟨k0_dev21 c, k0_dev21_lt c⟩ : Dev nD) = xn c := Fin.ext (k0_dev21_eq c)
@[sl_canon] theorem dev23_eq (c : Dev nD) : (⟨k0_dev23 c, k0_dev23_lt c⟩ : Dev nD) = xn c := Fin.ext (k0_dev23_eq c)
@[sl_canon] theorem dev25_eq (c : Dev nD) : (⟨k0_dev25 c, k0_dev25_lt c⟩ : Dev nD) = xn c := Fin.ext (k0_dev25_eq c)
@[sl_canon] theorem dev27_eq (c : Dev nD) : (⟨k0_dev27 c, k0_dev27_lt c⟩ : Dev nD) = xn c := Fin.ext (k0_dev27_eq c)
@[sl_canon] theorem dev29_eq (c : Dev nD) : (⟨k0_dev29 c, k0_dev29_lt c⟩ : Dev nD) = xn c := Fin.ext (k0_dev29_eq c)
@[sl_canon] theorem dev31_eq (c : Dev nD) : (⟨k0_dev31 c, k0_dev31_lt c⟩ : Dev nD) = xn c := Fin.ext (k0_dev31_eq c)
@[sl_canon] theorem dev33_eq (c : Dev nD) : (⟨k0_dev33 c, k0_dev33_lt c⟩ : Dev nD) = xn c := Fin.ext (k0_dev33_eq c)
@[sl_canon] theorem dev35_eq (c : Dev nD) : (⟨k0_dev35 c, k0_dev35_lt c⟩ : Dev nD) = xn c := Fin.ext (k0_dev35_eq c)
@[sl_canon] theorem dev37_eq (c : Dev nD) : (⟨k0_dev37 c, k0_dev37_lt c⟩ : Dev nD) = xn c := Fin.ext (k0_dev37_eq c)
@[sl_canon] theorem dev38_eq (c : Dev nD) : (⟨k0_dev38 c, k0_dev38_lt c⟩ : Dev nD) = xn c := Fin.ext (k0_dev38_eq c)

def off : Fin 18 → ℕ := ![0, 128, 512, 1024, 1536, 2048, 2560, 3072, 3584, 4096, 4608, 5120, 5632, 6144, 6656, 7168, 7680, 8064]
def sz : Fin 18 → ℕ := ![128, 384, 512, 512, 512, 512, 512, 512, 512, 512, 512, 512, 512, 512, 512, 512, 384, 128]
theorem off_sz (k : Fin 18) : off k + sz k ≤ 8192 := by revert k; decide
def base (c : Dev nD) : ℕ := 8192 * (c.val / 2)
def obase (c : Dev nD) : ℕ := 8192 - 8192 * (c.val / 2)
theorem base_xn (c : Dev nD) : base (xn c) = obase c := by revert c; decide
theorem base_yn (c : Dev nD) : base (yn c) = base c := by revert c; decide

abbrev barS : Sem sig := (SemArray.scalar (sig.barrier 0 rfl) : Sems sig S_).sem
def dsem (a : Fin 4) (k : Fin 18) : DmaSem sig := ⟨18 * a.val + k.val, by have := a.isLt; have := k.isLt; show 18 * a.val + k.val < 92; omega⟩
abbrev barCell (c : Dev nD) : GSem nD τ sig := ((c : Thread nD τ), .reg barS)
abbrev dcell (c : Dev nD) (a : Fin 4) (k : Fin 18) : GSem nD τ sig := ((c : Thread nD τ), .dma (dsem a k))

end Cert.Kernel.AR

end
-- ==== Proof.Bits.Spec.lean ====
import proofs.«900140_g7700000000000141_dist_ar_v7x_xy2x2_y_m16384_n1024_bf16_1_alg».proof.Proof.Bits.Mesh
import Idealize.ShloMosaic.Lib.ValueIdx

noncomputable section

namespace Cert.Kernel.AR

open Cert.Kernel Cert.Kernel.Gen
open Idealize.ShloMosaic Idealize.ShloMosaic.TcCoe Idealize.SL.Sem

variable {F : FTy → Type} [FloatOps F]

def rowIn (b : ℕ) (hb : b ≤ 8192) (i : S8192x1024.Idx) : S16384x1024.Idx :=
  ValueIdx.ix2 (⟨b + (i 0).val, by have h : (i 0).val < 8192 := (i 0).isLt; omega⟩ : Fin 16384) (⟨(i 1).val, (i 1).isLt⟩ : Fin 1024)

theorem base_le (c : Dev nD) : base c ≤ 8192 := by revert c; decide

variable (m : (ℓ : Loc nD τ sig) → Buf (Elt F) ℓ)

abbrev xArr (c : Dev nD) : Buf (Elt F) ((c : Thread nD τ).loc main_arg0) := m ((c : Thread nD τ).loc main_arg0)

def XB (c : Dev nD) : Buf (Elt F) ((c : Thread nD τ).loc cc0_scratch0) :=
  fun i => FloatOps.truncf (φ := .f32) .bf16 bitsLt_bf16_f32 (xArr m c (rowIn (base c) (base_le c) i))

def YR (c : Dev nD) : Buf (Elt F) ((c : Thread nD τ).loc cc0_scratch1) := XB m (yn c)

def SUMv (c : Dev nD) : Buf (Elt F) ((c : Thread nD τ).loc cc0_scratch2) :=
  fun i => FloatOps.addf (φ := .bf16) (XB m c i) (YR m c i)

def halfRow (j : S16384x1024.Idx) : S8192x1024.Idx :=
  ValueIdx.ix2 (⟨(j 0).val % 8192, Nat.mod_lt _ (by decide)⟩ : Fin 8192) (⟨(j 1).val, (j 1).isLt⟩ : Fin 1024)

def OUT (c : Dev nD) : Buf (Elt F) ((c : Thread nD τ).loc main_v1) :=
  fun j => if (j 0).val / 8192 = c.val / 2 then SUMv m c (halfRow j) else SUMv m (xn c) (halfRow j)

end Cert.Kernel.AR

end
-- ==== Proof.Bits.Sched.lean ====
import proofs.«900140_g7700000000000141_dist_ar_v7x_xy2x2_y_m16384_n1024_bf16_1_alg».proof.Proof.Bits.Spec

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER; infer_instance

abbrev SK (k : Fin 18) : Shape := ⟨2, ![sz k, 1024]⟩

theorem inbH : ∀ (k : Fin 18) (a : Fin 2), (![off k, 0] : Fin 2 → Nat) a + (SK k).size a ≤ S8192x1024.size a := by decide

abbrev rectH (k : Fin 18) : Rect S8192x1024 := Rect.unit (s := S8192x1024) ![off k, 0] (SK k).size (inbH k)

abbrev xbM (k : Fin 18) : Memref sig .tc .vmem (SK k) .bf16 := (Memref.whole cc0_scratch0).slice (rectH k) (fun _ => rfl)
abbrev yrM (k : Fin 18) : Memref sig .tc .vmem (SK k) .bf16 := (Memref.whole cc0_scratch1).slice (rectH k) (fun _ => rfl)
abbrev smM (k : Fin 18) : Memref sig .tc .vmem (SK k) .bf16 := (Memref.whole cc0_scratch2).slice (rectH k) (fun _ => rfl)

def outOff (c : Dev nD) : Fin 18 → Fin 2 → ℕ
  | ⟨0, _⟩ => k0_off1 c 0#32
  | ⟨1, _⟩ => k0_off2 c 128#32
  | ⟨2, _⟩ => k0_off3 c 512#32
  | ⟨3, _⟩ => k0_off3 c 1024#32
  | ⟨4, _⟩ => k0_off3 c 1536#32
  | ⟨5, _⟩ => k0_off3 c 2048#32
  | ⟨6, _⟩ => k0_off3 c 2560#32
  | ⟨7, _⟩ => k0_off3 c 3072#32
  | ⟨8, _⟩ => k0_off3 c 3584#32
  | ⟨9, _⟩ => k0_off3 c 4096#32
  | ⟨10, _⟩ => k0_off3 c 4608#32
  | ⟨11, _⟩ => k0_off3 c 5120#32
  | ⟨12, _⟩ => k0_off3 c 5632#32
  | ⟨13, _⟩ => k0_off3 c 6144#32
  | ⟨14, _⟩ => k0_off3 c 6656#32
  | ⟨15, _⟩ => k0_off3 c 7168#32
  | ⟨16, _⟩ => k0_off2 c 7680#32
  | ⟨17, _⟩ => k0_off1 c 8064#32
  | ⟨n + 18, h⟩ => absurd h (by omega)

theorem outInb (c : Dev nD) : ∀ (k : Fin 18) (a : Fin 2), outOff c k a + (SK k).size a ≤ S16384x1024.size a
  | ⟨0, _⟩ => k0_off1_inb c 0
  | ⟨1, _⟩ => k0_off2_inb c 0
  | ⟨2, _⟩ => k0_off3_inb c 0
  | ⟨3, _⟩ => k0_off3_inb c 1
  | ⟨4, _⟩ => k0_off3_inb c 2
  | ⟨5, _⟩ => k0_off3_inb c 3
  | ⟨6, _⟩ => k0_off3_inb c 4
  | ⟨7, _⟩ => k0_off3_inb c 5
  | ⟨8, _⟩ => k0_off3_inb c 6
  | ⟨9, _⟩ => k0_off3_inb c 7
  | ⟨10, _⟩ => k0_off3_inb c 8
  | ⟨11, _⟩ => k0_off3_inb c 9
  | ⟨12, _⟩ => k0_off3_inb c 10
  | ⟨13, _⟩ => k0_off3_inb c 11
  | ⟨14, _⟩ => k0_off3_inb c 12
  | ⟨15, _⟩ => k0_off3_inb c 13
  | ⟨16, _⟩ => k0_off2_inb c 1
  | ⟨17, _⟩ => k0_off1_inb c 1
  | ⟨n + 18, h⟩ => absurd h (by omega)

abbrev outM (c : Dev nD) (k : Fin 18) : Memref sig .tc .hbm (SK k) .bf16 :=
  (Memref.whole main_v1).slice (Rect.unit (s := S16384x1024) (outOff c k) (SK k).size (outInb c k)) (fun _ => rfl)

def Ny (k : Fin 18) : ℕ := (yrM k).view.dmaCredit
def Nx (k : Fin 18) : ℕ := (outM (0 : Dev nD) k).view.dmaCredit
theorem Ny_pos (k : Fin 18) : 0 < Ny k := View.dmaCredit_pos _ (by revert k; decide)
theorem Nx_pos (k : Fin 18) : 0 < Nx k := View.dmaCredit_pos _ (by revert k; decide)
def famOf (i : DmaSem sig) : Option (Fin 4 × Fin 18) :=
  if h : i.val < 72 then some (⟨i.val / 18, by omega⟩, ⟨i.val % 18, Nat.mod_lt _ (by decide)⟩) else none

theorem famOf_dsem : ∀ (a : Fin 4) (k : Fin 18), famOf (dsem a k) = some (a, k) := by decide

variable (m : (ℓ : Loc nD τ sig) → Buf (Elt F) ℓ)

def barPayY (c : Dev nD) : sProp 𝕄 :=
  bigSep Finset.univ fun k : Fin 18 => iprop(∃ f, (yrM k).view.loc ((yn c : Dev nD) : Thread nD τ) ↦[(yrM k).view.set]{fullShare} f)

def barPayX (c : Dev nD) : sProp 𝕄 :=
  bigSep Finset.univ fun k : Fin 18 => iprop(∃ f, (outM c k).view.loc ((xn c : Dev nD) : Thread nD τ) ↦[(outM c k).view.set]{fullShare} f)

def famPay (c : Dev nD) : Fin 4 → Fin 18 → sProp 𝕄
  | 0, k => (xbM k).view.loc (c : Thread nD τ) ↦[(xbM k).view.set]{fullShare.left} XB m c
  | 1, k => (yrM k).view.loc (c : Thread nD τ) ↦[(yrM k).view.set]{fullShare} YR m c
  | 2, k => (smM k).view.loc (c : Thread nD τ) ↦[(smM k).view.set]{fullShare.left} SUMv m c
  | 3, k => (outM (xn c) k).view.loc (c : Thread nD τ) ↦[(outM (xn c) k).view.set]{fullShare} OUT m c

instance barPayY_storable (c : Dev nD) : BI.Storable (upEmb : UEmb _ 𝕄) (barPayY (F := F) c) := by unfold barPayY; infer_instance
instance barPayX_storable (c : Dev nD) : BI.Storable (upEmb : UEmb _ 𝕄) (barPayX (F := F) c) := by unfold barPayX; infer_instance
instance famPay_storable (c : Dev nD) (a : Fin 4) (k : Fin 18) : BI.Storable (upEmb : UEmb _ 𝕄) (famPay (F := F) m c a k) := by
  fin_cases a <;> (unfold famPay; infer_instance)

def Rd : Rounds.Schedule (GSem nD τ sig) Bool 𝕄 where
  duties g r :=
    if r = 0 ∧ g.1.2 = .tc then
      match g.2 with
      | .reg _ => Finset.univ
      | .dma i => if (famOf i).isSome then {false} else ∅
    else ∅
  unitless _ := False
  amount g _ _ := match g.2 with
    | .reg _ => 1
    | .dma i => match famOf i with
      | some (a, k) => if a.val < 2 then Ny k else Nx k
      | none => 1
  payload g _ d := match g.2 with
    | .reg _ => if d then barPayX g.1.1 else barPayY g.1.1
    | .dma i => match famOf i with
      | some (a, k) => famPay m g.1.1 a k
      | none => iprop(emp)
  amount_pos g _ _ _ := by
    rcases g with ⟨t, sm⟩
    cases sm with
    | reg s => exact Nat.one_pos
    | dma i =>
      show 0 < (match famOf i with | some (a, k) => if a.val < 2 then Ny k else Nx k | none => 1)
      cases famOf i with
      | none => exact Nat.one_pos
      | some ak => obtain ⟨a, k⟩ := ak; show 0 < (if a.val < 2 then Ny k else Nx k); split; exact Ny_pos k; exact Nx_pos k

instance Rd_payload_storable (g : GSem nD τ sig) (r : ℕ) (d : Bool) : BI.Storable (upEmb : UEmb _ 𝕄) ((Rd (F := F) m).payload g r d) := by
  rcases g with ⟨t, sm⟩
  cases sm with
  | reg s => show BI.Storable upEmb (if d then barPayX t.1 else barPayY t.1); split <;> infer_instance
  | dma i =>
    show BI.Storable upEmb (match famOf i with | some (a, k) => famPay m t.1 a k | none => iprop(emp))
    cases famOf i with
    | none => show BI.Storable upEmb iprop(emp); infer_instance
    | some ak => obtain ⟨a, k⟩ := ak; show BI.Storable upEmb (famPay m t.1 a k); infer_instance

end Cert.Kernel.AR

end
-- ==== Proof.Bits.Ghost.lean ====
import proofs.«900140_g7700000000000141_dist_ar_v7x_xy2x2_y_m16384_n1024_bf16_1_alg».proof.Proof.Bits.Sched

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def csem (j : Fin 73) : SemLoc sig := if h : j.val = 0 then .reg barS else .dma ⟨j.val - 1, by have := j.isLt; show j.val - 1 < 92; omega⟩
abbrev kcell (cj : Dev nD × Fin 73) : GSem nD τ sig := ((cj.1 : Thread nD τ), csem cj.2)

def famIx (a : Fin 4) (k : Fin 18) : Fin 73 := ⟨1 + 18 * a.val + k.val, by have := a.isLt; have := k.isLt; omega⟩
theorem csem_zero : csem 0 = .reg barS := rfl
theorem csem_famIx : ∀ (a : Fin 4) (k : Fin 18), csem (famIx a k) = .dma (dsem a k) := by decide

def lsem (j : Fin 20) : DmaSem sig := ⟨72 + j.val, by have := j.isLt; show 72 + j.val < 92; omega⟩
abbrev lcell (c : Dev nD) (j : Fin 20) : GSem nD τ sig := ((c : Thread nD τ), .dma (lsem j))

abbrev osem : Fin 92 → SemLoc sig := fun i => .dma i

def Oy (c : Dev nD) (j : ℕ) : CellTallies nD τ sig Unit :=
  ∑ k ∈ Finset.univ.filter (fun k : Fin 18 => j ≤ k.val), tallyAt (dcell (yn c) 1 k) () (Ny k)
def Ox (c : Dev nD) (j : ℕ) : CellTallies nD τ sig Unit :=
  ∑ k ∈ Finset.univ.filter (fun k : Fin 18 => j ≤ k.val), tallyAt (dcell (xn c) 3 k) () (Nx k)

def O₁ (c : Dev nD) : CellTallies nD τ sig Unit := Oy c 0 + Ox c 0 + tallyAt (barCell (xn c)) () 1
def O₀ (c : Dev nD) : CellTallies nD τ sig Unit := O₁ c + tallyAt (barCell (yn c)) () 1

def L (g : GSem nD τ sig) : Finset Unit := if g.1.2 = .tc then {()} else ∅
def lv (g : GSem nD τ sig) (_ : Unit) : ℕ := match g.2 with
  | .reg _ => 1
  | .dma i => match famOf i with
    | some (a, k) => if a = 1 then 2 + k.val else if a = 3 then 100 else 0
    | none => 0
theorem L_of_ne (g : GSem nD τ sig) (h : g.1.2 ≠ .tc) : L g = ∅ := if_neg h
theorem L_tc (c : Dev nD) (sm : SemLoc sig) : L ((c : Thread nD τ), sm) = {()} := if_pos rfl

def records (K : Dev nD × Fin 73 → ℕ) : sProp 𝕄 :=
  iprop((bigSep Finset.univ fun cj : Dev nD × Fin 73 => cellInv ER (Rd m) (K cj) (kcell cj))
    ∗ bigSep Finset.univ fun cj : Dev nD × Fin 73 => reached ER (kcell cj) 0)
instance records_persistent (K : Dev nD × Fin 73 → ℕ) : BI.Persistent (records m K) := by unfold records; infer_instance

def payToks (c : Dev nD) : sProp 𝕄 :=
  iprop(dutyTok ER (barCell (yn c)) 0 false ∗ dutyTok ER (barCell (xn c)) 0 true
    ∗ (bigSep Finset.univ fun k : Fin 18 => dutyTok ER (dcell (yn c) 1 k) 0 false)
    ∗ (bigSep Finset.univ fun k : Fin 18 => dutyTok ER (dcell (xn c) 3 k) 0 false)
    ∗ (bigSep Finset.univ fun k : Fin 18 => dutyTok ER (dcell c 0 k) 0 false)
    ∗ (bigSep Finset.univ fun k : Fin 18 => dutyTok ER (dcell c 2 k) 0 false))

def linear (c : Dev nD) : sProp 𝕄 :=
  iprop((bigSep Finset.univ fun j : Fin 73 => atPos ER (kcell (c, j)) 0 ∅ 0) ∗ payToks (F := F) c)

def ghost (K : Dev nD × Fin 73 → ℕ) (c : Dev nD) : sProp 𝕄 := iprop(records m K ∗ linear (F := F) c)

def lsems0 (c : Dev nD) : sProp 𝕄 := bigSep Finset.univ fun j : Fin 20 => semVal (lcell c j) 0

def creds (c : Dev nD) : sProp 𝕄 :=
  iprop(cred (tallyAt (barCell c) () 2)
    ∗ (bigSep Finset.univ fun k : Fin 18 => cred (tallyAt (dcell c 1 k) () (Ny k)))
    ∗ (bigSep Finset.univ fun k : Fin 18 => cred (tallyAt (dcell c 3 k) () (Nx k))))

def start (c : Dev nD) : sProp 𝕄 :=
  iprop((∃ K, ghost m K c) ∗ lsems0 (F := F) c ∗ creds (F := F) c ∗ levAts L lv
    ∗ (((c : Thread nD τ).loc main_arg0) ↦{fullShare} m ((c : Thread nD τ).loc main_arg0))
    ∗ (((c : Thread nD τ).loc main_v1) ↦{fullShare} m ((c : Thread nD τ).loc main_v1)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch (F := F) c)

def Φ₁ (c : Dev nD) : sProp 𝕄 :=
  iprop(scratch (F := F) c ∗ (bigSep Finset.univ fun i : Fin 92 => semVal (((c : Thread nD τ), osem i) : GSem nD τ sig) 0)
    ∗ (((c : Thread nD τ).loc main_arg0) ↦{fullShare} m ((c : Thread nD τ).loc main_arg0))
    ∗ (((c : Thread nD τ).loc main_v1) ↦{fullShare} OUT m c))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AR

end
-- ==== Proof.Bits.Tables.lean ====
import proofs.«900140_g7700000000000141_dist_ar_v7x_xy2x2_y_m16384_n1024_bf16_1_alg».proof.Proof.Bits.Ghost

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD)

theorem kcell_famIx (a : Fin 4) (k : Fin 18) : kcell (c, famIx a k) = dcell c a k :=
  congrArg (Prod.mk (c : Thread nD τ)) (csem_famIx a k)

theorem duties_bar : (Rd (F := F) m).duties (barCell c) 0 = Finset.univ := by
  dsimp only [Rd]; exact if_pos ⟨rfl, rfl⟩
theorem duties_fam (a : Fin 4) (k : Fin 18) : (Rd (F := F) m).duties (dcell c a k) 0 = {false} := by
  dsimp only [Rd]; rw [if_pos ⟨rfl, rfl⟩, famOf_dsem]; rfl
theorem duties_later (g : GSem nD τ sig) : ∀ r, 1 ≤ r → (Rd (F := F) m).duties g r = ∅ := by
  intro r hr; dsimp only [Rd]; exact if_neg (fun h => absurd h.1 (by omega))

theorem amount_bar (d : Bool) : (Rd (F := F) m).amount (barCell c) 0 d = 1 := rfl
theorem amount_y (a : Fin 4) (ha : a.val < 2) (k : Fin 18) (d : Bool) : (Rd (F := F) m).amount (dcell c a k) 0 d = Ny k := by
  dsimp only [Rd]; rw [famOf_dsem]; exact if_pos ha
theorem amount_x (a : Fin 4) (ha : 2 ≤ a.val) (k : Fin 18) (d : Bool) : (Rd (F := F) m).amount (dcell c a k) 0 d = Nx k := by
  dsimp only [Rd]; rw [famOf_dsem]; exact if_neg (by omega)

theorem expect_bar : (Rd (F := F) m).expect (barCell c) 0 = 2 := by
  unfold Schedule.expect Schedule.amountOf
  rw [duties_bar, Fintype.sum_bool, amount_bar, amount_bar]
theorem expect_y (a : Fin 4) (ha : a.val < 2) (k : Fin 18) : (Rd (F := F) m).expect (dcell c a k) 0 = Ny k := by
  unfold Schedule.expect Schedule.amountOf; rw [duties_fam, Finset.sum_singleton, amount_y m c a ha]
theorem expect_x (a : Fin 4) (ha : 2 ≤ a.val) (k : Fin 18) : (Rd (F := F) m).expect (dcell c a k) 0 = Nx k := by
  unfold Schedule.expect Schedule.amountOf; rw [duties_fam, Finset.sum_singleton, amount_x m c a ha]

theorem payload_bar_false : (Rd (F := F) m).payload (barCell c) 0 false = barPayY c := rfl
theorem payload_bar_true : (Rd (F := F) m).payload (barCell c) 0 true = barPayX c := rfl
theorem payload_fam (a : Fin 4) (k : Fin 18) (d : Bool) : (Rd (F := F) m).payload (dcell c a k) 0 d = famPay m c a k := by
  dsimp only [Rd]; rw [famOf_dsem]

theorem rest_bar : bigSep ((Rd (F := F) m).duties (barCell c) 0 \ ∅) (fun d => (Rd (F := F) m).payload (barCell c) 0 d)
    = iprop(barPayY c ∗ barPayX c) := by
  rw [Finset.sdiff_empty, duties_bar, bigSep_univ_eq_bigSepL [false, true] (by decide) (by decide), bigSepL_cons_cons,
    bigSepL_singleton, payload_bar_false, payload_bar_true]
  rfl
/-- A sum over the chunks from `j` on is the sum from `j + 1` on and the `j`-th term. -/
theorem tail_succ (f : Fin 18 → CellTallies nD τ sig Unit) (j : Fin 18) :
    ∑ k ∈ Finset.univ.filter (fun k : Fin 18 => j.val ≤ k.val), f k
      = ∑ k ∈ Finset.univ.filter (fun k : Fin 18 => j.val + 1 ≤ k.val), f k + f j := by
  have hset : Finset.univ.filter (fun k : Fin 18 => j.val ≤ k.val)
      = insert j (Finset.univ.filter (fun k : Fin 18 => j.val + 1 ≤ k.val)) := by
    ext k
    simp only [Finset.mem_filter, Finset.mem_univ, true_and, Finset.mem_insert]
    constructor
    · intro h
      by_cases e : k = j
      · exact Or.inl e
      · exact Or.inr (by have : k.val ≠ j.val := fun h' => e (Fin.ext h'); omega)
    · rintro (rfl | h)
      · exact le_refl _
      · omega
  rw [hset, Finset.sum_insert (fun h => by have := (Finset.mem_filter.mp h).2; omega), add_comm]
theorem tail_end (f : Fin 18 → CellTallies nD τ sig Unit) :
    ∑ k ∈ Finset.univ.filter (fun k : Fin 18 => 18 ≤ k.val), f k = 0 := by
  rw [Finset.filter_eq_empty_iff.mpr (fun k _ => by have := k.isLt; omega), Finset.sum_empty]
theorem Oy_succ (j : Fin 18) : Oy c j.val = Oy c (j.val + 1) + tallyAt (dcell (yn c) 1 j) () (Ny j) := tail_succ _ j
theorem Ox_succ (j : Fin 18) : Ox c j.val = Ox c (j.val + 1) + tallyAt (dcell (xn c) 3 j) () (Nx j) := tail_succ _ j
theorem Oy_end : Oy c 18 = 0 := tail_end _
theorem Ox_end : Ox c 18 = 0 := tail_end _

/-- A cell at which such a tail of tallies is positive is one of its chunks' cells. -/
theorem tail_pos (cell : Fin 18 → GSem nD τ sig) (N : Fin 18 → ℕ) (j : ℕ) (g : GSem nD τ sig) (ι : Unit)
    (h : 0 < (∑ k ∈ Finset.univ.filter (fun k : Fin 18 => j ≤ k.val), tallyAt (cell k) () (N k)) g ι) :
    ∃ k : Fin 18, j ≤ k.val ∧ g = cell k := by
  obtain ⟨k, hk, hpos⟩ := Pipeline.sum_pos_exists h
  rw [tallyAt_apply] at hpos
  refine ⟨k, (Finset.mem_filter.mp hk).2, ?_⟩
  by_contra hne
  rw [if_neg (fun hh => hne hh.1)] at hpos
  exact absurd hpos (lt_irrefl 0)

theorem owed_pos (j i : ℕ) (g : GSem nD τ sig) (ι : Unit) (h : 0 < (Oy c j + Ox c i) g ι) :
    (∃ k : Fin 18, j ≤ k.val ∧ g = dcell (yn c) 1 k) ∨ (∃ k : Fin 18, i ≤ k.val ∧ g = dcell (xn c) 3 k) :=
  (Pipeline.add_pos_cases h).imp (tail_pos _ _ j g ι) (tail_pos _ _ i g ι)

theorem lv_y (d : Dev nD) (k : Fin 18) (ι : Unit) : lv (dcell d 1 k) ι = 2 + k.val := by
  show (match famOf (dsem 1 k) with
    | some (a, k) => if a = 1 then 2 + k.val else if a = 3 then 100 else 0
    | none => 0) = 2 + k.val
  rw [famOf_dsem]; rfl

theorem lv_x (d : Dev nD) (k : Fin 18) (ι : Unit) : lv (dcell d 3 k) ι = 100 := by
  show (match famOf (dsem 3 k) with
    | some (a, k) => if a = 1 then 2 + k.val else if a = 3 then 100 else 0
    | none => 0) = 100
  rw [famOf_dsem]; rfl

theorem mayWait_bar : (levAts L lv : sProp 𝕄) ⊢ MayWait (c : Thread nD τ) (.reg barS) () (Oy c 0 + Ox c 0) :=
  Pipeline.mayWait_of_levAts (L := L) (lev := lv) (by rw [L_tc]; exact Finset.mem_singleton.mpr rfl) (fun g ι h => by
    rcases owed_pos c 0 0 g ι h with ⟨k', _, rfl⟩ | ⟨k', _, rfl⟩
    · exact ⟨by rw [L_tc]; exact Finset.mem_singleton.mpr rfl, by rw [lv_y]; show 1 < 2 + k'.val; omega⟩
    · exact ⟨by rw [L_tc]; exact Finset.mem_singleton.mpr rfl, by rw [lv_x]; show 1 < 100; omega⟩)

theorem mayWait_yrecv (k : Fin 18) (j i : ℕ) (hj : k.val < j) :
    (levAts L lv : sProp 𝕄) ⊢ MayWait (c : Thread nD τ) (.dma (dsem 1 k)) () (Oy c j + Ox c i) :=
  Pipeline.mayWait_of_levAts (L := L) (lev := lv) (by rw [L_tc]; exact Finset.mem_singleton.mpr rfl) (fun g ι h => by
    have hk : k.val < 18 := k.isLt
    rcases owed_pos c j i g ι h with ⟨k', hk', rfl⟩ | ⟨k', _, rfl⟩
    · exact ⟨by rw [L_tc]; exact Finset.mem_singleton.mpr rfl, by
        rw [show lv (((c : Thread nD τ), .dma (dsem 1 k)) : GSem nD τ sig) () = 2 + k.val from lv_y c k (), lv_y]; omega⟩
    · exact ⟨by rw [L_tc]; exact Finset.mem_singleton.mpr rfl, by
        rw [show lv (((c : Thread nD τ), .dma (dsem 1 k)) : GSem nD τ sig) () = 2 + k.val from lv_y c k (), lv_x]; omega⟩)

theorem mayWait_low (q : DmaSem sig) (hq : lv (((c : Thread nD τ), .dma q) : GSem nD τ sig) () = 0) (j i : ℕ) :
    (levAts L lv : sProp 𝕄) ⊢ MayWait (c : Thread nD τ) (.dma q) () (Oy c j + Ox c i) :=
  Pipeline.mayWait_of_levAts (L := L) (lev := lv) (by rw [L_tc]; exact Finset.mem_singleton.mpr rfl) (fun g ι h => by
    rcases owed_pos c j i g ι h with ⟨k', _, rfl⟩ | ⟨k', _, rfl⟩
    · exact ⟨by rw [L_tc]; exact Finset.mem_singleton.mpr rfl, by rw [hq, lv_y]; omega⟩
    · exact ⟨by rw [L_tc]; exact Finset.mem_singleton.mpr rfl, by rw [hq, lv_x]; omega⟩)

theorem outOff_eq : ∀ (c : Dev nD) (k : Fin 18), outOff c k = ![base c + off k, 0] := by decide +kernel

end Tables

end Cert.Kernel.AR

end
-- ==== Proof.Bits.BodyDefs.lean ====
import proofs.«900140_g7700000000000141_dist_ar_v7x_xy2x2_y_m16384_n1024_bf16_1_alg».proof.Proof.Bits.Tables

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev w0_128 := (Memref.whole cc0_scratch3 : Memref sig .tc .vmem S2x512x1024 .f32).slice (Rect.unit (s := S2x512x1024) ![0, 0, 0] S1x128x1024.size inb_S2x512x1024_S1x128x1024_0_0_0) (fun _ => rfl)
abbrev w0_384 := (Memref.whole cc0_scratch3 : Memref sig .tc .vmem S2x512x1024 .f32).slice (Rect.unit (s := S2x512x1024) ![0, 0, 0] S1x384x1024.size inb_S2x512x1024_S1x384x1024_0_0_0) (fun _ => rfl)
abbrev w0_512 := (Memref.whole cc0_scratch3 : Memref sig .tc .vmem S2x512x1024 .f32).slice (Rect.unit (s := S2x512x1024) ![0, 0, 0] S1x512x1024.size inb_S2x512x1024_S1x512x1024_0_0_0) (fun _ => rfl)
abbrev w1_128 := (Memref.whole cc0_scratch3 : Memref sig .tc .vmem S2x512x1024 .f32).slice (Rect.unit (s := S2x512x1024) ![1, 0, 0] S1x128x1024.size inb_S2x512x1024_S1x128x1024_1_0_0) (fun _ => rfl)
abbrev w1_384 := (Memref.whole cc0_scratch3 : Memref sig .tc .vmem S2x512x1024 .f32).slice (Rect.unit (s := S2x512x1024) ![1, 0, 0] S1x384x1024.size inb_S2x512x1024_S1x384x1024_1_0_0) (fun _ => rfl)
abbrev w1_512 := (Memref.whole cc0_scratch3 : Memref sig .tc .vmem S2x512x1024 .f32).slice (Rect.unit (s := S2x512x1024) ![1, 0, 0] S1x512x1024.size inb_S2x512x1024_S1x512x1024_1_0_0) (fun _ => rfl)

theorem bigSep_fin18 (Φ : Fin 18 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- A product over the eighteen chunks, written out factor by factor. -/
def sep18 (Φ : Fin 18 → sProp 𝕄) : sProp 𝕄 := iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17)
def sep20 (Φ : Fin 20 → sProp 𝕄) : sProp 𝕄 := iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19)
theorem sep18_eq (Φ : Fin 18 → sProp 𝕄) : sep18 Φ = bigSep Finset.univ Φ := (bigSep_fin18 Φ).symm
theorem sep20_eq (Φ : Fin 20 → sProp 𝕄) : sep20 Φ = bigSep Finset.univ Φ :=
  (bigSep_univ_eq_bigSepL [0, 1, 2, 3, 4, 5, 6, 7, 8, 9, 10, 11, 12, 13, 14, 15, 16, 17, 18, 19] (by decide) (by decide) Φ).symm

/-- What one device holds when its body starts, grouped by kind: a product over the eighteen chunks stands for each family. -/
def bodyPre (c : Dev nD) (K : Dev nD × Fin 73 → ℕ) (W : Waits sig Unit)
    (f3 : Buf (Elt F) ((c : Thread nD τ).loc cc0_scratch3)) (fxb : Buf (Elt F) ((c : Thread nD τ).loc cc0_scratch0))
    (fsm : Buf (Elt F) ((c : Thread nD τ).loc cc0_scratch2)) (fyr : Buf (Elt F) ((c : Thread nD τ).loc cc0_scratch1))
    (fo : Buf (Elt F) ((c : Thread nD τ).loc main_v1)) : sProp 𝕄 :=
  iprop((cellInv ER (Rd m) (K (c, 0)) (barCell c) ∗ cellInv ER (Rd m) (K (yn c, 0)) (barCell (yn c)) ∗ cellInv ER (Rd m) (K (xn c, 0)) (barCell (xn c))
        ∗ (sep18 fun k : Fin 18 => cellInv ER (Rd m) (K (c, famIx 0 k)) (dcell c 0 k)) ∗ (sep18 fun k : Fin 18 => cellInv ER (Rd m) (K (c, famIx 1 k)) (dcell c 1 k)) ∗ (sep18 fun k : Fin 18 => cellInv ER (Rd m) (K (c, famIx 2 k)) (dcell c 2 k)) ∗ (sep18 fun k : Fin 18 => cellInv ER (Rd m) (K (c, famIx 3 k)) (dcell c 3 k))
        ∗ (sep18 fun k : Fin 18 => cellInv ER (Rd m) (K (yn c, famIx 1 k)) (dcell (yn c) 1 k)) ∗ (sep18 fun k : Fin 18 => cellInv ER (Rd m) (K (xn c, famIx 3 k)) (dcell (xn c) 3 k)))
      ∗ (reached ER (barCell (yn c)) 0 ∗ reached ER (barCell (xn c)) 0 ∗ (sep18 fun k : Fin 18 => reached ER (dcell (yn c) 1 k) 0) ∗ (sep18 fun k : Fin 18 => reached ER (dcell (xn c) 3 k) 0) ∗ (sep18 fun k : Fin 18 => reached ER (dcell c 0 k) 0) ∗ (sep18 fun k : Fin 18 => reached ER (dcell c 2 k) 0))
      ∗ levAts L lv
      ∗ owes (c : Thread nD τ) (O₀ c) W
      ∗ (dutyTok ER (barCell (yn c)) 0 false ∗ dutyTok ER (barCell (xn c)) 0 true
        ∗ (sep18 fun k : Fin 18 => dutyTok ER (dcell (yn c) 1 k) 0 false)
        ∗ (sep18 fun k : Fin 18 => dutyTok ER (dcell (xn c) 3 k) 0 false)
        ∗ (sep18 fun k : Fin 18 => dutyTok ER (dcell c 0 k) 0 false)
        ∗ (sep18 fun k : Fin 18 => dutyTok ER (dcell c 2 k) 0 false))
      ∗ (atPos ER (barCell c) 0 ∅ 0 ∗ (sep18 fun k : Fin 18 => atPos ER (dcell c 0 k) 0 ∅ 0) ∗ (sep18 fun k : Fin 18 => atPos ER (dcell c 1 k) 0 ∅ 0) ∗ (sep18 fun k : Fin 18 => atPos ER (dcell c 2 k) 0 ∅ 0) ∗ (sep18 fun k : Fin 18 => atPos ER (dcell c 3 k) 0 ∅ 0))
      ∗ (cred (tallyAt (barCell c) () 2)
        ∗ (sep18 fun k : Fin 18 => cred (tallyAt (dcell c 1 k) () (Ny k)))
        ∗ (sep18 fun k : Fin 18 => cred (tallyAt (dcell c 3 k) () (Nx k))))
      ∗ (sep20 fun j : Fin 20 => semVal (lcell c j) 0)
      ∗ ((Memref.whole main_arg0 : Memref sig .tc .hbm S16384x1024 .f32).view.loc (c : Thread nD τ) ↦{fullShare} m ((c : Thread nD τ).loc main_arg0))
      ∗ ((w0_128.view.loc (c : Thread nD τ) ↦[w0_128.view.set]{fullShare} f3)
        ∗ (w0_512.view.loc (c : Thread nD τ) ↦[w0_512.view.set \ w0_128.view.set]{fullShare} f3)
        ∗ (w1_384.view.loc (c : Thread nD τ) ↦[w1_384.view.set]{fullShare} f3)
        ∗ (w1_512.view.loc (c : Thread nD τ) ↦[w1_512.view.set \ w1_384.view.set]{fullShare} f3))
      ∗ (sep18 fun k : Fin 18 => ((xbM k).view.loc (c : Thread nD τ) ↦[(xbM k).view.set]{fullShare} fxb : sProp 𝕄))
      ∗ (sep18 fun k : Fin 18 => ((smM k).view.loc (c : Thread nD τ) ↦[(smM k).view.set]{fullShare} fsm : sProp 𝕄))
      ∗ (sep18 fun k : Fin 18 => ((yrM k).view.loc (c : Thread nD τ) ↦[(yrM k).view.set]{fullShare} fyr : sProp 𝕄))
      ∗ (sep18 fun k : Fin 18 => ((outM c k).view.loc (c : Thread nD τ) ↦[(outM c k).view.set]{fullShare} fo : sProp 𝕄))
      ∗ (sep18 fun k : Fin 18 => ((outM (xn c) k).view.loc (c : Thread nD τ) ↦[(outM (xn c) k).view.set]{fullShare} fo : sProp 𝕄)))

/-- What it holds at the end: each narrowed and each summed chunk as two halves, each received and each result chunk at its specified contents. -/
def bodyPost (c : Dev nD) : sProp 𝕄 :=
  iprop((∃ W' : Waits sig Unit, owes (c : Thread nD τ) 0 W')
      ∗ ((∃ f, (w0_384.view.loc (c : Thread nD τ) ↦[w0_384.view.set]{fullShare} f))
        ∗ (∃ f, (w0_512.view.loc (c : Thread nD τ) ↦[w0_512.view.set \ w0_384.view.set]{fullShare} f))
        ∗ (∃ f, (w1_128.view.loc (c : Thread nD τ) ↦[w1_128.view.set]{fullShare} f))
        ∗ (∃ f, (w1_512.view.loc (c : Thread nD τ) ↦[w1_512.view.set \ w1_128.view.set]{fullShare} f)))
      ∗ ((Memref.whole main_arg0 : Memref sig .tc .hbm S16384x1024 .f32).view.loc (c : Thread nD τ) ↦{fullShare} m ((c : Thread nD τ).loc main_arg0))
      ∗ (sep18 fun k : Fin 18 => iprop(((xbM k).view.loc (c : Thread nD τ) ↦[(xbM k).view.set]{fullShare.left} XB m c)
          ∗ ((xbM k).view.loc (c : Thread nD τ) ↦[(xbM k).view.set]{fullShare.right} XB m c)))
      ∗ (sep18 fun k : Fin 18 => iprop(((smM k).view.loc (c : Thread nD τ) ↦[(smM k).view.set]{fullShare.left} SUMv m c)
          ∗ ((smM k).view.loc (c : Thread nD τ) ↦[(smM k).view.set]{fullShare.right} SUMv m c)))
      ∗ (sep18 fun k : Fin 18 => ((yrM k).view.loc (c : Thread nD τ) ↦[(yrM k).view.set]{fullShare} YR m c : sProp 𝕄))
      ∗ (sep18 fun k : Fin 18 => ((outM c k).view.loc (c : Thread nD τ) ↦[(outM c k).view.set]{fullShare} OUT m c : sProp 𝕄))
      ∗ (sep18 fun k : Fin 18 => ((outM (xn c) k).view.loc (c : Thread nD τ) ↦[(outM (xn c) k).view.set]{fullShare} OUT m c : sProp 𝕄))
      ∗ ((sep18 fun k : Fin 18 => atPos ER (dcell c 0 k) 1 ∅ 0) ∗ (sep18 fun k : Fin 18 => atPos ER (dcell c 1 k) 1 ∅ 0) ∗ (sep18 fun k : Fin 18 => atPos ER (dcell c 2 k) 1 ∅ 0) ∗ (sep18 fun k : Fin 18 => atPos ER (dcell c 3 k) 1 ∅ 0))
      ∗ (sep20 fun j : Fin 20 => semVal (lcell c j) 0))

end Cert.Kernel.AR

end
-- ==== Proof.Bits.Incl.lean ====
import proofs.«900140_g7700000000000141_dist_ar_v7x_xy2x2_y_m16384_n1024_bf16_1_alg».proof.Proof.Bits.Tables

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem incl_0_128 : (Memref.whole cc0_scratch3 : Memref sig .tc .vmem S2x512x1024 .f32).view.setOn (Rect.unit (s := S2x512x1024) ![0, 0, 0] S1x128x1024.size inb_S2x512x1024_S1x128x1024_0_0_0).toLoadRect.set
    ⊆ (Memref.whole cc0_scratch3 : Memref sig .tc .vmem S2x512x1024 .f32).view.setOn (Rect.unit (s := S2x512x1024) ![0, 0, 0] S1x512x1024.size inb_S2x512x1024_S1x512x1024_0_0_0).toLoadRect.set :=
  Finset.map_subset_map.mpr (Rect.set_subset_of_span _ _ (fun _ => rfl) (by decide))
theorem incl_0_384 : (Memref.whole cc0_scratch3 : Memref sig .tc .vmem S2x512x1024 .f32).view.setOn (Rect.unit (s := S2x512x1024) ![0, 0, 0] S1x384x1024.size inb_S2x512x1024_S1x384x1024_0_0_0).toLoadRect.set
    ⊆ (Memref.whole cc0_scratch3 : Memref sig .tc .vmem S2x512x1024 .f32).view.setOn (Rect.unit (s := S2x512x1024) ![0, 0, 0] S1x512x1024.size inb_S2x512x1024_S1x512x1024_0_0_0).toLoadRect.set :=
  Finset.map_subset_map.mpr (Rect.set_subset_of_span _ _ (fun _ => rfl) (by decide))
theorem incl_1_128 : (Memref.whole cc0_scratch3 : Memref sig .tc .vmem S2x512x1024 .f32).view.setOn (Rect.unit (s := S2x512x1024) ![1, 0, 0] S1x128x1024.size inb_S2x512x1024_S1x128x1024_1_0_0).toLoadRect.set
    ⊆ (Memref.whole cc0_scratch3 : Memref sig .tc .vmem S2x512x1024 .f32).view.setOn (Rect.unit (s := S2x512x1024) ![1, 0, 0] S1x512x1024.size inb_S2x512x1024_S1x512x1024_1_0_0).toLoadRect.set :=
  Finset.map_subset_map.mpr (Rect.set_subset_of_span _ _ (fun _ => rfl) (by decide))
theorem incl_1_384 : (Memref.whole cc0_scratch3 : Memref sig .tc .vmem S2x512x1024 .f32).view.setOn (Rect.unit (s := S2x512x1024) ![1, 0, 0] S1x384x1024.size inb_S2x512x1024_S1x384x1024_1_0_0).toLoadRect.set
    ⊆ (Memref.whole cc0_scratch3 : Memref sig .tc .vmem S2x512x1024 .f32).view.setOn (Rect.unit (s := S2x512x1024) ![1, 0, 0] S1x512x1024.size inb_S2x512x1024_S1x512x1024_1_0_0).toLoadRect.set :=
  Finset.map_subset_map.mpr (Rect.set_subset_of_span _ _ (fun _ => rfl) (by decide))

end Cert.Kernel.AR

end
-- ==== Proof.Bits.Slots.lean ====
import proofs.«900140_g7700000000000141_dist_ar_v7x_xy2x2_y_m16384_n1024_bf16_1_alg».proof.Proof.Bits.Incl

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev dbufM : Memref sig .tc .vmem S2x512x1024 .f32 := Memref.whole cc0_scratch3

theorem slice_set (R : Rect S2x512x1024) (hr : ∀ a, R.stride a = 1) :
    (dbufM.slice R hr).view.set = dbufM.view.setOn R.toLoadRect.set := View.set_slice _ R

theorem slice_incl {R₁ R₂ : Rect S2x512x1024} (h₁ : ∀ a, R₁.stride a = 1) (h₂ : ∀ a, R₂.stride a = 1)
    (h : dbufM.view.setOn R₁.toLoadRect.set ⊆ dbufM.view.setOn R₂.toLoadRect.set) :
    (dbufM.slice R₁ h₁).view.set ⊆ (dbufM.slice R₂ h₂).view.set := by
  rw [slice_set, slice_set]; exact h

theorem slot_join (c : Dev nD) {R₁ R₂ : Rect S2x512x1024} (h₁ : ∀ a, R₁.stride a = 1) (h₂ : ∀ a, R₂.stride a = 1)
    (h : dbufM.view.setOn R₁.toLoadRect.set ⊆ dbufM.view.setOn R₂.toLoadRect.set)
    (g f : Buf (Elt F) ((c : Thread nD τ).loc cc0_scratch3)) :
    iprop(((dbufM.slice R₁ h₁).view.loc (c : Thread nD τ) ↦[(dbufM.slice R₁ h₁).view.set]{fullShare} g)
        ∗ ((dbufM.slice R₂ h₂).view.loc (c : Thread nD τ) ↦[(dbufM.slice R₂ h₂).view.set \ (dbufM.slice R₁ h₁).view.set]{fullShare} f))
      ⊢ (iprop(∃ h', (dbufM.slice R₂ h₂).view.loc (c : Thread nD τ) ↦[(dbufM.slice R₂ h₂).view.set]{fullShare} h') : sProp 𝕄) := by
  refine (pointsTo_join_subset (slice_incl h₁ h₂ h)).trans ?_
  iintro H
  iexists _
  iexact H

theorem slot_split (c : Dev nD) {R₁ R₂ : Rect S2x512x1024} (h₁ : ∀ a, R₁.stride a = 1) (h₂ : ∀ a, R₂.stride a = 1)
    (h : dbufM.view.setOn R₁.toLoadRect.set ⊆ dbufM.view.setOn R₂.toLoadRect.set)
    (f : Buf (Elt F) ((c : Thread nD τ).loc cc0_scratch3)) :
    ((dbufM.slice R₂ h₂).view.loc (c : Thread nD τ) ↦[(dbufM.slice R₂ h₂).view.set]{fullShare} f : sProp 𝕄)
      ⊢ iprop(((dbufM.slice R₁ h₁).view.loc (c : Thread nD τ) ↦[(dbufM.slice R₁ h₁).view.set]{fullShare} f)
        ∗ ((dbufM.slice R₂ h₂).view.loc (c : Thread nD τ) ↦[(dbufM.slice R₂ h₂).view.set \ (dbufM.slice R₁ h₁).view.set]{fullShare} f)) :=
  (pointsTo_split_subset (slice_incl h₁ h₂ h)).1

theorem slot_join_0_128 (c : Dev nD) (g f : Buf (Elt F) ((c : Thread nD τ).loc cc0_scratch3)) :
    iprop((((Memref.whole cc0_scratch3 : Memref sig .tc .vmem S2x512x1024 .f32).slice (Rect.unit (s := S2x512x1024) ![0, 0, 0] S1x128x1024.size inb_S2x512x1024_S1x128x1024_0_0_0) (fun _ => rfl)).view.loc (c : Thread nD τ) ↦[((Memref.whole cc0_scratch3 : Memref sig .tc .vmem S2x512x1024 .f32).slice (Rect.unit (s := S2x512x1024) ![0, 0, 0] S1x128x1024.size inb_S2x512x1024_S1x128x1024_0_0_0) (fun _ => rfl)).view.set]{fullShare} g) ∗ (((Memref.whole cc0_scratch3 : Memref sig .tc .vmem S2x512x1024 .f32).slice (Rect.unit (s := S2x512x1024) ![0, 0, 0] S1x512x1024.size inb_S2x512x1024_S1x512x1024_0_0_0) (fun _ => rfl)).view.loc (c : Thread nD τ) ↦[((Memref.whole cc0_scratch3 : Memref sig .tc .vmem S2x512x1024 .f32).slice (Rect.unit (s := S2x512x1024) ![0, 0, 0] S1x512x1024.size inb_S2x512x1024_S1x512x1024_0_0_0) (fun _ => rfl)).view.set \ ((Memref.whole cc0_scratch3 : Memref sig .tc .vmem S2x512x1024 .f32).slice (Rect.unit (s := S2x512x1024) ![0, 0, 0] S1x128x1024.size inb_S2x512x1024_S1x128x1024_0_0_0) (fun _ => rfl)).view.set]{fullShare} f)) ⊢ (iprop(∃ h, (((Memref.whole cc0_scratch3 : Memref sig .tc .vmem S2x512x1024 .f32).slice (Rect.unit (s := S2x512x1024) ![0, 0, 0] S1x512x1024.size inb_S2x512x1024_S1x512x1024_0_0_0) (fun _ => rfl)).view.loc (c : Thread nD τ) ↦[((Memref.whole cc0_scratch3 : Memref sig .tc .vmem S2x512x1024 .f32).slice (Rect.unit (s := S2x512x1024) ![0, 0, 0] S1x512x1024.size inb_S2x512x1024_S1x512x1024_0_0_0) (fun _ => rfl)).view.set]{fullShare} h)) : sProp 𝕄) := by
  exact slot_join c _ _ incl_0_128 g f
theorem slot_join_1_384 (c : Dev nD) (g f : Buf (Elt F) ((c : Thread nD τ).loc cc0_scratch3)) :
    iprop((((Memref.whole cc0_scratch3 : Memref sig .tc .vmem S2x512x1024 .f32).slice (Rect.unit (s := S2x512x1024) ![1, 0, 0] S1x384x1024.size inb_S2x512x1024_S1x384x1024_1_0_0) (fun _ => rfl)).view.loc (c : Thread nD τ) ↦[((Memref.whole cc0_scratch3 : Memref sig .tc .vmem S2x512x1024 .f32).slice (Rect.unit (s := S2x512x1024) ![1, 0, 0] S1x384x1024.size inb_S2x512x1024_S1x384x1024_1_0_0) (fun _ => rfl)).view.set]{fullShare} g) ∗ (((Memref.whole cc0_scratch3 : Memref sig .tc .vmem S2x512x1024 .f32).slice (Rect.unit (s := S2x512x1024) ![1, 0, 0] S1x512x1024.size inb_S2x512x1024_S1x512x1024_1_0_0) (fun _ => rfl)).view.loc (c : Thread nD τ) ↦[((Memref.whole cc0_scratch3 : Memref sig .tc .vmem S2x512x1024 .f32).slice (Rect.unit (s := S2x512x1024) ![1, 0, 0] S1x512x1024.size inb_S2x512x1024_S1x512x1024_1_0_0) (fun _ => rfl)).view.set \ ((Memref.whole cc0_scratch3 : Memref sig .tc .vmem S2x512x1024 .f32).slice (Rect.unit (s := S2x512x1024) ![1, 0, 0] S1x384x1024.size inb_S2x512x1024_S1x384x1024_1_0_0) (fun _ => rfl)).view.set]{fullShare} f)) ⊢ (iprop(∃ h, (((Memref.whole cc0_scratch3 : Memref sig .tc .vmem S2x512x1024 .f32).slice (Rect.unit (s := S2x512x1024) ![1, 0, 0] S1x512x1024.size inb_S2x512x1024_S1x512x1024_1_0_0) (fun _ => rfl)).view.loc (c : Thread nD τ) ↦[((Memref.whole cc0_scratch3 : Memref sig .tc .vmem S2x512x1024 .f32).slice (Rect.unit (s := S2x512x1024) ![1, 0, 0] S1x512x1024.size inb_S2x512x1024_S1x512x1024_1_0_0) (fun _ => rfl)).view.set]{fullShare} h)) : sProp 𝕄) := by
  exact slot_join c _ _ incl_1_384 g f

theorem slot_split_0_384 (c : Dev nD) (f : Buf (Elt F) ((c : Thread nD τ).loc cc0_scratch3)) :
    ((((Memref.whole cc0_scratch3 : Memref sig .tc .vmem S2x512x1024 .f32).slice (Rect.unit (s := S2x512x1024) ![0, 0, 0] S1x512x1024.size inb_S2x512x1024_S1x512x1024_0_0_0) (fun _ => rfl)).view.loc (c : Thread nD τ) ↦[((Memref.whole cc0_scratch3 : Memref sig .tc .vmem S2x512x1024 .f32).slice (Rect.unit (s := S2x512x1024) ![0, 0, 0] S1x512x1024.size inb_S2x512x1024_S1x512x1024_0_0_0) (fun _ => rfl)).view.set]{fullShare} f) : sProp 𝕄) ⊢ iprop((((Memref.whole cc0_scratch3 : Memref sig .tc .vmem S2x512x1024 .f32).slice (Rect.unit (s := S2x512x1024) ![0, 0, 0] S1x384x1024.size inb_S2x512x1024_S1x384x1024_0_0_0) (fun _ => rfl)).view.loc (c : Thread nD τ) ↦[((Memref.whole cc0_scratch3 : Memref sig .tc .vmem S2x512x1024 .f32).slice (Rect.unit (s := S2x512x1024) ![0, 0, 0] S1x384x1024.size inb_S2x512x1024_S1x384x1024_0_0_0) (fun _ => rfl)).view.set]{fullShare} f) ∗ (((Memref.whole cc0_scratch3 : Memref sig .tc .vmem S2x512x1024 .f32).slice (Rect.unit (s := S2x512x1024) ![0, 0, 0] S1x512x1024.size inb_S2x512x1024_S1x512x1024_0_0_0) (fun _ => rfl)).view.loc (c : Thread nD τ) ↦[((Memref.whole cc0_scratch3 : Memref sig .tc .vmem S2x512x1024 .f32).slice (Rect.unit (s := S2x512x1024) ![0, 0, 0] S1x512x1024.size inb_S2x512x1024_S1x512x1024_0_0_0) (fun _ => rfl)).view.set \ ((Memref.whole cc0_scratch3 : Memref sig .tc .vmem S2x512x1024 .f32).slice (Rect.unit (s := S2x512x1024) ![0, 0, 0] S1x384x1024.size inb_S2x512x1024_S1x384x1024_0_0_0) (fun _ => rfl)).view.set]{fullShare} f)) := by
  exact slot_split c _ _ incl_0_384 f
theorem slot_split_1_128 (c : Dev nD) (f : Buf (Elt F) ((c : Thread nD τ).loc cc0_scratch3)) :
    ((((Memref.whole cc0_scratch3 : Memref sig .tc .vmem S2x512x1024 .f32).slice (Rect.unit (s := S2x512x1024) ![1, 0, 0] S1x512x1024.size inb_S2x512x1024_S1x512x1024_1_0_0) (fun _ => rfl)).view.loc (c : Thread nD τ) ↦[((Memref.whole cc0_scratch3 : Memref sig .tc .vmem S2x512x1024 .f32).slice (Rect.unit (s := S2x512x1024) ![1, 0, 0] S1x512x1024.size inb_S2x512x1024_S1x512x1024_1_0_0) (fun _ => rfl)).view.set]{fullShare} f) : sProp 𝕄) ⊢ iprop((((Memref.whole cc0_scratch3 : Memref sig .tc .vmem S2x512x1024 .f32).slice (Rect.unit (s := S2x512x1024) ![1, 0, 0] S1x128x1024.size inb_S2x512x1024_S1x128x1024_1_0_0) (fun _ => rfl)).view.loc (c : Thread nD τ) ↦[((Memref.whole cc0_scratch3 : Memref sig .tc .vmem S2x512x1024 .f32).slice (Rect.unit (s := S2x512x1024) ![1, 0, 0] S1x128x1024.size inb_S2x512x1024_S1x128x1024_1_0_0) (fun _ => rfl)).view.set]{fullShare} f) ∗ (((Memref.whole cc0_scratch3 : Memref sig .tc .vmem S2x512x1024 .f32).slice (Rect.unit (s := S2x512x1024) ![1, 0, 0] S1x512x1024.size inb_S2x512x1024_S1x512x1024_1_0_0) (fun _ => rfl)).view.loc (c : Thread nD τ) ↦[((Memref.whole cc0_scratch3 : Memref sig .tc .vmem S2x512x1024 .f32).slice (Rect.unit (s := S2x512x1024) ![1, 0, 0] S1x512x1024.size inb_S2x512x1024_S1x512x1024_1_0_0) (fun _ => rfl)).view.set \ ((Memref.whole cc0_scratch3 : Memref sig .tc .vmem S2x512x1024 .f32).slice (Rect.unit (s := S2x512x1024) ![1, 0, 0] S1x128x1024.size inb_S2x512x1024_S1x128x1024_1_0_0) (fun _ => rfl)).view.set]{fullShare} f)) := by
  exact slot_split c _ _ incl_1_128 f

end Cert.Kernel.AR

end
-- ==== Proof.Bits.Landing.lean ====
import proofs.«900140_g7700000000000141_dist_ar_v7x_xy2x2_y_m16384_n1024_bf16_1_alg».proof.Proof.Bits.Tables
import Idealize.ShloMosaic.Lib.Pipeline.Value

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem OUT_apply (c : Dev nD) (j : S16384x1024.Idx) :
    OUT m c j = if (j 0).val / 8192 = c.val / 2 then SUMv m c (halfRow j) else SUMv m (xn c) (halfRow j) := rfl

theorem out_div (c : Dev nD) (k : Fin 18) (y : (SK k).Idx) : (((outM c k).view.emb y) 0).val / 8192 = c.val / 2 := by
  have hy0 : (y 0).val < sz k := (y 0).isLt
  have hk := off_sz k
  have h0 : outOff c k 0 = base c + off k := by rw [outOff_eq]; rfl
  have hb : base c = 8192 * (c.val / 2) := rfl
  show (outOff c k 0 + 1 * (y 0).val) / 8192 = c.val / 2
  rw [h0, hb]; omega

theorem out_half (c : Dev nD) (k : Fin 18) (y : (SK k).Idx) : halfRow ((outM c k).view.emb y) = (smM k).view.emb y := by
  have hy0 : (y 0).val < sz k := (y 0).isLt
  have hk := off_sz k
  have h0 : outOff c k 0 = base c + off k := by rw [outOff_eq]; rfl
  have h1 : outOff c k 1 = 0 := by rw [outOff_eq]; rfl
  have hb : base c = 8192 * (c.val / 2) := rfl
  funext a
  apply Fin.ext
  match a with
  | ⟨0, _⟩ =>
    show (outOff c k 0 + 1 * (y 0).val) % 8192 = off k + 1 * (y 0).val
    rw [h0, hb]; omega
  | ⟨1, _⟩ =>
    show outOff c k 1 + 1 * (y 1).val = 0 + 1 * (y 1).val
    rw [h1]

theorem land_y (c : Dev nD) (k : Fin 18)
    (fn : Buf (Elt F) ((yrM k).view.loc ((yn c : Dev nD) : Thread nD τ))) (fs : Buf (Elt F) ((xbM k).view.loc (c : Thread nD τ)))
    (hfs : ∀ i ∈ (xbM k).view.set, fs i = XB m c i) :
    ∀ i ∈ (yrM k).view.set, (yrM k).view.write (Elt F) fn ((xbM k).view.read (Elt F) fs) Finset.univ i = YR m (yn c) i := by
  intro i hi
  obtain ⟨y, rfl⟩ := View.exists_emb_of_mem_set (yrM k).view hi
  rw [View.write_emb_of_mem _ _ (Finset.mem_univ y), View.read_apply, hfs _ ((xbM k).view.emb_mem_set y)]
  show XB m c ((rectH k).emb y) = XB m (yn (yn c)) ((rectH k).emb y)
  rw [yn_yn]

theorem land_x (c : Dev nD) (k : Fin 18)
    (fn : Buf (Elt F) ((outM c k).view.loc ((xn c : Dev nD) : Thread nD τ))) (fs : Buf (Elt F) ((smM k).view.loc (c : Thread nD τ)))
    (hfs : ∀ i ∈ (smM k).view.set, fs i = SUMv m c i) :
    ∀ i ∈ (outM c k).view.set, (outM c k).view.write (Elt F) fn ((smM k).view.read (Elt F) fs) Finset.univ i = OUT m (xn c) i := by
  intro i hi
  obtain ⟨y, rfl⟩ := View.exists_emb_of_mem_set (outM c k).view hi
  rw [View.write_emb_of_mem _ _ (Finset.mem_univ y), View.read_apply, hfs _ ((smM k).view.emb_mem_set y)]
  show SUMv m c ((smM k).view.emb y) = OUT m (xn c) ((outM c k).view.emb y)
  have hc : c.val < 4 := c.isLt
  rw [OUT_apply, if_neg (by rw [out_div, xn_div]; omega), out_half, xn_xn]

theorem land_o (c : Dev nD) (k : Fin 18)
    (fn : Buf (Elt F) ((outM c k).view.loc (c : Thread nD τ))) (fs : Buf (Elt F) ((smM k).view.loc (c : Thread nD τ)))
    (hfs : ∀ i ∈ (smM k).view.set, fs i = SUMv m c i) :
    ∀ i ∈ (outM c k).view.set, (outM c k).view.write (Elt F) fn ((smM k).view.read (Elt F) fs) Finset.univ i = OUT m c i := by
  intro i hi
  obtain ⟨y, rfl⟩ := View.exists_emb_of_mem_set (outM c k).view hi
  rw [View.write_emb_of_mem _ _ (Finset.mem_univ y), View.read_apply, hfs _ ((smM k).view.emb_mem_set y)]
  show SUMv m c ((smM k).view.emb y) = OUT m c ((outM c k).view.emb y)
  rw [OUT_apply, if_pos (out_div c k y), out_half]

end Cert.Kernel.AR

end
-- ==== Proof.Bits.Vals.lean ====
import proofs.«900140_g7700000000000141_dist_ar_v7x_xy2x2_y_m16384_n1024_bf16_1_alg».proof.Proof.Bits.Tables
import proofs.«900140_g7700000000000141_dist_ar_v7x_xy2x2_y_m16384_n1024_bf16_1_alg».proof.Proof.Bits.Landing
import Idealize.ShloMosaic.Lib.Pipeline.Value
import Idealize.ShloMosaic.Lib.Writes

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem narrow_val (c : Dev nD) (n o s : ℕ)
    (inbX : ∀ a, (![o, 0] : Fin 2 → ℕ) a + (⟨2, ![n, 1024]⟩ : Shape).size a ≤ S8192x1024.size a)
    (inb3 : ∀ a, (![s, 0, 0] : Fin 3 → ℕ) a + (⟨3, ![1, n, 1024]⟩ : Shape).size a ≤ S2x512x1024.size a)
    (offA : Fin 2 → ℕ) (hoff : offA = ![base c + o, 0])
    (inbA : ∀ a, offA a + (⟨2, ![n, 1024]⟩ : Shape).size a ≤ S16384x1024.size a)
    (hsq : (⟨3, ![1, n, 1024]⟩ : Shape).Squeezes ⟨2, ![n, 1024]⟩)
    (hc1 : (⟨3, ![1, n, 1024]⟩ : Shape).ShapeCasts ⟨2, ![n, 1024]⟩)
    (hc2 : (⟨2, ![n, 1024]⟩ : Shape).ShapeCasts ⟨2, ![n, 1024]⟩)
    (f3 : Buf (Elt F) ((c : Thread nD τ).loc cc0_scratch3)) (fxb : Buf (Elt F) ((c : Thread nD τ).loc cc0_scratch0)) :
    ∀ i ∈ ((Memref.whole cc0_scratch0 : Memref sig .tc .vmem S8192x1024 .bf16).access (Rect.unit (s := S8192x1024) ![o, 0] ![n, 1024] inbX)).set,
      View.write (Elt F) ((Memref.whole cc0_scratch0 : Memref sig .tc .vmem S8192x1024 .bf16).access (Rect.unit (s := S8192x1024) ![o, 0] ![n, 1024] inbX)) fxb
        (shapeCast ⟨2, ![n, 1024]⟩
          (truncf .bf16
            (shapeCast ⟨2, ![n, 1024]⟩
              (View.readAt (Elt F) (Memref.whole cc0_scratch3 : Memref sig .tc .vmem S2x512x1024 .f32).view
                (Rect.unit (s := S2x512x1024) ![s, 0, 0] ![1, n, 1024] inb3).toLoadRect
                (View.write (Elt F)
                  (((Memref.whole cc0_scratch3 : Memref sig .tc .vmem S2x512x1024 .f32).slice (Rect.unit (s := S2x512x1024) ![s, 0, 0] ![1, n, 1024] inb3) (fun _ => rfl)).squeeze ⟨2, ![n, 1024]⟩ hsq).view
                  f3
                  (ReadAs.same.apply
                    (View.read (Elt F)
                      ((Memref.whole main_arg0 : Memref sig .tc .hbm S16384x1024 .f32).slice (Rect.unit (s := S16384x1024) offA ![n, 1024] inbA) (fun _ => rfl)).view
                      (m ((c : Thread nD τ).loc main_arg0))))
                  Finset.univ))
              hc1)
            bitsLt_bf16_f32)
          hc2)
        Finset.univ i
      = XB m c i := by
  intro i hi
  obtain ⟨y, rfl⟩ := View.exists_emb_of_mem_set _ hi
  rw [View.write_emb_of_mem _ _ (Finset.mem_univ y)]
  subst hoff
  rw [shapeCast_self]
  unfold truncf
  rw [shapeCast_dropUnit_apply, View.readAt_apply, View.read_apply]
  have e : (Memref.whole cc0_scratch3 : Memref sig .tc .vmem S2x512x1024 .f32).view.emb
        ((Rect.unit (s := S2x512x1024) ![s, 0, 0] ![1, n, 1024] inb3).toLoadRect.idx (Fin.cons ⟨0, Nat.one_pos⟩ y))
      = (((Memref.whole cc0_scratch3 : Memref sig .tc .vmem S2x512x1024 .f32).slice (Rect.unit (s := S2x512x1024) ![s, 0, 0] ![1, n, 1024] inb3) (fun _ => rfl)).squeeze ⟨2, ![n, 1024]⟩ hsq).view.emb y := by
    show _ = (Rect.unit (s := S2x512x1024) ![s, 0, 0] ![1, n, 1024] inb3).emb (Shape.reshapeEquiv _ y)
    rw [Shape.reshapeEquiv_cons_one]; rfl
  rw [e, View.write_emb_of_mem _ _ (Finset.mem_univ y), ReadAs.apply_same, View.read_apply]
  simp only [cast_cast, cast_eq]
  unfold XB
  have ei : ((View.whole main_arg0 : View sig .tc _ _ _).slice (Rect.unit (s := S16384x1024) ![base c + o, 0] ![n, 1024] inbA)).emb y
      = rowIn (base c) (base_le c) (((Memref.whole cc0_scratch0 : Memref sig .tc .vmem S8192x1024 .bf16).access (Rect.unit (s := S8192x1024) ![o, 0] ![n, 1024] inbX)).emb y) := by
    funext a
    apply Fin.ext
    fin_cases a
    · show (base c + o) + 1 * (y 0 : ℕ) = base c + (o + 1 * (y 0 : ℕ)); omega
    · show 0 + 1 * (y 1 : ℕ) = 0 + 1 * (y 1 : ℕ); rfl
  rw [ei]

theorem sum_val (c : Dev nD) (n o : ℕ)
    (inbX : ∀ a, (![o, 0] : Fin 2 → ℕ) a + (⟨2, ![n, 1024]⟩ : Shape).size a ≤ S8192x1024.size a)
    (hc : (⟨2, ![n, 1024]⟩ : Shape).ShapeCasts ⟨2, ![n, 1024]⟩)
    (fx : Buf (Elt F) ((c : Thread nD τ).loc cc0_scratch0)) (fy : Buf (Elt F) ((c : Thread nD τ).loc cc0_scratch1))
    (fsm : Buf (Elt F) ((c : Thread nD τ).loc cc0_scratch2))
    (hx : ∀ i ∈ ((Memref.whole cc0_scratch0 : Memref sig .tc .vmem S8192x1024 .bf16).access (Rect.unit (s := S8192x1024) ![o, 0] ![n, 1024] inbX)).set, fx i = XB m c i)
    (hy : ∀ i ∈ ((Memref.whole cc0_scratch1 : Memref sig .tc .vmem S8192x1024 .bf16).access (Rect.unit (s := S8192x1024) ![o, 0] ![n, 1024] inbX)).set, fy i = YR m c i) :
    ∀ i ∈ ((Memref.whole cc0_scratch2 : Memref sig .tc .vmem S8192x1024 .bf16).access (Rect.unit (s := S8192x1024) ![o, 0] ![n, 1024] inbX)).set,
      View.write (Elt F) ((Memref.whole cc0_scratch2 : Memref sig .tc .vmem S8192x1024 .bf16).access (Rect.unit (s := S8192x1024) ![o, 0] ![n, 1024] inbX)) fsm
        (shapeCast ⟨2, ![n, 1024]⟩
          (addf
            (View.readAt (Elt F) (Memref.whole cc0_scratch0 : Memref sig .tc .vmem S8192x1024 .bf16).view
              (Rect.unit (s := S8192x1024) ![o, 0] ![n, 1024] inbX).toLoadRect fx : Vec F ⟨2, ![n, 1024]⟩ .bf16)
            (View.readAt (Elt F) (Memref.whole cc0_scratch1 : Memref sig .tc .vmem S8192x1024 .bf16).view
              (Rect.unit (s := S8192x1024) ![o, 0] ![n, 1024] inbX).toLoadRect fy : Vec F ⟨2, ![n, 1024]⟩ .bf16))
          hc)
        Finset.univ i
      = SUMv m c i := by
  intro i hi
  obtain ⟨y, rfl⟩ := View.exists_emb_of_mem_set _ hi
  rw [View.write_emb_of_mem _ _ (Finset.mem_univ y)]
  simp only [cast_eq]
  refine (congrFun (shapeCast_self (s := ⟨2, ![n, 1024]⟩) _ hc) y).trans ?_
  unfold addf SUMv
  rw [View.readAt_apply, View.readAt_apply, View.read_apply, View.read_apply]
  simp only [cast_eq]
  exact congrArg₂ _
    (hx _ (View.emb_mem_set ((Memref.whole cc0_scratch0 : Memref sig .tc .vmem S8192x1024 .bf16).access (Rect.unit (s := S8192x1024) ![o, 0] ![n, 1024] inbX)) y))
    (hy _ (View.emb_mem_set ((Memref.whole cc0_scratch1 : Memref sig .tc .vmem S8192x1024 .bf16).access (Rect.unit (s := S8192x1024) ![o, 0] ![n, 1024] inbX)) y))

theorem land_o_w (c : Dev nD) (k : Fin 18)
    (fn : Buf (Elt F) ((outM c k).view.loc (c : Thread nD τ))) (fs : Buf (Elt F) ((smM k).view.loc (c : Thread nD τ)))
    (hfs : ∀ i ∈ (smM k).view.set, fs i = SUMv m c i)
    (P : (SK k).Idx → Elt F .bf16) (hP : P = (smM k).view.read (Elt F) fs) :
    ∀ i ∈ (outM c k).view.set, (outM c k).view.writes (Elt F) fn [⟨Rect.whole (SK k), P⟩] i = OUT m c i := by
  intro i hi
  subst hP
  have key : (outM c k).view.writes (Elt F) fn [⟨Rect.whole (SK k), (smM k).view.read (Elt F) fs⟩] i
      = (outM c k).view.write (Elt F) fn ((smM k).view.read (Elt F) fs) Finset.univ i := by
    obtain ⟨y, rfl⟩ := View.exists_emb_of_mem_set (outM c k).view hi
    have e : ((outM c k).view.slice (Rect.whole (SK k))).emb y = (outM c k).view.emb y := by
      rw [View.emb_slice, Function.Embedding.trans_apply, Rect.emb_whole_apply]
    rw [View.writes_singleton, View.write_emb_of_mem _ _ (Finset.mem_univ y), ← e,
      View.write_emb_of_mem _ _ (Finset.mem_univ y)]
  rw [key]
  exact land_o m c k fn fs hfs i hi

end Cert.Kernel.AR

end
-- ==== Proof.Bits.Sends.lean ====
import proofs.«900140_g7700000000000141_dist_ar_v7x_xy2x2_y_m16384_n1024_bf16_1_alg».proof.Proof.Bits.Landing
import proofs.«900140_g7700000000000141_dist_ar_v7x_xy2x2_y_m16384_n1024_bf16_1_alg».proof.Proof.Gen.Kernel.Skeleton

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Column transfer `k` from the whole chunk, at contents that agree with the narrowed rows: the left half travels, the right half comes back. -/
theorem send_y (κ₁ κ₂ : ℕ) (c n : Dev nD) (hn : n = yn c) (k : Fin 18)
    {hsc : ((yrM k) : Memref sig (Dev.tc n : Thread nD τ).2.kind .vmem (SK k) .bf16).view.ref.isScScratch = false}
    {hsrc : (xbM k).view.WordExact} {hdst : (yrM k).view.WordExact}
    {hsem : DmaTarget.Typed .vmem (.dma (dsem 1 k)) (.remote (Dev.tc n : Thread nD τ) (yrM k) (.dma (dsem 0 k)) hsc)}
    {α : Type} {Q : α → sProp 𝕄} {kk : PUnit → Prog (TpuEff nD τ sig (Elt F) Λ₀ .tc) α}
    (fn : Buf (Elt F) ((yrM k).view.loc ((yn c : Dev nD) : Thread nD τ))) (fs : Buf (Elt F) ((xbM k).view.loc (c : Thread nD τ)))
    (hfs : ∀ i ∈ (xbM k).view.set, fs i = XB m c i)
    (O₀ O : CellTallies nD τ sig Unit) (hO : O₀ = O + tallyAt (dcell (yn c) 1 k) () (Ny k)) (W : Waits sig Unit) :
    iprop(owes (c : Thread nD τ) O₀ W
        ∗ ((xbM k).view.loc (c : Thread nD τ) ↦[(xbM k).view.set]{fullShare} fs)
        ∗ ((yrM k).view.loc ((yn c : Dev nD) : Thread nD τ) ↦[(yrM k).view.set]{fullShare} fn)
        ∗ cellInv ER (Rd m) κ₁ (dcell c 0 k) ∗ cellInv ER (Rd m) κ₂ (dcell (yn c) 1 k)
        ∗ dutyTok ER (dcell c 0 k) 0 false ∗ reached ER (dcell c 0 k) 0
        ∗ dutyTok ER (dcell (yn c) 1 k) 0 false ∗ reached ER (dcell (yn c) 1 k) 0)
      ⊢ iprop(((((xbM k).view.loc (c : Thread nD τ) ↦[(xbM k).view.set]{fullShare.right} XB m c)
              ∗ cred (tallyAt (dcell c 0 k) () (Ny k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xbM k) (.remote (Dev.tc n : Thread nD τ) (yrM k) (.dma (dsem 0 k)) hsc) (.dma (dsem 1 k)) hsrc hdst hsem) kk) Q) := by
  subst hn
  rw [pointsTo_congr hfs]
  iintro ⟨HO, Hs, Hn, #I1, #I2, T1, #R1, T2, #R2⟩ Hk
  ihave Hs := (pointsTo_share (PosShare.mem_left_op_right fullShare)).1 $$ Hs
  icases Hs with ⟨Hl, Hr⟩
  iapply (Rounds.wp_send_pointsTo 𝒱₀ ER (Rd m) (c : Thread nD τ) none (κ₁ := κ₁) (κ₂ := κ₂)
    (r₁ := 0) (r₂ := 0) (d₁ := false) (d₂ := false) (fd := fn) (fs := XB m c) (q := fullShare.left)
    (by rw [duties_fam]; exact Finset.mem_singleton_self _) (by rw [duties_fam]; exact Finset.mem_singleton_self _)
    () () (Ny k) rfl (amount_y m c 0 (by decide) k false) (amount_y m (yn c) 1 (by decide) k false) O hO (W := W)
    (by rw [payload_fam]; exact Entails.of_eq rfl)
    (by rw [payload_fam]
        show _ ⊢ ((yrM k).view.loc ((yn c : Dev nD) : Thread nD τ) ↦[(yrM k).view.set]{fullShare} YR m (yn c))
        rw [pointsTo_congr (land_y m c k fn (XB m c) (fun _ _ => rfl))])) $$ [Hl Hn HO T1 T2]
  · iframe I1 I2 R1 R2 ∗
  iintro ⟨Hc, HO⟩
  iapply Hk
  iframe

/-- Row transfer `k` from the whole chunk of sums, likewise. -/
theorem send_x (κ₁ κ₂ : ℕ) (c n : Dev nD) (hn : n = xn c) (k : Fin 18)
    {hsc : ((outM c k) : Memref sig (Dev.tc n : Thread nD τ).2.kind .hbm (SK k) .bf16).view.ref.isScScratch = false}
    {hsrc : (smM k).view.WordExact} {hdst : (outM c k).view.WordExact}
    {hsem : DmaTarget.Typed .vmem (.dma (dsem 3 k)) (.remote (Dev.tc n : Thread nD τ) (outM c k) (.dma (dsem 2 k)) hsc)}
    {α : Type} {Q : α → sProp 𝕄} {kk : PUnit → Prog (TpuEff nD τ sig (Elt F) Λ₀ .tc) α}
    (fn : Buf (Elt F) ((outM c k).view.loc ((xn c : Dev nD) : Thread nD τ))) (fs : Buf (Elt F) ((smM k).view.loc (c : Thread nD τ)))
    (hfs : ∀ i ∈ (smM k).view.set, fs i = SUMv m c i)
    (O₀ O : CellTallies nD τ sig Unit) (hO : O₀ = O + tallyAt (dcell (xn c) 3 k) () (Nx k)) (W : Waits sig Unit) :
    iprop(owes (c : Thread nD τ) O₀ W
        ∗ ((smM k).view.loc (c : Thread nD τ) ↦[(smM k).view.set]{fullShare} fs)
        ∗ ((outM c k).view.loc ((xn c : Dev nD) : Thread nD τ) ↦[(outM c k).view.set]{fullShare} fn)
        ∗ cellInv ER (Rd m) κ₁ (dcell c 2 k) ∗ cellInv ER (Rd m) κ₂ (dcell (xn c) 3 k)
        ∗ dutyTok ER (dcell c 2 k) 0 false ∗ reached ER (dcell c 2 k) 0
        ∗ dutyTok ER (dcell (xn c) 3 k) 0 false ∗ reached ER (dcell (xn c) 3 k) 0)
      ⊢ iprop(((((smM k).view.loc (c : Thread nD τ) ↦[(smM k).view.set]{fullShare.right} SUMv m c)
              ∗ cred (tallyAt (dcell c 2 k) () (Nx k)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (smM k) (.remote (Dev.tc n : Thread nD τ) (outM c k) (.dma (dsem 2 k)) hsc) (.dma (dsem 3 k)) hsrc hdst hsem) kk) Q) := by
  subst hn
  rw [pointsTo_congr hfs]
  iintro ⟨HO, Hs, Hn, #I1, #I2, T1, #R1, T2, #R2⟩ Hk
  ihave Hs := (pointsTo_share (PosShare.mem_left_op_right fullShare)).1 $$ Hs
  icases Hs with ⟨Hl, Hr⟩
  iapply (Rounds.wp_send_pointsTo 𝒱₀ ER (Rd m) (c : Thread nD τ) none (κ₁ := κ₁) (κ₂ := κ₂)
    (r₁ := 0) (r₂ := 0) (d₁ := false) (d₂ := false) (fd := fn) (fs := SUMv m c) (q := fullShare.left)
    (by rw [duties_fam]; exact Finset.mem_singleton_self _) (by rw [duties_fam]; exact Finset.mem_singleton_self _)
    () () (Nx k) rfl (amount_x m c 2 (by decide) k false) (amount_x m (xn c) 3 (by decide) k false) O hO (W := W)
    (by rw [payload_fam]; exact Entails.of_eq rfl)
    (by rw [payload_fam]
        show _ ⊢ ((outM (xn (xn c)) k).view.loc ((xn c : Dev nD) : Thread nD τ) ↦[(outM (xn (xn c)) k).view.set]{fullShare} OUT m (xn c))
        rw [xn_xn, pointsTo_congr (land_x m c k fn (SUMv m c) (fun _ _ => rfl))])) $$ [Hl Hn HO T1 T2]
  · iframe I1 I2 R1 R2 ∗
  iintro ⟨Hc, HO⟩
  iapply Hk
  iframe

end Cert.Kernel.AR

end
-- ==== Proof.Bits.Run.lean ====
import proofs.«900140_g7700000000000141_dist_ar_v7x_xy2x2_y_m16384_n1024_bf16_1_alg».proof.Proof.Bits.BodyDefs
import proofs.«900140_g7700000000000141_dist_ar_v7x_xy2x2_y_m16384_n1024_bf16_1_alg».proof.Proof.Bits.Incl
import proofs.«900140_g7700000000000141_dist_ar_v7x_xy2x2_y_m16384_n1024_bf16_1_alg».proof.Proof.Bits.Slots
import proofs.«900140_g7700000000000141_dist_ar_v7x_xy2x2_y_m16384_n1024_bf16_1_alg».proof.Proof.Bits.Vals
import proofs.«900140_g7700000000000141_dist_ar_v7x_xy2x2_y_m16384_n1024_bf16_1_alg».proof.Proof.Bits.Sends
import proofs.«900140_g7700000000000141_dist_ar_v7x_xy2x2_y_m16384_n1024_bf16_1_alg».proof.Proof.Gen.Kernel.Skeleton
import proofs.«900140_g7700000000000141_dist_ar_v7x_xy2x2_y_m16384_n1024_bf16_1_alg».proof.Proof.Gen.Kernel.Points
import proofs.«900140_g7700000000000141_dist_ar_v7x_xy2x2_y_m16384_n1024_bf16_1_alg».proof.Proof.Gen.Kernel.Frame

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

theorem bar_pay_split (c : Dev nD) : (bigSep Finset.univ fun d : Bool => (Rd (F := F) m).payload (barCell c) 0 d)
    = iprop(barPayY c ∗ barPayX c) := by
  have h := rest_bar (F := F) m c
  rwa [Finset.sdiff_empty, duties_bar] at h
theorem expect_bar' (c : Dev nD) : (Rd (F := F) m).expect (barCell c) 0 = 2 := expect_bar m c
theorem amount_f0 (c : Dev nD) (k : Fin 18) (d : Bool) : (Rd (F := F) m).amount (dcell c 0 k) 0 d = Ny k := amount_y m c 0 (by decide) k d
theorem amount_f1 (c : Dev nD) (k : Fin 18) (d : Bool) : (Rd (F := F) m).amount (dcell c 1 k) 0 d = Ny k := amount_y m c 1 (by decide) k d
theorem amount_f2 (c : Dev nD) (k : Fin 18) (d : Bool) : (Rd (F := F) m).amount (dcell c 2 k) 0 d = Nx k := amount_x m c 2 (by decide) k d
theorem amount_f3 (c : Dev nD) (k : Fin 18) (d : Bool) : (Rd (F := F) m).amount (dcell c 3 k) 0 d = Nx k := amount_x m c 3 (by decide) k d
theorem expect_f0 (c : Dev nD) (k : Fin 18) : (Rd (F := F) m).expect (dcell c 0 k) 0 = Ny k := expect_y m c 0 (by decide) k
theorem expect_f1 (c : Dev nD) (k : Fin 18) : (Rd (F := F) m).expect (dcell c 1 k) 0 = Ny k := expect_y m c 1 (by decide) k
theorem expect_f2 (c : Dev nD) (k : Fin 18) : (Rd (F := F) m).expect (dcell c 2 k) 0 = Nx k := expect_x m c 2 (by decide) k
theorem expect_f3 (c : Dev nD) (k : Fin 18) : (Rd (F := F) m).expect (dcell c 3 k) 0 = Nx k := expect_x m c 3 (by decide) k
theorem payload_f0 (c : Dev nD) (k : Fin 18) (d : Bool) : (Rd (F := F) m).payload (dcell c 0 k) 0 d
    = ((xbM k).view.loc (c : Thread nD τ) ↦[(xbM k).view.set]{fullShare.left} XB m c) := payload_fam m c 0 k d
theorem payload_f1 (c : Dev nD) (k : Fin 18) (d : Bool) : (Rd (F := F) m).payload (dcell c 1 k) 0 d
    = ((yrM k).view.loc (c : Thread nD τ) ↦[(yrM k).view.set]{fullShare} YR m c) := payload_fam m c 1 k d
theorem payload_f2 (c : Dev nD) (k : Fin 18) (d : Bool) : (Rd (F := F) m).payload (dcell c 2 k) 0 d
    = ((smM k).view.loc (c : Thread nD τ) ↦[(smM k).view.set]{fullShare.left} SUMv m c) := payload_fam m c 2 k d
theorem payload_f3 (c : Dev nD) (k : Fin 18) (d : Bool) : (Rd (F := F) m).payload (dcell c 3 k) 0 d
    = ((outM (xn c) k).view.loc (c : Thread nD τ) ↦[(outM (xn c) k).view.set]{fullShare} OUT m c) := payload_fam m c 3 k d

theorem restate_ob (c : Dev nD) (k : Fin 18) (q : PosShare TreeShare) (f : Buf (Elt F) ((outM c k).view.loc (c : Thread nD τ)))
    (h : ∀ i ∈ (outM c k).view.set, f i = OUT m c i) :
    ((outM c k).view.loc (c : Thread nD τ) ↦[(outM c k).view.set]{q} f : sProp 𝕄) ⊢ ((outM c k).view.loc (c : Thread nD τ) ↦[(outM c k).view.set]{q} OUT m c) :=
  Entails.of_eq (pointsTo_congr h)

theorem owes_end (c : Dev nD) (W : Waits sig Unit) : (owes (c : Thread nD τ) (Oy c 18 + Ox c 18) W : sProp 𝕄) ⊢ owes (c : Thread nD τ) 0 W :=
  Entails.of_eq (by rw [Oy_end, Ox_end, add_zero])

theorem owe_y (c : Dev nD) (k : Fin 18) (i : ℕ) :
    Oy c k.val + Ox c i = (Oy c (k.val + 1) + Ox c i) + tallyAt (dcell (yn c) 1 k) () (Ny k) := by
  rw [Oy_succ c k, add_right_comm]
theorem owe_x (c : Dev nD) (j : ℕ) (k : Fin 18) :
    Oy c j + Ox c k.val = (Oy c j + Ox c (k.val + 1)) + tallyAt (dcell (xn c) 3 k) () (Nx k) := by
  rw [Ox_succ c k, add_assoc]

attribute [local sl_rounds] duties_bar amount_bar expect_bar' duties_fam
  amount_f0 amount_f1 amount_f2 amount_f3 expect_f0 expect_f1 expect_f2 expect_f3 payload_f0 payload_f1 payload_f2 payload_f3

set_option maxHeartbeats 40000000 in
set_option sl_exec.stepHeartbeats 1000000 in
/-- One device's body in program order: two barrier signals, thirty-six transfers, and at the end every piece where `bodyPost` wants it. -/
theorem sound_body (c : Dev nD) (K : Dev nD × Fin 73 → ℕ) (W : Waits sig Unit)
    (f3 : Buf (Elt F) ((c : Thread nD τ).loc cc0_scratch3)) (fxb : Buf (Elt F) ((c : Thread nD τ).loc cc0_scratch0))
    (fsm : Buf (Elt F) ((c : Thread nD τ).loc cc0_scratch2)) (fyr : Buf (Elt F) ((c : Thread nD τ).loc cc0_scratch1))
    (fo : Buf (Elt F) ((c : Thread nD τ).loc main_v1)) :
    bodyPre m c K W f3 fxb fsm fyr fo
      ⊢ wp frame (wpE (defs₀ (F := F)) 𝒱₀ (c : Thread nD τ) none) Set.univ
          (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9)
          (fun _ => bodyPost m c) := by
  unfold bodyPre sep18 sep20 w0_128 w0_512 w1_384 w1_512
  beta_reduce
  iintro ⟨⟨#HIb, #HIby, #HIbx, ⟨#HI0_0, #HI0_1, #HI0_2, #HI0_3, #HI0_4, #HI0_5, #HI0_6, #HI0_7, #HI0_8, #HI0_9, #HI0_10, #HI0_11, #HI0_12, #HI0_13, #HI0_14, #HI0_15, #HI0_16, #HI0_17⟩, ⟨#HI1_0, #HI1_1, #HI1_2, #HI1_3, #HI1_4, #HI1_5, #HI1_6, #HI1_7, #HI1_8, #HI1_9, #HI1_10, #HI1_11, #HI1_12, #HI1_13, #HI1_14, #HI1_15, #HI1_16, #HI1_17⟩, ⟨#HI2_0, #HI2_1, #HI2_2, #HI2_3, #HI2_4, #HI2_5, #HI2_6, #HI2_7, #HI2_8, #HI2_9, #HI2_10, #HI2_11, #HI2_12, #HI2_13, #HI2_14, #HI2_15, #HI2_16, #HI2_17⟩, ⟨#HI3_0, #HI3_1, #HI3_2, #HI3_3, #HI3_4, #HI3_5, #HI3_6, #HI3_7, #HI3_8, #HI3_9, #HI3_10, #HI3_11, #HI3_12, #HI3_13, #HI3_14, #HI3_15, #HI3_16, #HI3_17⟩, ⟨#HIy_0, #HIy_1, #HIy_2, #HIy_3, #HIy_4, #HIy_5, #HIy_6, #HIy_7, #HIy_8, #HIy_9, #HIy_10, #HIy_11, #HIy_12, #HIy_13, #HIy_14, #HIy_15, #HIy_16, #HIy_17⟩, ⟨#HIx_0, #HIx_1, #HIx_2, #HIx_3, #HIx_4, #HIx_5, #HIx_6, #HIx_7, #HIx_8, #HIx_9, #HIx_10, #HIx_11, #HIx_12, #HIx_13, #HIx_14, #HIx_15, #HIx_16, #HIx_17⟩⟩, ⟨#Hrby, #Hrbx, ⟨#Hry_0, #Hry_1, #Hry_2, #Hry_3, #Hry_4, #Hry_5, #Hry_6, #Hry_7, #Hry_8, #Hry_9, #Hry_10, #Hry_11, #Hry_12, #Hry_13, #Hry_14, #Hry_15, #Hry_16, #Hry_17⟩, ⟨#Hrx_0, #Hrx_1, #Hrx_2, #Hrx_3, #Hrx_4, #Hrx_5, #Hrx_6, #Hrx_7, #Hrx_8, #Hrx_9, #Hrx_10, #Hrx_11, #Hrx_12, #Hrx_13, #Hrx_14, #Hrx_15, #Hrx_16, #Hrx_17⟩, ⟨#Hr0_0, #Hr0_1, #Hr0_2, #Hr0_3, #Hr0_4, #Hr0_5, #Hr0_6, #Hr0_7, #Hr0_8, #Hr0_9, #Hr0_10, #Hr0_11, #Hr0_12, #Hr0_13, #Hr0_14, #Hr0_15, #Hr0_16, #Hr0_17⟩, ⟨#Hr2_0, #Hr2_1, #Hr2_2, #Hr2_3, #Hr2_4, #Hr2_5, #Hr2_6, #Hr2_7, #Hr2_8, #Hr2_9, #Hr2_10, #Hr2_11, #Hr2_12, #Hr2_13, #Hr2_14, #Hr2_15, #Hr2_16, #Hr2_17⟩⟩, #Hlev, HO, ⟨Htby, Htbx, ⟨Hty_0, Hty_1, Hty_2, Hty_3, Hty_4, Hty_5, Hty_6, Hty_7, Hty_8, Hty_9, Hty_10, Hty_11, Hty_12, Hty_13, Hty_14, Hty_15, Hty_16, Hty_17⟩, ⟨Htx_0, Htx_1, Htx_2, Htx_3, Htx_4, Htx_5, Htx_6, Htx_7, Htx_8, Htx_9, Htx_10, Htx_11, Htx_12, Htx_13, Htx_14, Htx_15, Htx_16, Htx_17⟩, ⟨Ht0_0, Ht0_1, Ht0_2, Ht0_3, Ht0_4, Ht0_5, Ht0_6, Ht0_7, Ht0_8, Ht0_9, Ht0_10, Ht0_11, Ht0_12, Ht0_13, Ht0_14, Ht0_15, Ht0_16, Ht0_17⟩, ⟨Ht2_0, Ht2_1, Ht2_2, Ht2_3, Ht2_4, Ht2_5, Ht2_6, Ht2_7, Ht2_8, Ht2_9, Ht2_10, Ht2_11, Ht2_12, Ht2_13, Ht2_14, Ht2_15, Ht2_16, Ht2_17⟩⟩, ⟨Hatb, ⟨Hat0_0, Hat0_1, Hat0_2, Hat0_3, Hat0_4, Hat0_5, Hat0_6, Hat0_7, Hat0_8, Hat0_9, Hat0_10, Hat0_11, Hat0_12, Hat0_13, Hat0_14, Hat0_15, Hat0_16, Hat0_17⟩, ⟨Hat1_0, Hat1_1, Hat1_2, Hat1_3, Hat1_4, Hat1_5, Hat1_6, Hat1_7, Hat1_8, Hat1_9, Hat1_10, Hat1_11, Hat1_12, Hat1_13, Hat1_14, Hat1_15, Hat1_16, Hat1_17⟩, ⟨Hat2_0, Hat2_1, Hat2_2, Hat2_3, Hat2_4, Hat2_5, Hat2_6, Hat2_7, Hat2_8, Hat2_9, Hat2_10, Hat2_11, Hat2_12, Hat2_13, Hat2_14, Hat2_15, Hat2_16, Hat2_17⟩, ⟨Hat3_0, Hat3_1, Hat3_2, Hat3_3, Hat3_4, Hat3_5, Hat3_6, Hat3_7, Hat3_8, Hat3_9, Hat3_10, Hat3_11, Hat3_12, Hat3_13, Hat3_14, Hat3_15, Hat3_16, Hat3_17⟩⟩, ⟨Hcb, ⟨Hc1_0, Hc1_1, Hc1_2, Hc1_3, Hc1_4, Hc1_5, Hc1_6, Hc1_7, Hc1_8, Hc1_9, Hc1_10, Hc1_11, Hc1_12, Hc1_13, Hc1_14, Hc1_15, Hc1_16, Hc1_17⟩, ⟨Hc3_0, Hc3_1, Hc3_2, Hc3_3, Hc3_4, Hc3_5, Hc3_6, Hc3_7, Hc3_8, Hc3_9, Hc3_10, Hc3_11, Hc3_12, Hc3_13, Hc3_14, Hc3_15, Hc3_16, Hc3_17⟩⟩, ⟨Hs_0, Hs_1, Hs_2, Hs_3, Hs_4, Hs_5, Hs_6, Hs_7, Hs_8, Hs_9, Hs_10, Hs_11, Hs_12, Hs_13, Hs_14, Hs_15, Hs_16, Hs_17, Hs_18, Hs_19⟩, Hx, ⟨Hf30, Hf30r, Hf31, Hf31r⟩, ⟨Hxb_0, Hxb_1, Hxb_2, Hxb_3, Hxb_4, Hxb_5, Hxb_6, Hxb_7, Hxb_8, Hxb_9, Hxb_10, Hxb_11, Hxb_12, Hxb_13, Hxb_14, Hxb_15, Hxb_16, Hxb_17⟩, ⟨Hsm_0, Hsm_1, Hsm_2, Hsm_3, Hsm_4, Hsm_5, Hsm_6, Hsm_7, Hsm_8, Hsm_9, Hsm_10, Hsm_11, Hsm_12, Hsm_13, Hsm_14, Hsm_15, Hsm_16, Hsm_17⟩, ⟨Hyr_0, Hyr_1, Hyr_2, Hyr_3, Hyr_4, Hyr_5, Hyr_6, Hyr_7, Hyr_8, Hyr_9, Hyr_10, Hyr_11, Hyr_12, Hyr_13, Hyr_14, Hyr_15, Hyr_16, Hyr_17⟩, ⟨Hob_0, Hob_1, Hob_2, Hob_3, Hob_4, Hob_5, Hob_6, Hob_7, Hob_8, Hob_9, Hob_10, Hob_11, Hob_12, Hob_13, Hob_14, Hob_15, Hob_16, Hob_17⟩, ⟨Hoo_0, Hoo_1, Hoo_2, Hoo_3, Hoo_4, Hoo_5, Hoo_6, Hoo_7, Hoo_8, Hoo_9, Hoo_10, Hoo_11, Hoo_12, Hoo_13, Hoo_14, Hoo_15, Hoo_16, Hoo_17⟩⟩
  unfold O₀ O₁
  have hmw := mayWait_bar (F := F) c
  have hlow : ∀ (q : DmaSem sig) (hq : lv (((c : Thread nD τ), .dma q) : GSem nD τ sig) () = 0) (j i : ℕ),
      (levAts L lv : sProp 𝕄) ⊢ MayWait (c : Thread nD τ) (.dma q) () (Oy c j + Ox c i) := fun q hq j i => mayWait_low (F := F) c q hq j i
  have hyr : ∀ (k : Fin 18) (j i : ℕ) (hj : k.val < j),
      (levAts L lv : sProp 𝕄) ⊢ MayWait (c : Thread nD τ) (.dma (dsem 1 k)) () (Oy c j + Ox c i) := fun k j i hj => mayWait_yrecv (F := F) c k j i hj
  sl_exec_parts
  iapply (Rounds.wp_signal 𝒱₀ ER (Rd m) (c : Thread nD τ) none (dst := ((yn c : Dev nD) : Thread nD τ)) (κ := K (yn c, 0))
      (d := false) (by rw [duties_bar]; exact Finset.mem_univ _) ((amount_bar m (yn c) false).trans (by decide)) ()
      (Oy c 0 + Ox c 0 + tallyAt (barCell (xn c)) () 1) rfl)
    $$ [HO Htby Hyr_0 Hyr_1 Hyr_2 Hyr_3 Hyr_4 Hyr_5 Hyr_6 Hyr_7 Hyr_8 Hyr_9 Hyr_10 Hyr_11 Hyr_12 Hyr_13 Hyr_14 Hyr_15 Hyr_16 Hyr_17]
  · isplitr; · iexact HIby
    isplitl [HO]; · iexact HO
    isplitl [Htby]; · iexact Htby
    isplitr [Hrby]
    · rw [payload_bar_false]; unfold barPayY; rw [bigSep_fin18, yn_yn]
      isplitl [Hyr_0]; · iexists fyr; iexact Hyr_0
      isplitl [Hyr_1]; · iexists fyr; iexact Hyr_1
      isplitl [Hyr_2]; · iexists fyr; iexact Hyr_2
      isplitl [Hyr_3]; · iexists fyr; iexact Hyr_3
      isplitl [Hyr_4]; · iexists fyr; iexact Hyr_4
      isplitl [Hyr_5]; · iexists fyr; iexact Hyr_5
      isplitl [Hyr_6]; · iexists fyr; iexact Hyr_6
      isplitl [Hyr_7]; · iexists fyr; iexact Hyr_7
      isplitl [Hyr_8]; · iexists fyr; iexact Hyr_8
      isplitl [Hyr_9]; · iexists fyr; iexact Hyr_9
      isplitl [Hyr_10]; · iexists fyr; iexact Hyr_10
      isplitl [Hyr_11]; · iexists fyr; iexact Hyr_11
      isplitl [Hyr_12]; · iexists fyr; iexact Hyr_12
      isplitl [Hyr_13]; · iexists fyr; iexact Hyr_13
      isplitl [Hyr_14]; · iexists fyr; iexact Hyr_14
      isplitl [Hyr_15]; · iexists fyr; iexact Hyr_15
      isplitl [Hyr_16]; · iexists fyr; iexact Hyr_16
      iexists fyr; iexact Hyr_17
    · iexact Hrby
  iintro HO
  sl_exec_parts
  iapply (Rounds.wp_signal 𝒱₀ ER (Rd m) (c : Thread nD τ) none (dst := ((xn c : Dev nD) : Thread nD τ)) (κ := K (xn c, 0))
      (d := true) (by rw [duties_bar]; exact Finset.mem_univ _) ((amount_bar m (xn c) true).trans (by decide)) ()
      (Oy c 0 + Ox c 0) rfl)
    $$ [HO Htbx Hoo_0 Hoo_1 Hoo_2 Hoo_3 Hoo_4 Hoo_5 Hoo_6 Hoo_7 Hoo_8 Hoo_9 Hoo_10 Hoo_11 Hoo_12 Hoo_13 Hoo_14 Hoo_15 Hoo_16 Hoo_17]
  · isplitr; · iexact HIbx
    isplitl [HO]; · iexact HO
    isplitl [Htbx]; · iexact Htbx
    isplitr [Hrbx]
    · rw [payload_bar_true]; unfold barPayX; rw [bigSep_fin18, xn_xn]
      isplitl [Hoo_0]; · iexists fo; iexact Hoo_0
      isplitl [Hoo_1]; · iexists fo; iexact Hoo_1
      isplitl [Hoo_2]; · iexists fo; iexact Hoo_2
      isplitl [Hoo_3]; · iexists fo; iexact Hoo_3
      isplitl [Hoo_4]; · iexists fo; iexact Hoo_4
      isplitl [Hoo_5]; · iexists fo; iexact Hoo_5
      isplitl [Hoo_6]; · iexists fo; iexact Hoo_6
      isplitl [Hoo_7]; · iexists fo; iexact Hoo_7
      isplitl [Hoo_8]; · iexists fo; iexact Hoo_8
      isplitl [Hoo_9]; · iexists fo; iexact Hoo_9
      isplitl [Hoo_10]; · iexists fo; iexact Hoo_10
      isplitl [Hoo_11]; · iexists fo; iexact Hoo_11
      isplitl [Hoo_12]; · iexists fo; iexact Hoo_12
      isplitl [Hoo_13]; · iexists fo; iexact Hoo_13
      isplitl [Hoo_14]; · iexists fo; iexact Hoo_14
      isplitl [Hoo_15]; · iexists fo; iexact Hoo_15
      isplitl [Hoo_16]; · iexists fo; iexact Hoo_16
      iexists fo; iexact Hoo_17
    · iexact Hrbx
  iintro HO
  sl_exec_parts
  ihave Hp := (Entails.of_eq (bar_pay_split m c)) $$ Hatb_pay1
  conv in barPayY c => unfold barPayY; rw [bigSep_fin18]
  conv in barPayX c => unfold barPayX; rw [bigSep_fin18]
  icases Hp with ⟨⟨⟨%fyn0, Hyn_0⟩, ⟨%fyn1, Hyn_1⟩, ⟨%fyn2, Hyn_2⟩, ⟨%fyn3, Hyn_3⟩, ⟨%fyn4, Hyn_4⟩, ⟨%fyn5, Hyn_5⟩, ⟨%fyn6, Hyn_6⟩, ⟨%fyn7, Hyn_7⟩, ⟨%fyn8, Hyn_8⟩, ⟨%fyn9, Hyn_9⟩, ⟨%fyn10, Hyn_10⟩, ⟨%fyn11, Hyn_11⟩, ⟨%fyn12, Hyn_12⟩, ⟨%fyn13, Hyn_13⟩, ⟨%fyn14, Hyn_14⟩, ⟨%fyn15, Hyn_15⟩, ⟨%fyn16, Hyn_16⟩, ⟨%fyn17, Hyn_17⟩⟩, ⟨⟨%fxn0, Hxn_0⟩, ⟨%fxn1, Hxn_1⟩, ⟨%fxn2, Hxn_2⟩, ⟨%fxn3, Hxn_3⟩, ⟨%fxn4, Hxn_4⟩, ⟨%fxn5, Hxn_5⟩, ⟨%fxn6, Hxn_6⟩, ⟨%fxn7, Hxn_7⟩, ⟨%fxn8, Hxn_8⟩, ⟨%fxn9, Hxn_9⟩, ⟨%fxn10, Hxn_10⟩, ⟨%fxn11, Hxn_11⟩, ⟨%fxn12, Hxn_12⟩, ⟨%fxn13, Hxn_13⟩, ⟨%fxn14, Hxn_14⟩, ⟨%fxn15, Hxn_15⟩, ⟨%fxn16, Hxn_16⟩, ⟨%fxn17, Hxn_17⟩⟩⟩
  iapply (send_y m (K (c, famIx 0 0)) (K (yn c, famIx 1 0)) c _ (dev3_eq c) 0 fyn0 _ (narrow_val m c 128 0 0 _ _ _ (outOff_eq c 0) _ _ _ _ _ _) (Oy c 0 + Ox c 0) (Oy c 1 + Ox c 0) (owe_y c 0 0) _) $$ [Hxb_0 Hyn_0 HO Ht0_0 Hty_0]
  · isplitl [HO]; · iexact HO
    isplitl [Hxb_0]; · iexact Hxb_0
    iframe HI0_0 HIy_0 Hr0_0 Hry_0 ∗
  iintro ⟨Hxbr_0, Hcs0_0, HO⟩
  ihave Hj := (slot_join_0_128 c _ _) $$ [Hf30 Hf30r]
  · isplitl [Hf30]; · iexact Hf30
    iexact Hf30r
  icases Hj with ⟨%fj0, Hf30⟩
  sl_exec_parts
  iapply (send_y m (K (c, famIx 0 1)) (K (yn c, famIx 1 1)) c _ (dev4_eq c) 1 fyn1 _ (narrow_val m c 384 128 1 _ _ _ (outOff_eq c 1) _ _ _ _ _ _) (Oy c 1 + Ox c 0) (Oy c 2 + Ox c 0) (owe_y c 1 0) _) $$ [Hxb_1 Hyn_1 HO Ht0_1 Hty_1]
  · isplitl [HO]; · iexact HO
    isplitl [Hxb_1]; · iexact Hxb_1
    iframe HI0_1 HIy_1 Hr0_1 Hry_1 ∗
  iintro ⟨Hxbr_1, Hcs0_1, HO⟩
  sl_exec_parts
  iapply (send_x m (K (c, famIx 2 0)) (K (xn c, famIx 3 0)) c _ (dev5_eq c) 0 fxn0 _ (sum_val m c 128 0 _ _ _ _ _ (fun _ _ => rfl) (fun _ _ => rfl)) (Oy c 2 + Ox c 0) (Oy c 2 + Ox c 1) (owe_x c 2 0) _) $$ [Hsm_0 Hxn_0 HO Ht2_0 Htx_0]
  · isplitl [HO]; · iexact HO
    isplitl [Hsm_0]; · iexact Hsm_0
    iframe HI2_0 HIx_0 Hr2_0 Hrx_0 ∗
  iintro ⟨Hsmr_0, Hcs2_0, HO⟩
  ihave Hj := (slot_join_1_384 c _ _) $$ [Hf31 Hf31r]
  · isplitl [Hf31]; · iexact Hf31
    iexact Hf31r
  icases Hj with ⟨%fj1, Hf31⟩
  sl_exec_parts
  iapply (send_y m (K (c, famIx 0 2)) (K (yn c, famIx 1 2)) c _ (dev6_eq c) 2 fyn2 _ (narrow_val m c 512 512 0 _ _ _ (outOff_eq c 2) _ _ _ _ _ _) (Oy c 2 + Ox c 1) (Oy c 3 + Ox c 1) (owe_y c 2 1) _) $$ [Hxb_2 Hyn_2 HO Ht0_2 Hty_2]
  · isplitl [HO]; · iexact HO
    isplitl [Hxb_2]; · iexact Hxb_2
    iframe HI0_2 HIy_2 Hr0_2 Hry_2 ∗
  iintro ⟨Hxbr_2, Hcs0_2, HO⟩
  sl_exec_parts
  iapply (send_x m (K (c, famIx 2 1)) (K (xn c, famIx 3 1)) c _ (dev7_eq c) 1 fxn1 _ (sum_val m c 384 128 _ _ _ _ _ (fun _ _ => rfl) (fun _ _ => rfl)) (Oy c 3 + Ox c 1) (Oy c 3 + Ox c 2) (owe_x c 3 1) _) $$ [Hsm_1 Hxn_1 HO Ht2_1 Htx_1]
  · isplitl [HO]; · iexact HO
    isplitl [Hsm_1]; · iexact Hsm_1
    iframe HI2_1 HIx_1 Hr2_1 Hrx_1 ∗
  iintro ⟨Hsmr_1, Hcs2_1, HO⟩
  sl_exec_parts
  iapply (send_y m (K (c, famIx 0 3)) (K (yn c, famIx 1 3)) c _ (dev8_eq c) 3 fyn3 _ (narrow_val m c 512 1024 1 _ _ _ (outOff_eq c 3) _ _ _ _ _ _) (Oy c 3 + Ox c 2) (Oy c 4 + Ox c 2) (owe_y c 3 2) _) $$ [Hxb_3 Hyn_3 HO Ht0_3 Hty_3]
  · isplitl [HO]; · iexact HO
    isplitl [Hxb_3]; · iexact Hxb_3
    iframe HI0_3 HIy_3 Hr0_3 Hry_3 ∗
  iintro ⟨Hxbr_3, Hcs0_3, HO⟩
  sl_exec_parts
  iapply (send_x m (K (c, famIx 2 2)) (K (xn c, famIx 3 2)) c _ (dev9_eq c) 2 fxn2 _ (sum_val m c 512 512 _ _ _ _ _ (fun _ _ => rfl) (fun _ _ => rfl)) (Oy c 4 + Ox c 2) (Oy c 4 + Ox c 3) (owe_x c 4 2) _) $$ [Hsm_2 Hxn_2 HO Ht2_2 Htx_2]
  · isplitl [HO]; · iexact HO
    isplitl [Hsm_2]; · iexact Hsm_2
    iframe HI2_2 HIx_2 Hr2_2 Hrx_2 ∗
  iintro ⟨Hsmr_2, Hcs2_2, HO⟩
  sl_exec_parts
  iapply (send_y m (K (c, famIx 0 4)) (K (yn c, famIx 1 4)) c _ (dev10_eq c) 4 fyn4 _ (narrow_val m c 512 1536 0 _ _ _ (outOff_eq c 4) _ _ _ _ _ _) (Oy c 4 + Ox c 3) (Oy c 5 + Ox c 3) (owe_y c 4 3) _) $$ [Hxb_4 Hyn_4 HO Ht0_4 Hty_4]
  · isplitl [HO]; · iexact HO
    isplitl [Hxb_4]; · iexact Hxb_4
    iframe HI0_4 HIy_4 Hr0_4 Hry_4 ∗
  iintro ⟨Hxbr_4, Hcs0_4, HO⟩
  sl_exec_parts
  iapply (send_x m (K (c, famIx 2 3)) (K (xn c, famIx 3 3)) c _ (dev11_eq c) 3 fxn3 _ (sum_val m c 512 1024 _ _ _ _ _ (fun _ _ => rfl) (fun _ _ => rfl)) (Oy c 5 + Ox c 3) (Oy c 5 + Ox c 4) (owe_x c 5 3) _) $$ [Hsm_3 Hxn_3 HO Ht2_3 Htx_3]
  · isplitl [HO]; · iexact HO
    isplitl [Hsm_3]; · iexact Hsm_3
    iframe HI2_3 HIx_3 Hr2_3 Hrx_3 ∗
  iintro ⟨Hsmr_3, Hcs2_3, HO⟩
  sl_exec_parts
  iapply (send_y m (K (c, famIx 0 5)) (K (yn c, famIx 1 5)) c _ (dev12_eq c) 5 fyn5 _ (narrow_val m c 512 2048 1 _ _ _ (outOff_eq c 5) _ _ _ _ _ _) (Oy c 5 + Ox c 4) (Oy c 6 + Ox c 4) (owe_y c 5 4) _) $$ [Hxb_5 Hyn_5 HO Ht0_5 Hty_5]
  · isplitl [HO]; · iexact HO
    isplitl [Hxb_5]; · iexact Hxb_5
    iframe HI0_5 HIy_5 Hr0_5 Hry_5 ∗
  iintro ⟨Hxbr_5, Hcs0_5, HO⟩
  sl_exec_parts
  iapply (send_x m (K (c, famIx 2 4)) (K (xn c, famIx 3 4)) c _ (dev13_eq c) 4 fxn4 _ (sum_val m c 512 1536 _ _ _ _ _ (fun _ _ => rfl) (fun _ _ => rfl)) (Oy c 6 + Ox c 4) (Oy c 6 + Ox c 5) (owe_x c 6 4) _) $$ [Hsm_4 Hxn_4 HO Ht2_4 Htx_4]
  · isplitl [HO]; · iexact HO
    isplitl [Hsm_4]; · iexact Hsm_4
    iframe HI2_4 HIx_4 Hr2_4 Hrx_4 ∗
  iintro ⟨Hsmr_4, Hcs2_4, HO⟩
  sl_exec_parts
  iapply (send_y m (K (c, famIx 0 6)) (K (yn c, famIx 1 6)) c _ (dev14_eq c) 6 fyn6 _ (narrow_val m c 512 2560 0 _ _ _ (outOff_eq c 6) _ _ _ _ _ _) (Oy c 6 + Ox c 5) (Oy c 7 + Ox c 5) (owe_y c 6 5) _) $$ [Hxb_6 Hyn_6 HO Ht0_6 Hty_6]
  · isplitl [HO]; · iexact HO
    isplitl [Hxb_6]; · iexact Hxb_6
    iframe HI0_6 HIy_6 Hr0_6 Hry_6 ∗
  iintro ⟨Hxbr_6, Hcs0_6, HO⟩
  sl_exec_parts
  iapply (send_x m (K (c, famIx 2 5)) (K (xn c, famIx 3 5)) c _ (dev15_eq c) 5 fxn5 _ (sum_val m c 512 2048 _ _ _ _ _ (fun _ _ => rfl) (fun _ _ => rfl)) (Oy c 7 + Ox c 5) (Oy c 7 + Ox c 6) (owe_x c 7 5) _) $$ [Hsm_5 Hxn_5 HO Ht2_5 Htx_5]
  · isplitl [HO]; · iexact HO
    isplitl [Hsm_5]; · iexact Hsm_5
    iframe HI2_5 HIx_5 Hr2_5 Hrx_5 ∗
  iintro ⟨Hsmr_5, Hcs2_5, HO⟩
  sl_exec_parts
  iapply (send_y m (K (c, famIx 0 7)) (K (yn c, famIx 1 7)) c _ (dev16_eq c) 7 fyn7 _ (narrow_val m c 512 3072 1 _ _ _ (outOff_eq c 7) _ _ _ _ _ _) (Oy c 7 + Ox c 6) (Oy c 8 + Ox c 6) (owe_y c 7 6) _) $$ [Hxb_7 Hyn_7 HO Ht0_7 Hty_7]
  · isplitl [HO]; · iexact HO
    isplitl [Hxb_7]; · iexact Hxb_7
    iframe HI0_7 HIy_7 Hr0_7 Hry_7 ∗
  iintro ⟨Hxbr_7, Hcs0_7, HO⟩
  sl_exec_parts
  iapply (send_x m (K (c, famIx 2 6)) (K (xn c, famIx 3 6)) c _ (dev17_eq c) 6 fxn6 _ (sum_val m c 512 2560 _ _ _ _ _ (fun _ _ => rfl) (fun _ _ => rfl)) (Oy c 8 + Ox c 6) (Oy c 8 + Ox c 7) (owe_x c 8 6) _) $$ [Hsm_6 Hxn_6 HO Ht2_6 Htx_6]
  · isplitl [HO]; · iexact HO
    isplitl [Hsm_6]; · iexact Hsm_6
    iframe HI2_6 HIx_6 Hr2_6 Hrx_6 ∗
  iintro ⟨Hsmr_6, Hcs2_6, HO⟩
  sl_exec_parts
  iapply (send_y m (K (c, famIx 0 8)) (K (yn c, famIx 1 8)) c _ (dev18_eq c) 8 fyn8 _ (narrow_val m c 512 3584 0 _ _ _ (outOff_eq c 8) _ _ _ _ _ _) (Oy c 8 + Ox c 7) (Oy c 9 + Ox c 7) (owe_y c 8 7) _) $$ [Hxb_8 Hyn_8 HO Ht0_8 Hty_8]
  · isplitl [HO]; · iexact HO
    isplitl [Hxb_8]; · iexact Hxb_8
    iframe HI0_8 HIy_8 Hr0_8 Hry_8 ∗
  iintro ⟨Hxbr_8, Hcs0_8, HO⟩
  sl_exec_parts
  iapply (send_x m (K (c, famIx 2 7)) (K (xn c, famIx 3 7)) c _ (dev19_eq c) 7 fxn7 _ (sum_val m c 512 3072 _ _ _ _ _ (fun _ _ => rfl) (fun _ _ => rfl)) (Oy c 9 + Ox c 7) (Oy c 9 + Ox c 8) (owe_x c 9 7) _) $$ [Hsm_7 Hxn_7 HO Ht2_7 Htx_7]
  · isplitl [HO]; · iexact HO
    isplitl [Hsm_7]; · iexact Hsm_7
    iframe HI2_7 HIx_7 Hr2_7 Hrx_7 ∗
  iintro ⟨Hsmr_7, Hcs2_7, HO⟩
  sl_exec_parts
  iapply (send_y m (K (c, famIx 0 9)) (K (yn c, famIx 1 9)) c _ (dev20_eq c) 9 fyn9 _ (narrow_val m c 512 4096 1 _ _ _ (outOff_eq c 9) _ _ _ _ _ _) (Oy c 9 + Ox c 8) (Oy c 10 + Ox c 8) (owe_y c 9 8) _) $$ [Hxb_9 Hyn_9 HO Ht0_9 Hty_9]
  · isplitl [HO]; · iexact HO
    isplitl [Hxb_9]; · iexact Hxb_9
    iframe HI0_9 HIy_9 Hr0_9 Hry_9 ∗
  iintro ⟨Hxbr_9, Hcs0_9, HO⟩
  sl_exec_parts
  iapply (send_x m (K (c, famIx 2 8)) (K (xn c, famIx 3 8)) c _ (dev21_eq c) 8 fxn8 _ (sum_val m c 512 3584 _ _ _ _ _ (fun _ _ => rfl) (fun _ _ => rfl)) (Oy c 10 + Ox c 8) (Oy c 10 + Ox c 9) (owe_x c 10 8) _) $$ [Hsm_8 Hxn_8 HO Ht2_8 Htx_8]
  · isplitl [HO]; · iexact HO
    isplitl [Hsm_8]; · iexact Hsm_8
    iframe HI2_8 HIx_8 Hr2_8 Hrx_8 ∗
  iintro ⟨Hsmr_8, Hcs2_8, HO⟩
  sl_exec_parts
  iapply (send_y m (K (c, famIx 0 10)) (K (yn c, famIx 1 10)) c _ (dev22_eq c) 10 fyn10 _ (narrow_val m c 512 4608 0 _ _ _ (outOff_eq c 10) _ _ _ _ _ _) (Oy c 10 + Ox c 9) (Oy c 11 + Ox c 9) (owe_y c 10 9) _) $$ [Hxb_10 Hyn_10 HO Ht0_10 Hty_10]
  · isplitl [HO]; · iexact HO
    isplitl [Hxb_10]; · iexact Hxb_10
    iframe HI0_10 HIy_10 Hr0_10 Hry_10 ∗
  iintro ⟨Hxbr_10, Hcs0_10, HO⟩
  sl_exec_parts
  iapply (send_x m (K (c, famIx 2 9)) (K (xn c, famIx 3 9)) c _ (dev23_eq c) 9 fxn9 _ (sum_val m c 512 4096 _ _ _ _ _ (fun _ _ => rfl) (fun _ _ => rfl)) (Oy c 11 + Ox c 9) (Oy c 11 + Ox c 10) (owe_x c 11 9) _) $$ [Hsm_9 Hxn_9 HO Ht2_9 Htx_9]
  · isplitl [HO]; · iexact HO
    isplitl [Hsm_9]; · iexact Hsm_9
    iframe HI2_9 HIx_9 Hr2_9 Hrx_9 ∗
  iintro ⟨Hsmr_9, Hcs2_9, HO⟩
  sl_exec_parts
  iapply (send_y m (K (c, famIx 0 11)) (K (yn c, famIx 1 11)) c _ (dev24_eq c) 11 fyn11 _ (narrow_val m c 512 5120 1 _ _ _ (outOff_eq c 11) _ _ _ _ _ _) (Oy c 11 + Ox c 10) (Oy c 12 + Ox c 10) (owe_y c 11 10) _) $$ [Hxb_11 Hyn_11 HO Ht0_11 Hty_11]
  · isplitl [HO]; · iexact HO
    isplitl [Hxb_11]; · iexact Hxb_11
    iframe HI0_11 HIy_11 Hr0_11 Hry_11 ∗
  iintro ⟨Hxbr_11, Hcs0_11, HO⟩
  sl_exec_parts
  iapply (send_x m (K (c, famIx 2 10)) (K (xn c, famIx 3 10)) c _ (dev25_eq c) 10 fxn10 _ (sum_val m c 512 4608 _ _ _ _ _ (fun _ _ => rfl) (fun _ _ => rfl)) (Oy c 12 + Ox c 10) (Oy c 12 + Ox c 11) (owe_x c 12 10) _) $$ [Hsm_10 Hxn_10 HO Ht2_10 Htx_10]
  · isplitl [HO]; · iexact HO
    isplitl [Hsm_10]; · iexact Hsm_10
    iframe HI2_10 HIx_10 Hr2_10 Hrx_10 ∗
  iintro ⟨Hsmr_10, Hcs2_10, HO⟩
  sl_exec_parts
  iapply (send_y m (K (c, famIx 0 12)) (K (yn c, famIx 1 12)) c _ (dev26_eq c) 12 fyn12 _ (narrow_val m c 512 5632 0 _ _ _ (outOff_eq c 12) _ _ _ _ _ _) (Oy c 12 + Ox c 11) (Oy c 13 + Ox c 11) (owe_y c 12 11) _) $$ [Hxb_12 Hyn_12 HO Ht0_12 Hty_12]
  · isplitl [HO]; · iexact HO
    isplitl [Hxb_12]; · iexact Hxb_12
    iframe HI0_12 HIy_12 Hr0_12 Hry_12 ∗
  iintro ⟨Hxbr_12, Hcs0_12, HO⟩
  sl_exec_parts
  iapply (send_x m (K (c, famIx 2 11)) (K (xn c, famIx 3 11)) c _ (dev27_eq c) 11 fxn11 _ (sum_val m c 512 5120 _ _ _ _ _ (fun _ _ => rfl) (fun _ _ => rfl)) (Oy c 13 + Ox c 11) (Oy c 13 + Ox c 12) (owe_x c 13 11) _) $$ [Hsm_11 Hxn_11 HO Ht2_11 Htx_11]
  · isplitl [HO]; · iexact HO
    isplitl [Hsm_11]; · iexact Hsm_11
    iframe HI2_11 HIx_11 Hr2_11 Hrx_11 ∗
  iintro ⟨Hsmr_11, Hcs2_11, HO⟩
  sl_exec_parts
  iapply (send_y m (K (c, famIx 0 13)) (K (yn c, famIx 1 13)) c _ (dev28_eq c) 13 fyn13 _ (narrow_val m c 512 6144 1 _ _ _ (outOff_eq c 13) _ _ _ _ _ _) (Oy c 13 + Ox c 12) (Oy c 14 + Ox c 12) (owe_y c 13 12) _) $$ [Hxb_13 Hyn_13 HO Ht0_13 Hty_13]
  · isplitl [HO]; · iexact HO
    isplitl [Hxb_13]; · iexact Hxb_13
    iframe HI0_13 HIy_13 Hr0_13 Hry_13 ∗
  iintro ⟨Hxbr_13, Hcs0_13, HO⟩
  sl_exec_parts
  iapply (send_x m (K (c, famIx 2 12)) (K (xn c, famIx 3 12)) c _ (dev29_eq c) 12 fxn12 _ (sum_val m c 512 5632 _ _ _ _ _ (fun _ _ => rfl) (fun _ _ => rfl)) (Oy c 14 + Ox c 12) (Oy c 14 + Ox c 13) (owe_x c 14 12) _) $$ [Hsm_12 Hxn_12 HO Ht2_12 Htx_12]
  · isplitl [HO]; · iexact HO
    isplitl [Hsm_12]; · iexact Hsm_12
    iframe HI2_12 HIx_12 Hr2_12 Hrx_12 ∗
  iintro ⟨Hsmr_12, Hcs2_12, HO⟩
  sl_exec_parts
  iapply (send_y m (K (c, famIx 0 14)) (K (yn c, famIx 1 14)) c _ (dev30_eq c) 14 fyn14 _ (narrow_val m c 512 6656 0 _ _ _ (outOff_eq c 14) _ _ _ _ _ _) (Oy c 14 + Ox c 13) (Oy c 15 + Ox c 13) (owe_y c 14 13) _) $$ [Hxb_14 Hyn_14 HO Ht0_14 Hty_14]
  · isplitl [HO]; · iexact HO
    isplitl [Hxb_14]; · iexact Hxb_14
    iframe HI0_14 HIy_14 Hr0_14 Hry_14 ∗
  iintro ⟨Hxbr_14, Hcs0_14, HO⟩
  sl_exec_parts
  iapply (send_x m (K (c, famIx 2 13)) (K (xn c, famIx 3 13)) c _ (dev31_eq c) 13 fxn13 _ (sum_val m c 512 6144 _ _ _ _ _ (fun _ _ => rfl) (fun _ _ => rfl)) (Oy c 15 + Ox c 13) (Oy c 15 + Ox c 14) (owe_x c 15 13) _) $$ [Hsm_13 Hxn_13 HO Ht2_13 Htx_13]
  · isplitl [HO]; · iexact HO
    isplitl [Hsm_13]; · iexact Hsm_13
    iframe HI2_13 HIx_13 Hr2_13 Hrx_13 ∗
  iintro ⟨Hsmr_13, Hcs2_13, HO⟩
  ihave Hj := (slot_split_0_384 c _) $$ Hf30
  icases Hj with ⟨Hf30, Hf30r⟩
  sl_exec_parts
  iapply (send_y m (K (c, famIx 0 15)) (K (yn c, famIx 1 15)) c _ (dev32_eq c) 15 fyn15 _ (narrow_val m c 512 7168 1 _ _ _ (outOff_eq c 15) _ _ _ _ _ _) (Oy c 15 + Ox c 14) (Oy c 16 + Ox c 14) (owe_y c 15 14) _) $$ [Hxb_15 Hyn_15 HO Ht0_15 Hty_15]
  · isplitl [HO]; · iexact HO
    isplitl [Hxb_15]; · iexact Hxb_15
    iframe HI0_15 HIy_15 Hr0_15 Hry_15 ∗
  iintro ⟨Hxbr_15, Hcs0_15, HO⟩
  sl_exec_parts
  iapply (send_x m (K (c, famIx 2 14)) (K (xn c, famIx 3 14)) c _ (dev33_eq c) 14 fxn14 _ (sum_val m c 512 6656 _ _ _ _ _ (fun _ _ => rfl) (fun _ _ => rfl)) (Oy c 16 + Ox c 14) (Oy c 16 + Ox c 15) (owe_x c 16 14) _) $$ [Hsm_14 Hxn_14 HO Ht2_14 Htx_14]
  · isplitl [HO]; · iexact HO
    isplitl [Hsm_14]; · iexact Hsm_14
    iframe HI2_14 HIx_14 Hr2_14 Hrx_14 ∗
  iintro ⟨Hsmr_14, Hcs2_14, HO⟩
  ihave Hj := (slot_split_1_128 c _) $$ Hf31
  icases Hj with ⟨Hf31, Hf31r⟩
  sl_exec_parts
  iapply (send_y m (K (c, famIx 0 16)) (K (yn c, famIx 1 16)) c _ (dev34_eq c) 16 fyn16 _ (narrow_val m c 384 7680 0 _ _ _ (outOff_eq c 16) _ _ _ _ _ _) (Oy c 16 + Ox c 15) (Oy c 17 + Ox c 15) (owe_y c 16 15) _) $$ [Hxb_16 Hyn_16 HO Ht0_16 Hty_16]
  · isplitl [HO]; · iexact HO
    isplitl [Hxb_16]; · iexact Hxb_16
    iframe HI0_16 HIy_16 Hr0_16 Hry_16 ∗
  iintro ⟨Hxbr_16, Hcs0_16, HO⟩
  sl_exec_parts
  iapply (send_x m (K (c, famIx 2 15)) (K (xn c, famIx 3 15)) c _ (dev35_eq c) 15 fxn15 _ (sum_val m c 512 7168 _ _ _ _ _ (fun _ _ => rfl) (fun _ _ => rfl)) (Oy c 17 + Ox c 15) (Oy c 17 + Ox c 16) (owe_x c 17 15) _) $$ [Hsm_15 Hxn_15 HO Ht2_15 Htx_15]
  · isplitl [HO]; · iexact HO
    isplitl [Hsm_15]; · iexact Hsm_15
    iframe HI2_15 HIx_15 Hr2_15 Hrx_15 ∗
  iintro ⟨Hsmr_15, Hcs2_15, HO⟩
  sl_exec_parts
  iapply (send_y m (K (c, famIx 0 17)) (K (yn c, famIx 1 17)) c _ (dev36_eq c) 17 fyn17 _ (narrow_val m c 128 8064 1 _ _ _ (outOff_eq c 17) _ _ _ _ _ _) (Oy c 17 + Ox c 16) (Oy c 18 + Ox c 16) (owe_y c 17 16) _) $$ [Hxb_17 Hyn_17 HO Ht0_17 Hty_17]
  · isplitl [HO]; · iexact HO
    isplitl [Hxb_17]; · iexact Hxb_17
    iframe HI0_17 HIy_17 Hr0_17 Hry_17 ∗
  iintro ⟨Hxbr_17, Hcs0_17, HO⟩
  sl_exec_parts
  iapply (send_x m (K (c, famIx 2 16)) (K (xn c, famIx 3 16)) c _ (dev37_eq c) 16 fxn16 _ (sum_val m c 384 7680 _ _ _ _ _ (fun _ _ => rfl) (fun _ _ => rfl)) (Oy c 18 + Ox c 16) (Oy c 18 + Ox c 17) (owe_x c 18 16) _) $$ [Hsm_16 Hxn_16 HO Ht2_16 Htx_16]
  · isplitl [HO]; · iexact HO
    isplitl [Hsm_16]; · iexact Hsm_16
    iframe HI2_16 HIx_16 Hr2_16 Hrx_16 ∗
  iintro ⟨Hsmr_16, Hcs2_16, HO⟩
  sl_exec_parts
  iapply (send_x m (K (c, famIx 2 17)) (K (xn c, famIx 3 17)) c _ (dev38_eq c) 17 fxn17 _ (sum_val m c 128 8064 _ _ _ _ _ (fun _ _ => rfl) (fun _ _ => rfl)) (Oy c 18 + Ox c 17) (Oy c 18 + Ox c 18) (owe_x c 18 17) _) $$ [Hsm_17 Hxn_17 HO Ht2_17 Htx_17]
  · isplitl [HO]; · iexact HO
    isplitl [Hsm_17]; · iexact Hsm_17
    iframe HI2_17 HIx_17 Hr2_17 Hrx_17 ∗
  iintro ⟨Hsmr_17, Hcs2_17, HO⟩
  sl_exec_parts
  ihave HO := (owes_end c _) $$ HO
  sl_exec_parts
  sl_step
  unfold bodyPost sep18 sep20 w0_384 w0_512 w1_128 w1_512
  beta_reduce
  isplitl [HO]; · iexists _; iexact HO
  isplitl [Hf30 Hf30r Hf31 Hf31r]
  · isplitl [Hf30]; · iexists _; iexact Hf30
    isplitl [Hf30r]; · iexists _; iexact Hf30r
    isplitl [Hf31]; · iexists _; iexact Hf31
    iexists _; iexact Hf31r
  ihave Hob_0 := (restate_ob m c 0 fullShare _ (land_o_w m c 0 _ (SUMv m c) (fun _ _ => rfl) _ rfl)) $$ [Hob_0]
  · iexact Hob_0
  ihave Hob_1 := (restate_ob m c 1 fullShare _ (land_o_w m c 1 _ (SUMv m c) (fun _ _ => rfl) _ rfl)) $$ [Hob_1]
  · iexact Hob_1
  ihave Hob_2 := (restate_ob m c 2 fullShare _ (land_o_w m c 2 _ (SUMv m c) (fun _ _ => rfl) _ rfl)) $$ [Hob_2]
  · iexact Hob_2
  ihave Hob_3 := (restate_ob m c 3 fullShare _ (land_o_w m c 3 _ (SUMv m c) (fun _ _ => rfl) _ rfl)) $$ [Hob_3]
  · iexact Hob_3
  ihave Hob_4 := (restate_ob m c 4 fullShare _ (land_o_w m c 4 _ (SUMv m c) (fun _ _ => rfl) _ rfl)) $$ [Hob_4]
  · iexact Hob_4
  ihave Hob_5 := (restate_ob m c 5 fullShare _ (land_o_w m c 5 _ (SUMv m c) (fun _ _ => rfl) _ rfl)) $$ [Hob_5]
  · iexact Hob_5
  ihave Hob_6 := (restate_ob m c 6 fullShare _ (land_o_w m c 6 _ (SUMv m c) (fun _ _ => rfl) _ rfl)) $$ [Hob_6]
  · iexact Hob_6
  ihave Hob_7 := (restate_ob m c 7 fullShare _ (land_o_w m c 7 _ (SUMv m c) (fun _ _ => rfl) _ rfl)) $$ [Hob_7]
  · iexact Hob_7
  ihave Hob_8 := (restate_ob m c 8 fullShare _ (land_o_w m c 8 _ (SUMv m c) (fun _ _ => rfl) _ rfl)) $$ [Hob_8]
  · iexact Hob_8
  ihave Hob_9 := (restate_ob m c 9 fullShare _ (land_o_w m c 9 _ (SUMv m c) (fun _ _ => rfl) _ rfl)) $$ [Hob_9]
  · iexact Hob_9
  ihave Hob_10 := (restate_ob m c 10 fullShare _ (land_o_w m c 10 _ (SUMv m c) (fun _ _ => rfl) _ rfl)) $$ [Hob_10]
  · iexact Hob_10
  ihave Hob_11 := (restate_ob m c 11 fullShare _ (land_o_w m c 11 _ (SUMv m c) (fun _ _ => rfl) _ rfl)) $$ [Hob_11]
  · iexact Hob_11
  ihave Hob_12 := (restate_ob m c 12 fullShare _ (land_o_w m c 12 _ (SUMv m c) (fun _ _ => rfl) _ rfl)) $$ [Hob_12]
  · iexact Hob_12
  ihave Hob_13 := (restate_ob m c 13 fullShare _ (land_o_w m c 13 _ (SUMv m c) (fun _ _ => rfl) _ rfl)) $$ [Hob_13]
  · iexact Hob_13
  ihave Hob_14 := (restate_ob m c 14 fullShare _ (land_o_w m c 14 _ (SUMv m c) (fun _ _ => rfl) _ rfl)) $$ [Hob_14]
  · iexact Hob_14
  ihave Hob_15 := (restate_ob m c 15 fullShare _ (land_o_w m c 15 _ (SUMv m c) (fun _ _ => rfl) _ rfl)) $$ [Hob_15]
  · iexact Hob_15
  ihave Hob_16 := (restate_ob m c 16 fullShare _ (land_o_w m c 16 _ (SUMv m c) (fun _ _ => rfl) _ rfl)) $$ [Hob_16]
  · iexact Hob_16
  ihave Hob_17 := (restate_ob m c 17 fullShare _ (land_o_w m c 17 _ (SUMv m c) (fun _ _ => rfl) _ rfl)) $$ [Hob_17]
  · iexact Hob_17
  iframe
  isplitl [Hsmr_0 Hsmr_1 Hsmr_2 Hsmr_3 Hsmr_4 Hsmr_5 Hsmr_6 Hsmr_7 Hsmr_8 Hsmr_9 Hsmr_10 Hsmr_11 Hsmr_12 Hsmr_13 Hsmr_14 Hsmr_15 Hsmr_16 Hsmr_17]
  · isplitl [Hsmr_0]; · iexact Hsmr_0
    isplitl [Hsmr_1]; · iexact Hsmr_1
    isplitl [Hsmr_2]; · iexact Hsmr_2
    isplitl [Hsmr_3]; · iexact Hsmr_3
    isplitl [Hsmr_4]; · iexact Hsmr_4
    isplitl [Hsmr_5]; · iexact Hsmr_5
    isplitl [Hsmr_6]; · iexact Hsmr_6
    isplitl [Hsmr_7]; · iexact Hsmr_7
    isplitl [Hsmr_8]; · iexact Hsmr_8
    isplitl [Hsmr_9]; · iexact Hsmr_9
    isplitl [Hsmr_10]; · iexact Hsmr_10
    isplitl [Hsmr_11]; · iexact Hsmr_11
    isplitl [Hsmr_12]; · iexact Hsmr_12
    isplitl [Hsmr_13]; · iexact Hsmr_13
    isplitl [Hsmr_14]; · iexact Hsmr_14
    isplitl [Hsmr_15]; · iexact Hsmr_15
    isplitl [Hsmr_16]; · iexact Hsmr_16
    iexact Hsmr_17
  isplitl [Hs_0]; · iexact Hs_0
  isplitl [Hs_1]; · iexact Hs_1
  isplitl [Hs_2]; · iexact Hs_2
  isplitl [Hs_3]; · iexact Hs_3
  isplitl [Hs_4]; · iexact Hs_4
  isplitl [Hs_5]; · iexact Hs_5
  isplitl [Hs_6]; · iexact Hs_6
  isplitl [Hs_7]; · iexact Hs_7
  isplitl [Hs_8]; · iexact Hs_8
  isplitl [Hs_9]; · iexact Hs_9
  isplitl [Hs_10]; · iexact Hs_10
  isplitl [Hs_11]; · iexact Hs_11
  isplitl [Hs_12]; · iexact Hs_12
  isplitl [Hs_13]; · iexact Hs_13
  isplitl [Hs_14]; · iexact Hs_14
  isplitl [Hs_15]; · iexact Hs_15
  isplitl [Hs_16]; · iexact Hs_16
  isplitl [Hs_17]; · iexact Hs_17
  isplitl [Hs_18]; · iexact Hs_18
  iexact Hs_19

end Cert.Kernel.AR

end
-- ==== Proof.Bits.Carve.lean ====
import proofs.«900140_g7700000000000141_dist_ar_v7x_xy2x2_y_m16384_n1024_bf16_1_alg».proof.Proof.Bits.Tables

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem chunk_apart : ∀ k k' : Fin 18, k ≠ k' → off k + sz k ≤ off k' ∨ off k' + sz k' ≤ off k := by decide

theorem chunk_next : ∀ k : Fin 18, off k + sz k = if h : k.val + 1 < 18 then off ⟨k.val + 1, h⟩ else 8192 := by decide

theorem chunk_cover (r : ℕ) (h : r < 8192) : ∃ k : Fin 18, off k ≤ r ∧ r < off k + sz k := by
  by_contra hne
  have H : ∀ k : Fin 18, off k ≤ r → off k + sz k ≤ r := fun k hk => by
    by_contra hlt; exact hne ⟨k, hk, by omega⟩
  have step : ∀ n : ℕ, ∀ hn : n < 18, off ⟨n, hn⟩ ≤ r := by
    intro n
    induction n with
    | zero => intro hn; exact Nat.zero_le r
    | succ n ih =>
      intro hn
      have h1 := H ⟨n, by omega⟩ (ih (by omega))
      rw [chunk_next, dif_pos (by exact hn)] at h1
      exact h1
  have h17 := H 17 (step 17 (by omega))
  rw [chunk_next] at h17
  simp at h17
  omega

theorem mem_rectH (k : Fin 18) (i : S8192x1024.Idx) :
    i ∈ (rectH k).set ↔ off k ≤ (i 0 : ℕ) ∧ (i 0 : ℕ) < off k + sz k := by
  rw [Rect.mem_set_unit]
  constructor
  · intro h; exact h 0
  · intro h a
    fin_cases a
    · exact h
    · exact ⟨Nat.zero_le _, by have := (i 1).isLt; simpa using this⟩

theorem rectH_disj (k k' : Fin 18) (h : k ≠ k') : Disjoint (rectH k).set (rectH k').set :=
  Rect.unit_disjoint 0 (chunk_apart k k' h)

theorem rectH_cover : (Finset.univ : Finset S8192x1024.Idx) = Finset.univ.biUnion fun k : Fin 18 => (rectH k).set := by
  ext i
  simp only [Finset.mem_univ, Finset.mem_biUnion, true_and, true_iff]
  obtain ⟨k, hk⟩ := chunk_cover (i 0) (i 0).isLt
  exact ⟨k, (mem_rectH k i).mpr hk⟩

theorem carve_xb (c : Dev nD) (q : PosShare TreeShare) (f : Buf (Elt F) ((c : Thread nD τ).loc cc0_scratch0)) :
    ((((c : Thread nD τ).loc cc0_scratch0) ↦{q} f : sProp 𝕄))
      ⊣⊢ bigSep Finset.univ fun k : Fin 18 => ((xbM k).view.loc (c : Thread nD τ) ↦[(xbM k).view.set]{q} f : sProp 𝕄) := by
  have e : ∀ k : Fin 18, (xbM k).view.set = (rectH k).set := fun k => View.set_slice_whole _ _
  show ((c : Thread nD τ).loc cc0_scratch0 ↦[Finset.univ]{q} f : sProp 𝕄) ⊣⊢ bigSep Finset.univ fun k : Fin 18 => ((c : Thread nD τ).loc cc0_scratch0 ↦[(xbM k).view.set]{q} f : sProp 𝕄)
  simp only [e]
  rw [rectH_cover, pointsTo_biUnion _ _ (fun k _ k' _ h => rectH_disj k k' h)]
theorem carve_yr (c : Dev nD) (q : PosShare TreeShare) (f : Buf (Elt F) ((c : Thread nD τ).loc cc0_scratch1)) :
    ((((c : Thread nD τ).loc cc0_scratch1) ↦{q} f : sProp 𝕄))
      ⊣⊢ bigSep Finset.univ fun k : Fin 18 => ((yrM k).view.loc (c : Thread nD τ) ↦[(yrM k).view.set]{q} f : sProp 𝕄) := by
  have e : ∀ k : Fin 18, (yrM k).view.set = (rectH k).set := fun k => View.set_slice_whole _ _
  show ((c : Thread nD τ).loc cc0_scratch1 ↦[Finset.univ]{q} f : sProp 𝕄) ⊣⊢ bigSep Finset.univ fun k : Fin 18 => ((c : Thread nD τ).loc cc0_scratch1 ↦[(yrM k).view.set]{q} f : sProp 𝕄)
  simp only [e]
  rw [rectH_cover, pointsTo_biUnion _ _ (fun k _ k' _ h => rectH_disj k k' h)]
theorem carve_sm (c : Dev nD) (q : PosShare TreeShare) (f : Buf (Elt F) ((c : Thread nD τ).loc cc0_scratch2)) :
    ((((c : Thread nD τ).loc cc0_scratch2) ↦{q} f : sProp 𝕄))
      ⊣⊢ bigSep Finset.univ fun k : Fin 18 => ((smM k).view.loc (c : Thread nD τ) ↦[(smM k).view.set]{q} f : sProp 𝕄) := by
  have e : ∀ k : Fin 18, (smM k).view.set = (rectH k).set := fun k => View.set_slice_whole _ _
  show ((c : Thread nD τ).loc cc0_scratch2 ↦[Finset.univ]{q} f : sProp 𝕄) ⊣⊢ bigSep Finset.univ fun k : Fin 18 => ((c : Thread nD τ).loc cc0_scratch2 ↦[(smM k).view.set]{q} f : sProp 𝕄)
  simp only [e]
  rw [rectH_cover, pointsTo_biUnion _ _ (fun k _ k' _ h => rectH_disj k k' h)]

abbrev rectO (c : Dev nD) (k : Fin 18) : Rect S16384x1024 := Rect.unit (s := S16384x1024) (outOff c k) (SK k).size (outInb c k)

theorem mem_rectO (c : Dev nD) (k : Fin 18) (i : S16384x1024.Idx) :
    i ∈ (rectO c k).set ↔ base c + off k ≤ (i 0 : ℕ) ∧ (i 0 : ℕ) < base c + off k + sz k := by
  rw [Rect.mem_set_unit, outOff_eq]
  constructor
  · intro h; exact h 0
  · intro h a
    fin_cases a
    · exact h
    · exact ⟨Nat.zero_le _, by have := (i 1).isLt; simpa using this⟩

theorem rectO_disj (c : Dev nD) (k k' : Fin 18) (h : k ≠ k') : Disjoint (rectO c k).set (rectO c k').set := by
  rw [Finset.disjoint_left]
  intro i h₁ h₂
  rw [mem_rectO] at h₁ h₂
  have := chunk_apart k k' h
  omega

theorem mem_half (c : Dev nD) (i : S16384x1024.Idx) :
    i ∈ (Finset.univ.biUnion fun k : Fin 18 => (rectO c k).set) ↔ base c ≤ (i 0 : ℕ) ∧ (i 0 : ℕ) < base c + 8192 := by
  simp only [Finset.mem_biUnion, Finset.mem_univ, true_and, mem_rectO]
  constructor
  · rintro ⟨k, h₁, h₂⟩
    have := off_sz k
    omega
  · rintro ⟨h₁, h₂⟩
    obtain ⟨k, hk₁, hk₂⟩ := chunk_cover ((i 0 : ℕ) - base c) (by omega)
    exact ⟨k, by omega, by omega⟩

theorem half_le (c : Dev nD) : c.val / 2 ≤ 1 := by revert c; decide

theorem halves_disj (c : Dev nD) :
    Disjoint (Finset.univ.biUnion fun k : Fin 18 => (rectO c k).set) (Finset.univ.biUnion fun k : Fin 18 => (rectO (xn c) k).set) := by
  rw [Finset.disjoint_left]
  intro i h₁ h₂
  rw [mem_half] at h₁ h₂
  rw [base_xn] at h₂
  have := half_le c
  unfold base at h₁
  unfold obase at h₂
  omega

theorem halves_cover (c : Dev nD) :
    (Finset.univ : Finset S16384x1024.Idx)
      = (Finset.univ.biUnion fun k : Fin 18 => (rectO c k).set) ∪ (Finset.univ.biUnion fun k : Fin 18 => (rectO (xn c) k).set) := by
  ext i
  rw [Finset.mem_union, mem_half, mem_half, base_xn]
  have := half_le c
  have hi : (i 0 : ℕ) < 16384 := (i 0).isLt
  unfold base obase
  simp only [Finset.mem_univ, true_iff]
  omega

theorem carve_out (c d : Dev nD) (f : Buf (Elt F) ((d : Thread nD τ).loc main_v1)) :
    ((((d : Thread nD τ).loc main_v1) ↦{fullShare} f : sProp 𝕄))
      ⊣⊢ iprop((bigSep Finset.univ fun k : Fin 18 => ((outM c k).view.loc (d : Thread nD τ) ↦[(outM c k).view.set]{fullShare} f : sProp 𝕄))
          ∗ (bigSep Finset.univ fun k : Fin 18 => ((outM (xn c) k).view.loc (d : Thread nD τ) ↦[(outM (xn c) k).view.set]{fullShare} f : sProp 𝕄))) := by
  have e : ∀ (c : Dev nD) (k : Fin 18), (outM c k).view.set = (rectO c k).set := fun c k => View.set_slice_whole _ _
  show ((d : Thread nD τ).loc main_v1 ↦[Finset.univ]{fullShare} f : sProp 𝕄)
    ⊣⊢ iprop((bigSep Finset.univ fun k : Fin 18 => ((d : Thread nD τ).loc main_v1 ↦[(outM c k).view.set]{fullShare} f : sProp 𝕄))
        ∗ (bigSep Finset.univ fun k : Fin 18 => ((d : Thread nD τ).loc main_v1 ↦[(outM (xn c) k).view.set]{fullShare} f : sProp 𝕄)))
  simp only [e]
  rw [← pointsTo_biUnion _ _ (fun k _ k' _ h => rectO_disj c k k' h),
    ← pointsTo_biUnion _ _ (fun k _ k' _ h => rectO_disj (xn c) k k' h), halves_cover c]
  exact pointsTo_union (halves_disj c)

theorem setOn_whole {κ : Kind} (b : Ref sig κ) (M : Finset b.ty.shape.Idx) :
    (View.whole b : View sig κ _ _ _).setOn M = M := Finset.map_refl

theorem mem_slot0 (i : S2x512x1024.Idx) :
    i ∈ (Rect.unit (s := S2x512x1024) ![0, 0, 0] S1x512x1024.size inb_S2x512x1024_S1x512x1024_0_0_0).toLoadRect.set ↔ (i 0 : ℕ) = 0 := by
  rw [Rect.mem_set_unit]
  constructor
  · intro h; have h0 : (0 : ℕ) ≤ (i 0 : ℕ) ∧ (i 0 : ℕ) < 0 + 1 := h 0; omega
  · intro h a
    fin_cases a
    · show (0 : ℕ) ≤ (i 0 : ℕ) ∧ (i 0 : ℕ) < 0 + 1; omega
    · have h1 : (i 1 : ℕ) < 512 := (i 1).isLt
      show (0 : ℕ) ≤ (i 1 : ℕ) ∧ (i 1 : ℕ) < 0 + 512; omega
    · have h2 : (i 2 : ℕ) < 1024 := (i 2).isLt
      show (0 : ℕ) ≤ (i 2 : ℕ) ∧ (i 2 : ℕ) < 0 + 1024; omega

theorem mem_slot1 (i : S2x512x1024.Idx) :
    i ∈ (Rect.unit (s := S2x512x1024) ![1, 0, 0] S1x512x1024.size inb_S2x512x1024_S1x512x1024_1_0_0).toLoadRect.set ↔ (i 0 : ℕ) = 1 := by
  rw [Rect.mem_set_unit]
  constructor
  · intro h; have h0 : (1 : ℕ) ≤ (i 0 : ℕ) ∧ (i 0 : ℕ) < 1 + 1 := h 0; omega
  · intro h a
    fin_cases a
    · show (1 : ℕ) ≤ (i 0 : ℕ) ∧ (i 0 : ℕ) < 1 + 1; omega
    · have h1 : (i 1 : ℕ) < 512 := (i 1).isLt
      show (0 : ℕ) ≤ (i 1 : ℕ) ∧ (i 1 : ℕ) < 0 + 512; omega
    · have h2 : (i 2 : ℕ) < 1024 := (i 2).isLt
      show (0 : ℕ) ≤ (i 2 : ℕ) ∧ (i 2 : ℕ) < 0 + 1024; omega

theorem slots_disj :
    Disjoint (Rect.unit (s := S2x512x1024) ![0, 0, 0] S1x512x1024.size inb_S2x512x1024_S1x512x1024_0_0_0).toLoadRect.set
      (Rect.unit (s := S2x512x1024) ![1, 0, 0] S1x512x1024.size inb_S2x512x1024_S1x512x1024_1_0_0).toLoadRect.set := by
  rw [Finset.disjoint_left]
  intro i h₁ h₂
  rw [mem_slot0] at h₁
  rw [mem_slot1] at h₂
  omega

theorem slots_cover :
    (Finset.univ : Finset S2x512x1024.Idx)
      = (Rect.unit (s := S2x512x1024) ![0, 0, 0] S1x512x1024.size inb_S2x512x1024_S1x512x1024_0_0_0).toLoadRect.set
        ∪ (Rect.unit (s := S2x512x1024) ![1, 0, 0] S1x512x1024.size inb_S2x512x1024_S1x512x1024_1_0_0).toLoadRect.set := by
  ext i
  rw [Finset.mem_union, mem_slot0, mem_slot1]
  have hi : (i 0 : ℕ) < 2 := (i 0).isLt
  simp only [Finset.mem_univ, true_iff]
  omega

theorem carve_f32 (c : Dev nD) (f : Buf (Elt F) ((c : Thread nD τ).loc cc0_scratch3)) :
    ((((c : Thread nD τ).loc cc0_scratch3) ↦{fullShare} f : sProp 𝕄))
      ⊣⊢ iprop(((Memref.whole cc0_scratch3 : Memref sig .tc .vmem S2x512x1024 .f32).view.loc (c : Thread nD τ) ↦[(Memref.whole cc0_scratch3 : Memref sig .tc .vmem S2x512x1024 .f32).view.setOn (Rect.unit (s := S2x512x1024) ![0, 0, 0] S1x512x1024.size inb_S2x512x1024_S1x512x1024_0_0_0).toLoadRect.set]{fullShare} f)
          ∗ ((Memref.whole cc0_scratch3 : Memref sig .tc .vmem S2x512x1024 .f32).view.loc (c : Thread nD τ) ↦[(Memref.whole cc0_scratch3 : Memref sig .tc .vmem S2x512x1024 .f32).view.setOn (Rect.unit (s := S2x512x1024) ![1, 0, 0] S1x512x1024.size inb_S2x512x1024_S1x512x1024_1_0_0).toLoadRect.set]{fullShare} f)) := by
  show ((c : Thread nD τ).loc cc0_scratch3 ↦[Finset.univ]{fullShare} f : sProp 𝕄)
    ⊣⊢ iprop(((c : Thread nD τ).loc cc0_scratch3 ↦[(View.whole cc0_scratch3 : View sig .tc _ _ _).setOn (Rect.unit (s := S2x512x1024) ![0, 0, 0] S1x512x1024.size inb_S2x512x1024_S1x512x1024_0_0_0).toLoadRect.set]{fullShare} f)
        ∗ ((c : Thread nD τ).loc cc0_scratch3 ↦[(View.whole cc0_scratch3 : View sig .tc _ _ _).setOn (Rect.unit (s := S2x512x1024) ![1, 0, 0] S1x512x1024.size inb_S2x512x1024_S1x512x1024_1_0_0).toLoadRect.set]{fullShare} f))
  rw [setOn_whole, setOn_whole, slots_cover]
  exact pointsTo_union slots_disj

end Cert.Kernel.AR

end
-- ==== Proof.Bits.Body.lean ====
import proofs.«900140_g7700000000000141_dist_ar_v7x_xy2x2_y_m16384_n1024_bf16_1_alg».proof.Proof.Bits.Run
import proofs.«900140_g7700000000000141_dist_ar_v7x_xy2x2_y_m16384_n1024_bf16_1_alg».proof.Proof.Bits.Carve

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def e73 : Unit ⊕ (Fin 4 × Fin 18) ≃ Fin 73 where
  toFun := Sum.elim (fun _ => 0) (fun ak => famIx ak.1 ak.2)
  invFun j := if h : j.val = 0 then .inl () else
    .inr (⟨(j.val - 1) / 18, by have := j.isLt; omega⟩, ⟨(j.val - 1) % 18, Nat.mod_lt _ (by decide)⟩)
  left_inv := by
    rintro (u | ⟨a, k⟩)
    · rfl
    · revert a k; decide
  right_inv := by intro j; revert j; decide

def e92 : (Fin 4 × Fin 18) ⊕ Fin 20 ≃ Fin 92 where
  toFun := Sum.elim (fun ak => (dsem ak.1 ak.2 : Fin 92)) (fun j => (lsem j : Fin 92))
  invFun i := if h : i.val < 72 then .inl (⟨i.val / 18, by omega⟩, ⟨i.val % 18, Nat.mod_lt _ (by decide)⟩) else
    .inr ⟨i.val - 72, by have := i.isLt; omega⟩
  left_inv := by
    rintro (⟨a, k⟩ | j)
    · revert a k; decide
    · revert j; decide
  right_inv := by intro i; revert i; decide

theorem bigSep_bool' (Φ : Bool → sProp 𝕄) : bigSep Finset.univ Φ = iprop(Φ false ∗ Φ true) := by
  rw [show (Finset.univ : Finset Bool) = {false, true} from by decide, bigSep_insert (by decide), bigSep_singleton]; rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_fin73 (Φ : Fin 73 → sProp 𝕄) :
    bigSep Finset.univ Φ = iprop(Φ 0 ∗ bigSep Finset.univ fun ak : Fin 4 × Fin 18 => Φ (famIx ak.1 ak.2)) := by
  rw [bigSep_univ_equiv e73 Φ, bigSep_univ_sum, bigSep_univ_of_subsingleton ()]; rfl

theorem bigSep_fin92 (Φ : Fin 92 → sProp 𝕄) :
    bigSep Finset.univ Φ = iprop((bigSep Finset.univ fun ak : Fin 4 × Fin 18 => Φ (dsem ak.1 ak.2)) ∗ bigSep Finset.univ fun j : Fin 20 => Φ (lsem j)) := by
  rw [bigSep_univ_equiv e92 Φ, bigSep_univ_sum]; rfl

theorem bigSep_cells (c : Dev nD) (Φ : GSem nD τ sig → sProp 𝕄) :
    (bigSep Finset.univ fun j : Fin 73 => Φ (kcell (c, j)))
      = iprop(Φ (barCell c) ∗ bigSep Finset.univ fun ak : Fin 4 × Fin 18 => Φ (dcell c ak.1 ak.2)) := by
  rw [bigSep_fin73, bigSep_congr (s := Finset.univ) (fun (ak : Fin 4 × Fin 18) _ =>
    show Φ (kcell (c, famIx ak.1 ak.2)) = Φ (dcell c ak.1 ak.2) from by rw [kcell_famIx])]
  rfl

theorem bigSep_fam4 (Φ : Fin 4 → Fin 18 → sProp 𝕄) :
    (bigSep Finset.univ fun ak : Fin 4 × Fin 18 => Φ ak.1 ak.2)
      = iprop((bigSep Finset.univ fun k => Φ 0 k) ∗ (bigSep Finset.univ fun k => Φ 1 k) ∗ (bigSep Finset.univ fun k => Φ 2 k) ∗ (bigSep Finset.univ fun k => Φ 3 k)) := by
  rw [bigSep_univ_prod, bigSep_fin4]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem inv_at (K : Dev nD × Fin 73 → ℕ) (cj : Dev nD × Fin 73) :
    (bigSep Finset.univ fun cj : Dev nD × Fin 73 => (cellInv ER (Rd m) (K cj) (kcell cj) : sProp 𝕄)) ⊢ cellInv ER (Rd m) (K cj) (kcell cj) :=
  bigSep_elim (Finset.mem_univ cj)
theorem reached_at (cj : Dev nD × Fin 73) :
    (bigSep Finset.univ fun cj : Dev nD × Fin 73 => (reached ER (kcell cj) 0 : sProp 𝕄)) ⊢ reached ER (kcell cj) 0 :=
  bigSep_elim (Finset.mem_univ cj)

theorem rec_inv (K : Dev nD × Fin 73 → ℕ) (cj : Dev nD × Fin 73) : records m K ⊢ cellInv ER (Rd m) (K cj) (kcell cj) := by
  unfold records
  iintro ⟨#HI, -⟩
  iapply (inv_at m K cj); iexact HI
theorem rec_reached (K : Dev nD × Fin 73 → ℕ) (cj : Dev nD × Fin 73) : records m K ⊢ reached ER (kcell cj) 0 := by
  unfold records
  iintro ⟨-, #HR⟩
  iapply (reached_at (F := F) cj); iexact HR

theorem rec_inv_bar (K : Dev nD × Fin 73 → ℕ) (d : Dev nD) : records m K ⊢ cellInv ER (Rd m) (K (d, 0)) (barCell d) := rec_inv m K (d, 0)
theorem rec_reached_bar (K : Dev nD × Fin 73 → ℕ) (d : Dev nD) : records m K ⊢ reached ER (barCell d) 0 := rec_reached m K (d, 0)
theorem rec_inv_fam (K : Dev nD × Fin 73 → ℕ) (d : Dev nD) (a : Fin 4) :
    records m K ⊢ bigSep Finset.univ fun k : Fin 18 => cellInv ER (Rd m) (K (d, famIx a k)) (dcell d a k) :=
  bigSep_intro_persistent fun k _ => by rw [← kcell_famIx d a k]; exact rec_inv m K (d, famIx a k)
theorem rec_reached_fam (K : Dev nD × Fin 73 → ℕ) (d : Dev nD) (a : Fin 4) :
    records m K ⊢ bigSep Finset.univ fun k : Fin 18 => reached ER (dcell d a k) 0 :=
  bigSep_intro_persistent fun k _ => by rw [← kcell_famIx d a k]; exact rec_reached m K (d, famIx a k)

theorem open_inv (c : Dev nD) (K : Dev nD × Fin 73 → ℕ) : records m K ⊢ iprop(cellInv ER (Rd m) (K (c, 0)) (barCell c) ∗ cellInv ER (Rd m) (K (yn c, 0)) (barCell (yn c)) ∗ cellInv ER (Rd m) (K (xn c, 0)) (barCell (xn c))
        ∗ (bigSep Finset.univ fun k : Fin 18 => cellInv ER (Rd m) (K (c, famIx 0 k)) (dcell c 0 k)) ∗ (bigSep Finset.univ fun k : Fin 18 => cellInv ER (Rd m) (K (c, famIx 1 k)) (dcell c 1 k)) ∗ (bigSep Finset.univ fun k : Fin 18 => cellInv ER (Rd m) (K (c, famIx 2 k)) (dcell c 2 k)) ∗ (bigSep Finset.univ fun k : Fin 18 => cellInv ER (Rd m) (K (c, famIx 3 k)) (dcell c 3 k))
        ∗ (bigSep Finset.univ fun k : Fin 18 => cellInv ER (Rd m) (K (yn c, famIx 1 k)) (dcell (yn c) 1 k)) ∗ (bigSep Finset.univ fun k : Fin 18 => cellInv ER (Rd m) (K (xn c, famIx 3 k)) (dcell (xn c) 3 k))) := by
  iintro #HR
  isplitr; · iapply (rec_inv_bar m K c); iexact HR
  isplitr; · iapply (rec_inv_bar m K (yn c)); iexact HR
  isplitr; · iapply (rec_inv_bar m K (xn c)); iexact HR
  isplitr; · iapply (rec_inv_fam m K c 0); iexact HR
  isplitr; · iapply (rec_inv_fam m K c 1); iexact HR
  isplitr; · iapply (rec_inv_fam m K c 2); iexact HR
  isplitr; · iapply (rec_inv_fam m K c 3); iexact HR
  isplitr; · iapply (rec_inv_fam m K (yn c) 1); iexact HR
  iapply (rec_inv_fam m K (xn c) 3); iexact HR

theorem open_reached (c : Dev nD) (K : Dev nD × Fin 73 → ℕ) : records m K ⊢ iprop(reached ER (barCell (yn c)) 0 ∗ reached ER (barCell (xn c)) 0 ∗ (bigSep Finset.univ fun k : Fin 18 => reached ER (dcell (yn c) 1 k) 0) ∗ (bigSep Finset.univ fun k : Fin 18 => reached ER (dcell (xn c) 3 k) 0) ∗ (bigSep Finset.univ fun k : Fin 18 => reached ER (dcell c 0 k) 0) ∗ (bigSep Finset.univ fun k : Fin 18 => reached ER (dcell c 2 k) 0)) := by
  iintro #HR
  isplitr; · iapply (rec_reached_bar m K (yn c)); iexact HR
  isplitr; · iapply (rec_reached_bar m K (xn c)); iexact HR
  isplitr; · iapply (rec_reached_fam m K (yn c) 1); iexact HR
  isplitr; · iapply (rec_reached_fam m K (xn c) 3); iexact HR
  isplitr; · iapply (rec_reached_fam m K c 0); iexact HR
  iapply (rec_reached_fam m K c 2); iexact HR

theorem open_at (c : Dev nD) :
    (bigSep Finset.univ fun j : Fin 73 => (atPos ER (kcell (c, j)) 0 ∅ 0 : sProp 𝕄)) ⊢ iprop(atPos ER (barCell c) 0 ∅ 0 ∗ (bigSep Finset.univ fun k : Fin 18 => atPos ER (dcell c 0 k) 0 ∅ 0) ∗ (bigSep Finset.univ fun k : Fin 18 => atPos ER (dcell c 1 k) 0 ∅ 0) ∗ (bigSep Finset.univ fun k : Fin 18 => atPos ER (dcell c 2 k) 0 ∅ 0) ∗ (bigSep Finset.univ fun k : Fin 18 => atPos ER (dcell c 3 k) 0 ∅ 0)) := by
  rw [bigSep_cells c (fun g => atPos ER g 0 ∅ 0), bigSep_fam4 (fun a k => atPos ER (dcell c a k) 0 ∅ 0)]

theorem f3_set (r : Rect S2x512x1024) (h : ∀ a, r.stride a = 1) :
    ((Memref.whole cc0_scratch3 : Memref sig .tc .vmem S2x512x1024 .f32).slice r h).view.set = (Memref.whole cc0_scratch3 : Memref sig .tc .vmem S2x512x1024 .f32).view.setOn r.toLoadRect.set :=
  (View.set_slice_whole _ _).trans (setOn_whole _ _).symm

theorem f3_split (c : Dev nD) (f : Buf (Elt F) ((c : Thread nD τ).loc cc0_scratch3)) (r₁ r₂ : Rect S2x512x1024)
    (h₁ : ∀ a, r₁.stride a = 1) (h₂ : ∀ a, r₂.stride a = 1)
    (hsub : (Memref.whole cc0_scratch3 : Memref sig .tc .vmem S2x512x1024 .f32).view.setOn r₁.toLoadRect.set ⊆ (Memref.whole cc0_scratch3 : Memref sig .tc .vmem S2x512x1024 .f32).view.setOn r₂.toLoadRect.set) :
    ((Memref.whole cc0_scratch3 : Memref sig .tc .vmem S2x512x1024 .f32).view.loc (c : Thread nD τ) ↦[(Memref.whole cc0_scratch3 : Memref sig .tc .vmem S2x512x1024 .f32).view.setOn r₂.toLoadRect.set]{fullShare} f : sProp 𝕄)
      ⊣⊢ iprop((((Memref.whole cc0_scratch3 : Memref sig .tc .vmem S2x512x1024 .f32).slice r₁ h₁).view.loc (c : Thread nD τ) ↦[((Memref.whole cc0_scratch3 : Memref sig .tc .vmem S2x512x1024 .f32).slice r₁ h₁).view.set]{fullShare} f)
          ∗ (((Memref.whole cc0_scratch3 : Memref sig .tc .vmem S2x512x1024 .f32).slice r₂ h₂).view.loc (c : Thread nD τ) ↦[((Memref.whole cc0_scratch3 : Memref sig .tc .vmem S2x512x1024 .f32).slice r₂ h₂).view.set \ ((Memref.whole cc0_scratch3 : Memref sig .tc .vmem S2x512x1024 .f32).slice r₁ h₁).view.set]{fullShare} f)) := by
  show ((c : Thread nD τ).loc cc0_scratch3 ↦[(Memref.whole cc0_scratch3 : Memref sig .tc .vmem S2x512x1024 .f32).view.setOn r₂.toLoadRect.set]{fullShare} f : sProp 𝕄)
    ⊣⊢ iprop(((c : Thread nD τ).loc cc0_scratch3 ↦[((Memref.whole cc0_scratch3 : Memref sig .tc .vmem S2x512x1024 .f32).slice r₁ h₁).view.set]{fullShare} f)
        ∗ ((c : Thread nD τ).loc cc0_scratch3 ↦[((Memref.whole cc0_scratch3 : Memref sig .tc .vmem S2x512x1024 .f32).slice r₂ h₂).view.set \ ((Memref.whole cc0_scratch3 : Memref sig .tc .vmem S2x512x1024 .f32).slice r₁ h₁).view.set]{fullShare} f))
  rw [f3_set r₁ h₁, f3_set r₂ h₂]
  exact pointsTo_split_subset hsub

theorem open_f32 (c : Dev nD) (f3 : Buf (Elt F) ((c : Thread nD τ).loc cc0_scratch3)) :
    ((((c : Thread nD τ).loc cc0_scratch3) ↦{fullShare} f3 : sProp 𝕄)) ⊢ iprop((w0_128.view.loc (c : Thread nD τ) ↦[w0_128.view.set]{fullShare} f3)
        ∗ (w0_512.view.loc (c : Thread nD τ) ↦[w0_512.view.set \ w0_128.view.set]{fullShare} f3)
        ∗ (w1_384.view.loc (c : Thread nD τ) ↦[w1_384.view.set]{fullShare} f3)
        ∗ (w1_512.view.loc (c : Thread nD τ) ↦[w1_512.view.set \ w1_384.view.set]{fullShare} f3)) := by
  iintro H
  ihave H := (carve_f32 c f3).1 $$ H
  icases H with ⟨S0, S1⟩
  ihave A := (f3_split c f3 (Rect.unit (s := S2x512x1024) ![0, 0, 0] S1x128x1024.size inb_S2x512x1024_S1x128x1024_0_0_0) (Rect.unit (s := S2x512x1024) ![0, 0, 0] S1x512x1024.size inb_S2x512x1024_S1x512x1024_0_0_0) (fun _ => rfl) (fun _ => rfl) incl_0_128).1 $$ S0
  icases A with ⟨A1, A2⟩
  ihave B := (f3_split c f3 (Rect.unit (s := S2x512x1024) ![1, 0, 0] S1x384x1024.size inb_S2x512x1024_S1x384x1024_1_0_0) (Rect.unit (s := S2x512x1024) ![1, 0, 0] S1x512x1024.size inb_S2x512x1024_S1x512x1024_1_0_0) (fun _ => rfl) (fun _ => rfl) incl_1_384).1 $$ S1
  icases B with ⟨B1, B2⟩
  isplitl [A1]; · iexact A1
  isplitl [A2]; · iexact A2
  isplitl [B1]; · iexact B1
  iexact B2

theorem close_cell (K : Dev nD × Fin 73 → ℕ) (c : Dev nD) (a : Fin 4) (k : Fin 18) :
    iprop(records m K ∗ atPos ER (dcell c a k) 1 ∅ 0) ⊢ (|={Set.univ}=> semVal (dcell c a k) 0 : sProp 𝕄) := by
  iintro ⟨#HR, Hat⟩
  ihave HI := (rec_inv m K (c, famIx a k)) $$ HR
  rw [kcell_famIx]
  iapply (Rounds.cell_close ER (Rd m) (Set.mem_univ (K (c, famIx a k))) (fun h => h) (R := 1) (duties_later m (dcell c a k)))
  isplitl [HI]; · iexact HI
  iexact Hat

theorem close_fam (K : Dev nD × Fin 73 → ℕ) (c : Dev nD) (a : Fin 4) :
    iprop(records m K ∗ bigSep Finset.univ fun k : Fin 18 => atPos ER (dcell c a k) 1 ∅ 0)
      ⊢ (|={Set.univ}=> bigSep Finset.univ fun k : Fin 18 => semVal (dcell c a k) 0 : sProp 𝕄) :=
  (bigSep_with_persistent (R := records m K) (fun k _ => close_cell m K c a k)).trans (bigSep_fupd _ _)

theorem sems_join (c : Dev nD) :
    iprop((bigSep Finset.univ fun k : Fin 18 => semVal (dcell c 0 k) 0) ∗ (bigSep Finset.univ fun k : Fin 18 => semVal (dcell c 1 k) 0)
        ∗ (bigSep Finset.univ fun k : Fin 18 => semVal (dcell c 2 k) 0) ∗ (bigSep Finset.univ fun k : Fin 18 => semVal (dcell c 3 k) 0) ∗ bigSep Finset.univ fun j : Fin 20 => semVal (lcell c j) 0)
      ⊢ (bigSep Finset.univ fun i : Fin 92 => semVal (((c : Thread nD τ), osem i) : GSem nD τ sig) 0 : sProp 𝕄) := by
  rw [bigSep_fin92, bigSep_fam4 (fun a k => semVal (((c : Thread nD τ), osem (dsem a k)) : GSem nD τ sig) 0)]
  iintro ⟨H0, H1, H2, H3, HL⟩
  isplitr [HL]
  · isplitl [H0]; · iexact H0
    isplitl [H1]; · iexact H1
    isplitl [H2]; · iexact H2
    iexact H3
  · iexact HL

/-- Eighteen chunks, each as two halves at the same contents, are their eighteen wholes. -/
theorem of_halves (c : Dev nD) (M : (k : Fin 18) → Memref sig .tc .vmem (SK k) .bf16)
    (v : (k : Fin 18) → Buf (Elt F) ((M k).view.loc (c : Thread nD τ))) :
    (bigSep Finset.univ fun k : Fin 18 => iprop(((M k).view.loc (c : Thread nD τ) ↦[(M k).view.set]{fullShare.left} v k)
        ∗ ((M k).view.loc (c : Thread nD τ) ↦[(M k).view.set]{fullShare.right} v k)) : sProp 𝕄)
      ⊢ bigSep Finset.univ fun k : Fin 18 => ((M k).view.loc (c : Thread nD τ) ↦[(M k).view.set]{fullShare} v k : sProp 𝕄) :=
  bigSep_mono fun k _ => (pointsTo_share (PosShare.mem_left_op_right fullShare)).2

theorem f3_join (c : Dev nD) (r₁ r₂ : Rect S2x512x1024) (h₁ : ∀ a, r₁.stride a = 1) (h₂ : ∀ a, r₂.stride a = 1)
    (hsub : (Memref.whole cc0_scratch3 : Memref sig .tc .vmem S2x512x1024 .f32).view.setOn r₁.toLoadRect.set ⊆ (Memref.whole cc0_scratch3 : Memref sig .tc .vmem S2x512x1024 .f32).view.setOn r₂.toLoadRect.set) :
    iprop((∃ f, ((Memref.whole cc0_scratch3 : Memref sig .tc .vmem S2x512x1024 .f32).slice r₁ h₁).view.loc (c : Thread nD τ) ↦[((Memref.whole cc0_scratch3 : Memref sig .tc .vmem S2x512x1024 .f32).slice r₁ h₁).view.set]{fullShare} f)
        ∗ (∃ f, ((Memref.whole cc0_scratch3 : Memref sig .tc .vmem S2x512x1024 .f32).slice r₂ h₂).view.loc (c : Thread nD τ) ↦[((Memref.whole cc0_scratch3 : Memref sig .tc .vmem S2x512x1024 .f32).slice r₂ h₂).view.set \ ((Memref.whole cc0_scratch3 : Memref sig .tc .vmem S2x512x1024 .f32).slice r₁ h₁).view.set]{fullShare} f))
      ⊢ (iprop(∃ f, (Memref.whole cc0_scratch3 : Memref sig .tc .vmem S2x512x1024 .f32).view.loc (c : Thread nD τ) ↦[(Memref.whole cc0_scratch3 : Memref sig .tc .vmem S2x512x1024 .f32).view.setOn r₂.toLoadRect.set]{fullShare} f) : sProp 𝕄) := by
  show iprop((∃ f, (c : Thread nD τ).loc cc0_scratch3 ↦[((Memref.whole cc0_scratch3 : Memref sig .tc .vmem S2x512x1024 .f32).slice r₁ h₁).view.set]{fullShare} f)
        ∗ (∃ f, (c : Thread nD τ).loc cc0_scratch3 ↦[((Memref.whole cc0_scratch3 : Memref sig .tc .vmem S2x512x1024 .f32).slice r₂ h₂).view.set \ ((Memref.whole cc0_scratch3 : Memref sig .tc .vmem S2x512x1024 .f32).slice r₁ h₁).view.set]{fullShare} f))
      ⊢ (iprop(∃ f, (c : Thread nD τ).loc cc0_scratch3 ↦[(Memref.whole cc0_scratch3 : Memref sig .tc .vmem S2x512x1024 .f32).view.setOn r₂.toLoadRect.set]{fullShare} f) : sProp 𝕄)
  rw [f3_set r₁ h₁, f3_set r₂ h₂]
  iintro ⟨⟨%g, H1⟩, ⟨%f, H2⟩⟩
  iexists _
  iapply (pointsTo_join_subset hsub)
  isplitl [H1]; · iexact H1
  iexact H2

theorem f3_slots_join (c : Dev nD) (fa fb : Buf (Elt F) ((c : Thread nD τ).loc cc0_scratch3)) :
    iprop(((Memref.whole cc0_scratch3 : Memref sig .tc .vmem S2x512x1024 .f32).view.loc (c : Thread nD τ) ↦[(Memref.whole cc0_scratch3 : Memref sig .tc .vmem S2x512x1024 .f32).view.setOn (Rect.unit (s := S2x512x1024) ![0, 0, 0] S1x512x1024.size inb_S2x512x1024_S1x512x1024_0_0_0).toLoadRect.set]{fullShare} fa)
        ∗ ((Memref.whole cc0_scratch3 : Memref sig .tc .vmem S2x512x1024 .f32).view.loc (c : Thread nD τ) ↦[(Memref.whole cc0_scratch3 : Memref sig .tc .vmem S2x512x1024 .f32).view.setOn (Rect.unit (s := S2x512x1024) ![1, 0, 0] S1x512x1024.size inb_S2x512x1024_S1x512x1024_1_0_0).toLoadRect.set]{fullShare} fb))
      ⊢ (iprop(∃ f : Buf (Elt F) ((c : Thread nD τ).loc cc0_scratch3), ((c : Thread nD τ).loc cc0_scratch3) ↦{fullShare} f) : sProp 𝕄) := by
  show iprop(((c : Thread nD τ).loc cc0_scratch3 ↦[(View.whole cc0_scratch3 : View sig .tc _ _ _).setOn (Rect.unit (s := S2x512x1024) ![0, 0, 0] S1x512x1024.size inb_S2x512x1024_S1x512x1024_0_0_0).toLoadRect.set]{fullShare} fa)
        ∗ ((c : Thread nD τ).loc cc0_scratch3 ↦[(View.whole cc0_scratch3 : View sig .tc _ _ _).setOn (Rect.unit (s := S2x512x1024) ![1, 0, 0] S1x512x1024.size inb_S2x512x1024_S1x512x1024_1_0_0).toLoadRect.set]{fullShare} fb))
      ⊢ (iprop(∃ f : Buf (Elt F) ((c : Thread nD τ).loc cc0_scratch3), (c : Thread nD τ).loc cc0_scratch3 ↦[Finset.univ]{fullShare} f) : sProp 𝕄)
  rw [setOn_whole, setOn_whole, slots_cover]
  iintro ⟨A, B⟩
  iexists _
  iapply (pointsTo_join slots_disj)
  isplitl [A]; · iexact A
  iexact B

theorem close_f32 (c : Dev nD) :
    iprop((∃ f, (w0_384.view.loc (c : Thread nD τ) ↦[w0_384.view.set]{fullShare} f))
        ∗ (∃ f, (w0_512.view.loc (c : Thread nD τ) ↦[w0_512.view.set \ w0_384.view.set]{fullShare} f))
        ∗ (∃ f, (w1_128.view.loc (c : Thread nD τ) ↦[w1_128.view.set]{fullShare} f))
        ∗ (∃ f, (w1_512.view.loc (c : Thread nD τ) ↦[w1_512.view.set \ w1_128.view.set]{fullShare} f)))
      ⊢ (iprop(∃ f : Buf (Elt F) ((c : Thread nD τ).loc cc0_scratch3), ((c : Thread nD τ).loc cc0_scratch3) ↦{fullShare} f) : sProp 𝕄) := by
  iintro ⟨A1, A2, B1, B2⟩
  ihave A := (f3_join c (Rect.unit (s := S2x512x1024) ![0, 0, 0] S1x384x1024.size inb_S2x512x1024_S1x384x1024_0_0_0) (Rect.unit (s := S2x512x1024) ![0, 0, 0] S1x512x1024.size inb_S2x512x1024_S1x512x1024_0_0_0) (fun _ => rfl) (fun _ => rfl) incl_0_384) $$ [A1 A2]
  · isplitl [A1]; · iexact A1
    iexact A2
  icases A with ⟨%fa, A⟩
  ihave B := (f3_join c (Rect.unit (s := S2x512x1024) ![1, 0, 0] S1x128x1024.size inb_S2x512x1024_S1x128x1024_1_0_0) (Rect.unit (s := S2x512x1024) ![1, 0, 0] S1x512x1024.size inb_S2x512x1024_S1x512x1024_1_0_0) (fun _ => rfl) (fun _ => rfl) incl_1_128) $$ [B1 B2]
  · isplitl [B1]; · iexact B1
    iexact B2
  icases B with ⟨%fb, B⟩
  iapply (f3_slots_join c fa fb)
  isplitl [A]; · iexact A
  iexact B

theorem body_open (c : Dev nD) (W : Waits sig Unit) :
    iprop(Φ₀ m c ∗ owes (c : Thread nD τ) (O₀ c) W)
      ⊢ iprop(∃ K f3 fxb fsm fyr fo, records m K ∗ bodyPre m c K W f3 fxb fsm fyr fo) := by
  unfold Φ₀ start scratch ghost linear payToks creds lsems0
  iintro ⟨⟨⟨⟨%K, #HR, Hat, Htok⟩, HL, Hcr, Hlev, Ha, Hv⟩, ⟨%f0, H0⟩, ⟨%f1, H1⟩, ⟨%f2, H2⟩, ⟨%f3, H3⟩⟩, Ho⟩
  iexists K
  iexists f3
  iexists f0
  iexists f2
  iexists f1
  iexists (m ((c : Thread nD τ).loc main_v1))
  isplitr; · iexact HR
  unfold bodyPre
  simp only [sep18_eq, sep20_eq]
  isplitr; · iapply (open_inv m c K); iexact HR
  isplitr; · iapply (open_reached m c K); iexact HR
  isplitl [Hlev]; · iexact Hlev
  isplitl [Ho]; · iexact Ho
  isplitl [Htok]; · iexact Htok
  isplitl [Hat]; · iapply (open_at (F := F) c); iexact Hat
  isplitl [Hcr]; · iexact Hcr
  isplitl [HL]; · iexact HL
  isplitl [Ha]; · iexact Ha
  isplitl [H3]; · iapply (open_f32 c f3); iexact H3
  isplitl [H0]; · iapply (carve_xb c fullShare f0).1; iexact H0
  isplitl [H2]; · iapply (carve_sm c fullShare f2).1; iexact H2
  isplitl [H1]; · iapply (carve_yr c fullShare f1).1; iexact H1
  iapply (carve_out c c (m ((c : Thread nD τ).loc main_v1))).1; iexact Hv

theorem body_close (c : Dev nD) (K : Dev nD × Fin 73 → ℕ) :
    iprop(records m K ∗ bodyPost m c)
      ⊢ |={Set.univ}=> iprop(Φ₁ m c ∗ ∃ W' : Waits sig Unit, owes (c : Thread nD τ) 0 W') := by
  unfold bodyPost
  simp only [sep18_eq, sep20_eq]
  iintro ⟨#HR, HO, Hf, Ha, Hxb, Hsm, Hyr, Ho1, Ho2, ⟨A0, A1, A2, A3⟩, HL⟩
  imod (close_fam m K c 0) $$ [A0] with Z0
  · isplitr; · iexact HR
    iexact A0
  imod (close_fam m K c 1) $$ [A1] with Z1
  · isplitr; · iexact HR
    iexact A1
  imod (close_fam m K c 2) $$ [A2] with Z2
  · isplitr; · iexact HR
    iexact A2
  imod (close_fam m K c 3) $$ [A3] with Z3
  · isplitr; · iexact HR
    iexact A3
  imodintro
  unfold Φ₁ scratch
  isplitr [HO]
  · isplitl [Hxb Hyr Hsm Hf]
    · isplitl [Hxb]; · iexists (XB m c); iapply (carve_xb c fullShare (XB m c)).2; iapply (of_halves c xbM fun _ => XB m c); iexact Hxb
      isplitl [Hyr]; · iexists (YR m c); iapply (carve_yr c fullShare (YR m c)).2; iexact Hyr
      isplitl [Hsm]; · iexists (SUMv m c); iapply (carve_sm c fullShare (SUMv m c)).2; iapply (of_halves c smM fun _ => SUMv m c); iexact Hsm
      iapply (close_f32 c); iexact Hf
    isplitl [Z0 Z1 Z2 Z3 HL]
    · iapply (sems_join (F := F) c)
      isplitl [Z0]; · iexact Z0
      isplitl [Z1]; · iexact Z1
      isplitl [Z2]; · iexact Z2
      isplitl [Z3]; · iexact Z3
      iexact HL
    isplitl [Ha]; · iexact Ha
    iapply (carve_out c c (OUT m c)).2
    isplitl [Ho1]; · iexact Ho1
    iexact Ho2
  · iexact HO

theorem body_obligation (c : Dev nD) : BodyObligation (dats (F := F) m 0 c) (defs₀ (F := F)) 𝒱₀ () Set.univ := fun t => by
  rw [Gen.fin_N0 t]
  have hpre : iprop((dats m 0 c).Φ t0_0.castSucc ∗ (dats m 0 c).owesAt () t0_0.castSucc ∗ emp)
      ⊢ iprop(∃ K W f3 fxb fsm fyr fo, records m K ∗ bodyPre m c K W f3 fxb fsm fyr fo) := by
    rw [show (dats m 0 c).Φ t0_0.castSucc = Φ₀ m c from rfl]
    unfold Dat.owesAt Pipeline.owesWithin
    rw [show (dats m 0 c).owed t0_0.castSucc = O₀ c from rfl]
    iintro ⟨HΦ, ⟨%W, -, Ho⟩, -⟩
    ihave H := (body_open m c W) $$ [HΦ Ho]
    · isplitl [HΦ]; · iexact HΦ
      iexact Ho
    icases H with ⟨%K, %f3, %fxb, %fsm, %fyr, %fo, H⟩
    iexists K, W, f3, fxb, fsm, fyr, fo
    iexact H
  have hpost : iprop(Φ₁ m c ∗ ∃ W' : Waits sig Unit, owes (c : Thread nD τ) 0 W')
      ⊢ iprop((dats m 0 c).Φ t0_0.succ ∗ (dats m 0 c).owesAt () t0_0.succ ∗ emp) := by
    rw [show (dats m 0 c).Φ t0_0.succ = Φ₁ m c from rfl]
    unfold Dat.owesAt Pipeline.owesWithin
    rw [show (dats m 0 c).owed t0_0.succ = 0 from rfl]
    iintro ⟨HΦ, ⟨%W', Ho⟩⟩
    isplitl [HΦ]; · iexact HΦ
    isplitl [Ho]
    · iexists W'
      isplitr; · ipureintro; exact fun _ _ => Or.inl trivial
      iexact Ho
    · iempintro
  have hrun (K : Dev nD × Fin 73 → ℕ) (W : Waits sig Unit) (f3 fxb fsm fyr fo) :
      iprop(records m K ∗ bodyPre m c K W f3 fxb fsm fyr fo)
        ⊢ wp frame (wpE (defs₀ (F := F)) 𝒱₀ (c : Thread nD τ) none) Set.univ
            (defs₀ Proc.tc cfg0.body (cfg0.bodyArgs t0_0 (cfg0.slots t0_0)))
            (fun _ => iprop((dats m 0 c).Φ t0_0.succ ∗ (dats m 0 c).owesAt () t0_0.succ ∗ emp)) :=
    ((sep_mono_right (sound_body m c K W f3 fxb fsm fyr fo)).trans (wp_frame_l _ _ _)).trans
      ((wp_mono _ _ _ fun _ => (body_close m c K).trans (BI.fupd_mono hpost)).trans (wp_fupd _ _ _ _ _))
  rw [show (Finset.univ : Finset (Fin cfg0.W)) = ∅ from rfl, bigSep_empty, bigSep_empty]
  refine hpre.trans ?_
  iintro ⟨%K, %W, %f3, %fxb, %fsm, %fyr, %fo, H⟩
  iapply (hrun K W f3 fxb fsm fyr fo)
  iexact H

end Cert.Kernel.AR

end
-- ==== Proof.Bits.Launch.lean ====
import proofs.«900140_g7700000000000141_dist_ar_v7x_xy2x2_y_m16384_n1024_bf16_1_alg».proof.Proof.Bits.Body

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem :=
  ⟨by decide, fun a b h => SemLoc.dma.inj h, fun k w s => w.elim0⟩

theorem csem_injective : Function.Injective csem := by
  intro j j' h
  unfold csem at h
  by_cases h0 : j.val = 0 <;> by_cases h0' : j'.val = 0
  · exact Fin.ext (h0.trans h0'.symm)
  · rw [dif_pos h0, dif_neg h0'] at h; cases h
  · rw [dif_neg h0, dif_pos h0'] at h; cases h
  · rw [dif_neg h0, dif_neg h0'] at h
    have h1 := congrArg Fin.val (SemLoc.dma.inj h)
    simp only at h1
    exact Fin.ext (by omega)

theorem kcell_injective : Function.Injective (kcell : Dev nD × Fin 73 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

def tokOf (cx : Dev nD × (Bool ⊕ (Fin 4 × Fin 18))) : GSem nD τ sig × ℕ × Bool := match cx.2 with
  | .inl d => (barCell cx.1, 0, d)
  | .inr ak => (dcell cx.1 ak.1 ak.2, 0, false)

theorem tokOf_injective : Function.Injective (tokOf : Dev nD × (Bool ⊕ (Fin 4 × Fin 18)) → GSem nD τ sig × ℕ × Bool) := by
  rintro ⟨c, x⟩ ⟨c', x'⟩ h
  have h1 : c = c' := by
    have := congrArg (fun x : GSem nD τ sig × ℕ × Bool => x.1.1.1) h
    rcases x with d | ak <;> rcases x' with d' | ak' <;> exact this
  subst h1
  rcases x with d | ak <;> rcases x' with d' | ak'
  · have h2 : d = d' := congrArg (fun x : GSem nD τ sig × ℕ × Bool => x.2.2) h
    rw [h2]
  · exact absurd (congrArg (fun x : GSem nD τ sig × ℕ × Bool => x.1.2) h) (fun h' => by cases h')
  · exact absurd (congrArg (fun x : GSem nD τ sig × ℕ × Bool => x.1.2) h) (fun h' => by cases h')
  · have h2 : (SemLoc.dma (dsem ak.1 ak.2) : SemLoc sig) = .dma (dsem ak'.1 ak'.2) := congrArg (fun x : GSem nD τ sig × ℕ × Bool => x.1.2) h
    have h3 := congrArg famOf (SemLoc.dma.inj h2)
    rw [famOf_dsem, famOf_dsem] at h3
    have h4 : ak = ak' := Option.some.inj h3
    rw [h4]

def protoToks : Finset (GSem nD τ sig × ℕ × Bool) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop((dutyTok ER (barCell c) 0 false ∗ dutyTok ER (barCell c) 0 true)
    ∗ (bigSep Finset.univ fun k : Fin 18 => dutyTok ER (dcell c 0 k) 0 false)
    ∗ (bigSep Finset.univ fun k : Fin 18 => dutyTok ER (dcell c 1 k) 0 false)
    ∗ (bigSep Finset.univ fun k : Fin 18 => dutyTok ER (dcell c 2 k) 0 false)
    ∗ (bigSep Finset.univ fun k : Fin 18 => dutyTok ER (dcell c 3 k) 0 false))

def G (c : Dev nD) : sProp 𝕄 :=
  iprop((bigSep Finset.univ fun j : Fin 73 => roundState ER (Rd m) (kcell (c, j)) 0)
    ∗ (bigSep Finset.univ fun j : Fin 73 => iprop(atPos ER (kcell (c, j)) 0 ∅ 0 ∗ reached ER (kcell (c, j)) 0)) ∗ toks (F := F) c)

def G' (c : Dev nD) : sProp 𝕄 := iprop((∃ K, ghost m K c) ∗ lsems0 (F := F) c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun j : Fin 73 => Φ (kcell (c, j)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by rw [bigSep_univ_sum, bigSep_bool', bigSep_univ_prod, bigSep_fin4]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 73 => semVal (kcell (c, j)) 0) ∗ lsems0 c) : sProp 𝕄) := by
  rw [unscopedSems0_eq, bigSep_cells c (fun g => semVal g 0)]
  unfold Pipeline.ownSems0 lsems0
  rw [bigSep_fin92]
  iintro ⟨⟨HP, HL⟩, HB⟩
  isplitr [HL]
  · isplitl [HB]; · iexact HB
    iexact HP
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 73 => iprop(∃ κ : ℕ, cellInv ER (Rd m) κ (kcell (c, j))))
          ∗ (bigSep Finset.univ fun j : Fin 73 => iprop(atPos ER (kcell (c, j)) 0 ∅ 0 ∗ reached ER (kcell (c, j)) 0)) ∗ toks c ∗ lsems0 c) := by
  unfold G
  iintro ⟨Hos, Hus, Hst, Hat, Htok⟩
  ihave Hv := (sems0_split (F := F) c) $$ [Hos Hus]
  · isplitl [Hos] <;> iassumption
  icases Hv with ⟨Hv, HL⟩
  imod (show iprop((bigSep Finset.univ fun j : Fin 73 => semVal (kcell (c, j)) 0) ∗ bigSep Finset.univ fun j : Fin 73 => roundState ER (Rd m) (kcell (c, j)) 0)
      ⊢ (|={Set.univ}=> bigSep Finset.univ fun j : Fin 73 => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

theorem ghost_intro (K : Dev nD × Fin 73 → ℕ) (c : Dev nD) : iprop(records m K ∗ (linear c ∗ lsems0 c)) ⊢ G' m c := by
  unfold G' ghost
  iintro ⟨HR, HL, HS⟩
  isplitr [HS]
  · iexists K
    isplitl [HR]; · iexact HR
    iexact HL
  · iexact HS

theorem toks_around : (bigSep Finset.univ fun c : Dev nD => (toks c : sProp 𝕄)) ⊢ bigSep Finset.univ fun c : Dev nD => payToks c := by
  unfold toks payToks
  simp only [bigSep_sep']
  rw [bigSep_univ_equiv ySwap (fun c : Dev nD => (dutyTok ER (barCell c) 0 false : sProp 𝕄)),
    bigSep_univ_equiv xSwap (fun c : Dev nD => (dutyTok ER (barCell c) 0 true : sProp 𝕄)),
    bigSep_univ_equiv ySwap (fun c : Dev nD => (bigSep Finset.univ fun k : Fin 18 => dutyTok ER (dcell c 1 k) 0 false : sProp 𝕄)),
    bigSep_univ_equiv xSwap (fun c : Dev nD => (bigSep Finset.univ fun k : Fin 18 => dutyTok ER (dcell c 3 k) 0 false : sProp 𝕄))]
  iintro ⟨⟨HBF, HBT⟩, H0, H1, H2, H3⟩
  isplitl [HBF]; · iexact HBF
  isplitl [HBT]; · iexact HBT
  isplitl [H1]; · iexact H1
  isplitl [H3]; · iexact H3
  isplitl [H0]; · iexact H0
  iexact H2

theorem regroup :
    (bigSep Finset.univ fun c : Dev nD => iprop((bigSep Finset.univ fun j : Fin 73 => iprop(∃ κ : ℕ, cellInv ER (Rd m) κ (kcell (c, j))))
          ∗ (bigSep Finset.univ fun j : Fin 73 => iprop(atPos ER (kcell (c, j)) 0 ∅ 0 ∗ reached ER (kcell (c, j)) 0)) ∗ toks c ∗ lsems0 c) : sProp 𝕄)
      ⊢ bigSep Finset.univ (G' m) := by
  rw [bigSep_sep', bigSep_sep', bigSep_sep', ← bigSep_univ_prod (fun cj : Dev nD × Fin 73 => iprop(∃ κ : ℕ, cellInv ER (Rd m) κ (kcell cj))),
    bigSep_congr (s := Finset.univ) (fun (c : Dev nD) _ => bigSep_sep' Finset.univ (fun j : Fin 73 => (atPos ER (kcell (c, j)) 0 ∅ 0 : sProp 𝕄)) (fun j => reached ER (kcell (c, j)) 0)),
    bigSep_sep', ← bigSep_univ_prod (fun cj : Dev nD × Fin 73 => (reached ER (kcell cj) 0 : sProp 𝕄))]
  iintro ⟨HI, ⟨Hat, #HR⟩, Htok, HL⟩
  ihave HK := (BI.bigSep_exists_pi Finset.univ (fun (cj : Dev nD × Fin 73) (κ : ℕ) => (cellInv ER (Rd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [bigSep_sep']
    isplitr [HL]
    · unfold linear; rw [bigSep_sep']
      isplitl [Hat]; · iexact Hat
      iexact Htk
    · iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem creds_intro (c : Dev nD) : (Pipeline.launchCred O₀ c : sProp 𝕄) ⊢ creds c := by
  have e : (O₀ : Dev nD → CellTallies nD τ sig Unit)
      = fun d => ((Oy d 0 + Ox d 0) + tallyAt (barCell (xn d)) () 1) + tallyAt (barCell (yn d)) () 1 := rfl
  have hall : (Finset.univ.filter fun k : Fin 18 => 0 ≤ k.val) = Finset.univ := Finset.filter_true_of_mem fun k _ => Nat.zero_le _
  have hy : (bigSep Finset.univ fun k : Fin 18 => Pipeline.launchCred (fun d => tallyAt (dcell (yn d) 1 k) () (Ny k)) c : sProp 𝕄)
      ⊢ bigSep Finset.univ fun k : Fin 18 => cred (tallyAt (dcell c 1 k) () (Ny k)) :=
    bigSep_mono fun k _ => Pipeline.launchCred_tallyAt (SemLoc.dma (dsem 1 k)) yn yn yn_yn yn_yn () (Ny k) c
  have hx : (bigSep Finset.univ fun k : Fin 18 => Pipeline.launchCred (fun d => tallyAt (dcell (xn d) 3 k) () (Nx k)) c : sProp 𝕄)
      ⊢ bigSep Finset.univ fun k : Fin 18 => cred (tallyAt (dcell c 3 k) () (Nx k)) :=
    bigSep_mono fun k _ => Pipeline.launchCred_tallyAt (SemLoc.dma (dsem 3 k)) xn xn xn_xn xn_xn () (Nx k) c
  rw [e, Pipeline.launchCred_add (fun d => (Oy d 0 + Ox d 0) + tallyAt (barCell (xn d)) () 1) (fun d => tallyAt (barCell (yn d)) () 1) c,
    Pipeline.launchCred_add (fun d => Oy d 0 + Ox d 0) (fun d => tallyAt (barCell (xn d)) () 1) c,
    Pipeline.launchCred_add (fun d => Oy d 0) (fun d => Ox d 0) c]
  unfold Oy Ox
  rw [hall, Pipeline.launchCred_sum Finset.univ (fun (k : Fin 18) d => tallyAt (dcell (yn d) 1 k) () (Ny k)) c,
    Pipeline.launchCred_sum Finset.univ (fun (k : Fin 18) d => tallyAt (dcell (xn d) 3 k) () (Nx k)) c]
  iintro ⟨⟨⟨Hy, Hx⟩, HbX⟩, HbY⟩
  ihave H1 := (Pipeline.launchCred_tallyAt (SemLoc.reg barS) xn xn xn_xn xn_xn () 1 c) $$ HbX
  ihave H2 := (Pipeline.launchCred_tallyAt (SemLoc.reg barS) yn yn yn_yn yn_yn () 1 c) $$ HbY
  ihave H12 := ((cred_add _ _).2.trans (Entails.of_eq (congrArg cred (tallyAt_add (barCell c) () 1 1)))) $$ [H1 H2]
  · isplitl [H1] <;> iassumption
  ihave Hy' := hy $$ Hy
  ihave Hx' := hx $$ Hx
  unfold creds
  isplitl [H12]; · iexact H12
  isplitl [Hy']; · iexact Hy'
  iexact Hx'

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Ha, Hv⟩, Hlev, Hcr, -, ⟨HG, HL⟩⟩
  ihave Hc := (creds_intro (F := F) c) $$ Hcr
  imodintro
  unfold start
  isplitl
  · isplitl [HG]; · iexact HG
    isplitl [HL]; · iexact HL
    isplitl [Hc]; · iexact Hc
    isplitl [Hlev]; · iexact Hlev
    isplitl [Ha]; · iexact Ha
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

def Y (c : Dev nD) : sProp 𝕄 :=
  iprop((((c : Thread nD τ).loc main_arg0) ↦{fullShare} m ((c : Thread nD τ).loc main_arg0))
    ∗ (((c : Thread nD τ).loc main_v1) ↦{fullShare} OUT m c))

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ scratch Y Pipeline.ownSems0
  iintro ⟨Hr, Hz, Ha, Hv⟩
  isplitl [Ha Hv]
  · isplitl [Ha] <;> iassumption
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t => w.elim0

set_option maxRecDepth 8000 in

theorem run_main : θ_run (defs (F := F)) (onTc (τ := τ) (main (F := F))) (s₀ m ρ) (fun r => ∀ c : Dev nD,
    r.2.mem ((c : Thread nD τ).loc main_v1) = OUT m c
    ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HB, -⟩
      imod (show (BI.own (((Emb.inl : Emb UB (UB × Counters)).trans embR) (initOf protoCells protoToks)) : sProp 𝕄) ⊢ _ from fund_proto m) $$ HB with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c : Thread nD τ).loc main_v1) = OUT m c
      ∧ s.mem ((c : Thread nD τ).loc main_arg0) = m ((c : Thread nD τ).loc main_arg0))
    (hY := fun c s' => by
      unfold Y
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

end Cert.Kernel.AR

end
-- ==== Proof.lean ====
import proofs.«900140_g7700000000000141_dist_ar_v7x_xy2x2_y_m16384_n1024_bf16_1_alg».proof.Defs
import proofs.«900140_g7700000000000141_dist_ar_v7x_xy2x2_y_m16384_n1024_bf16_1_alg».proof.Proof.Gen.Kernel
import proofs.«900140_g7700000000000141_dist_ar_v7x_xy2x2_y_m16384_n1024_bf16_1_alg».proof.Proof.Gen.Kernel.Skeleton
import proofs.«900140_g7700000000000141_dist_ar_v7x_xy2x2_y_m16384_n1024_bf16_1_alg».proof.Proof.Gen.Kernel.Launch
import proofs.«900140_g7700000000000141_dist_ar_v7x_xy2x2_y_m16384_n1024_bf16_1_alg».proof.Proof.Gen.Kernel.Points
import proofs.«900140_g7700000000000141_dist_ar_v7x_xy2x2_y_m16384_n1024_bf16_1_alg».proof.Proof.Gen.Kernel.Frame
import proofs.«900140_g7700000000000141_dist_ar_v7x_xy2x2_y_m16384_n1024_bf16_1_alg».proof.Proof.Gen.KernelIdeal
import proofs.«900140_g7700000000000141_dist_ar_v7x_xy2x2_y_m16384_n1024_bf16_1_alg».proof.Proof.Gen.KernelIdeal.Skeleton
import proofs.«900140_g7700000000000141_dist_ar_v7x_xy2x2_y_m16384_n1024_bf16_1_alg».proof.Proof.Gen.KernelIdeal.Launch
import proofs.«900140_g7700000000000141_dist_ar_v7x_xy2x2_y_m16384_n1024_bf16_1_alg».proof.Proof.Gen.KernelIdeal.Points
import proofs.«900140_g7700000000000141_dist_ar_v7x_xy2x2_y_m16384_n1024_bf16_1_alg».proof.Proof.Gen.KernelIdeal.Frame
import proofs.«900140_g7700000000000141_dist_ar_v7x_xy2x2_y_m16384_n1024_bf16_1_alg».proof.Proof.Gen.ReferenceIdeal
import proofs.«900140_g7700000000000141_dist_ar_v7x_xy2x2_y_m16384_n1024_bf16_1_alg».proof.Proof.Gen.Pre_finite_inputs_Kernel
import proofs.«900140_g7700000000000141_dist_ar_v7x_xy2x2_y_m16384_n1024_bf16_1_alg».proof.Proof.Gen.Pre_finite_inputs_ReferenceIdeal
import proofs.«900140_g7700000000000141_dist_ar_v7x_xy2x2_y_m16384_n1024_bf16_1_alg».proof.Proof.Gen.ReferenceIdeal.Read
import proofs.«900140_g7700000000000141_dist_ar_v7x_xy2x2_y_m16384_n1024_bf16_1_alg».proof.Proof.Value
import proofs.«900140_g7700000000000141_dist_ar_v7x_xy2x2_y_m16384_n1024_bf16_1_alg».proof.Proof.Launch
import proofs.«900140_g7700000000000141_dist_ar_v7x_xy2x2_y_m16384_n1024_bf16_1_alg».proof.Proof.Bits.Launch
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.AR.run_main (F := Bits) m ρ)

theorem frame_ki : Cert.frame_KernelIdeal := fun m ρ _ =>
  (θ_run Cert.KernelIdeal.defs _ _).mono (fun _ h c => (h c).2) (Cert.KernelIdeal.AR.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨Cert.ReferenceIdeal.Read.val_main_v2 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.KernelIdeal.AR.OUT_eq_ref m _ hagree c), (h c).2⟩)
      (Cert.KernelIdeal.AR.run_main (F := Ideal) m ρ)
  · exact (θ_run Cert.ReferenceIdeal.defs _ _).mono
      (fun _ h => ⟨(h 0).1.trans (Cert.ReferenceIdeal.Read.val_main_v2_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
